-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)) →
    ∃ (v0 : (c : Dev Cert.KernelIdeal.nD) → Buf (Elt Ideal) ((c.tc : Thread Cert.KernelIdeal.nD Cert.KernelIdeal.τ).loc Cert.KernelIdeal.main_v86)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v86) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v109) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x146 : Shape := ⟨2, ![100000, 146]⟩
abbrev S2x500000 : Shape := ⟨2, ![2, 500000]⟩
abbrev S100000 : Shape := ⟨1, ![100000]⟩
abbrev S146x146 : Shape := ⟨2, ![146, 146]⟩
abbrev S146 : Shape := ⟨1, ![146]⟩
abbrev S4x146x146 : Shape := ⟨3, ![4, 146, 146]⟩
abbrev S4x146 : Shape := ⟨2, ![4, 146]⟩
abbrev S146x73 : Shape := ⟨2, ![146, 73]⟩
abbrev S73 : Shape := ⟨1, ![73]⟩
abbrev S73x36 : Shape := ⟨2, ![73, 36]⟩
abbrev S36 : Shape := ⟨1, ![36]⟩
abbrev S36x10 : Shape := ⟨2, ![36, 10]⟩
abbrev S10 : Shape := ⟨1, ![10]⟩
abbrev S_ : Shape := ⟨0, ![]⟩

class Facts : Prop where
  bcast_S_S100000x146 : S_.BroadcastsInDim S100000x146 (![] : Fin 0 → Fin S100000x146.rank)
  reducesTo_S100000x146_S_d0_1 : S100000x146.ReducesTo [0, 1] S_
  h_S_ : 0 < S_.numel
  bcast_S_S146x146 : S_.BroadcastsInDim S146x146 (![] : Fin 0 → Fin S146x146.rank)
  reducesTo_S146x146_S_d0_1 : S146x146.ReducesTo [0, 1] S_
  bcast_S_S146 : S_.BroadcastsInDim S146 (![] : Fin 0 → Fin S146.rank)
  reducesTo_S146_S_d0 : S146.ReducesTo [0] S_
  bcast_S_S4x146x146 : S_.BroadcastsInDim S4x146x146 (![] : Fin 0 → Fin S4x146x146.rank)
  reducesTo_S4x146x146_S_d0_1_2 : S4x146x146.ReducesTo [0, 1, 2] S_
  bcast_S_S4x146 : S_.BroadcastsInDim S4x146 (![] : Fin 0 → Fin S4x146.rank)
  reducesTo_S4x146_S_d0_1 : S4x146.ReducesTo [0, 1] S_
  bcast_S_S146x73 : S_.BroadcastsInDim S146x73 (![] : Fin 0 → Fin S146x73.rank)
  reducesTo_S146x73_S_d0_1 : S146x73.ReducesTo [0, 1] S_
  bcast_S_S73 : S_.BroadcastsInDim S73 (![] : Fin 0 → Fin S73.rank)
  reducesTo_S73_S_d0 : S73.ReducesTo [0] S_
  bcast_S_S73x36 : S_.BroadcastsInDim S73x36 (![] : Fin 0 → Fin S73x36.rank)
  reducesTo_S73x36_S_d0_1 : S73x36.ReducesTo [0, 1] S_
  bcast_S_S36 : S_.BroadcastsInDim S36 (![] : Fin 0 → Fin S36.rank)
  reducesTo_S36_S_d0 : S36.ReducesTo [0] S_
  bcast_S_S36x10 : S_.BroadcastsInDim S36x10 (![] : Fin 0 → Fin S36x10.rank)
  reducesTo_S36x10_S_d0_1 : S36x10.ReducesTo [0, 1] S_
  bcast_S_S10 : S_.BroadcastsInDim S10 (![] : Fin 0 → Fin S10.rank)
  reducesTo_S10_S_d0 : S10.ReducesTo [0] S_

variable [Facts]

def fn_part3 {F : FTy → Type} [FloatOps F] (main_v48 : IVec S_ 1) (main_v49 : FVec F S10 .f32) (main_v50 : FVec F S10 .f32) : IVec S_ 1 :=
  let main_v51 : IVec S10 1 := cmpf .olt main_v49 main_v50
  let main_c_19 : IVec S_ 1 := constantI S_ 1 1#1
  let main_v52 : IVec S_ 1 := (fun x v => Host.reduce IntOp.andi x v reducesTo_S10_S_d0 h_S_) main_v51 main_c_19
  let main_v53 : IVec S_ 1 := andi main_v48 main_v52
  main_v53

def fn_part2 {F : FTy → Type} [FloatOps F] (main_arg9 : FVec F S73x36 .f32) (main_arg10 : FVec F S36 .f32) (main_arg11 : FVec F S36x10 .f32) (main_arg12 : FVec F S10 .f32) (main_v33 : IVec S_ 1) : IVec S_ 1 :=
  let main_v34 : FVec F S73x36 .f32 := Host.absf main_arg9
  let main_cst_12 : FVec F S_ .f32 := constant S_ .f32 0x7F800000#32
  let main_v35 : FVec F S73x36 .f32 := broadcastInDim S73x36 ![] bcast_S_S73x36 main_cst_12
  let main_v36 : IVec S73x36 1 := cmpf .olt main_v34 main_v35
  let main_c_13 : IVec S_ 1 := constantI S_ 1 1#1
  let main_v37 : IVec S_ 1 := (fun x v => Host.reduce IntOp.andi x v reducesTo_S73x36_S_d0_1 h_S_) main_v36 main_c_13
  let main_v38 : IVec S_ 1 := andi main_v33 main_v37
  let main_v39 : FVec F S36 .f32 := Host.absf main_arg10
  let main_cst_14 : FVec F S_ .f32 := constant S_ .f32 0x7F800000#32
  let main_v40 : FVec F S36 .f32 := broadcastInDim S36 ![] bcast_S_S36 main_cst_14
  let main_v41 : IVec S36 1 := cmpf .olt main_v39 main_v40
  let main_c_15 : IVec S_ 1 := constantI S_ 1 1#1
  let main_v42 : IVec S_ 1 := (fun x v => Host.reduce IntOp.andi x v reducesTo_S36_S_d0 h_S_) main_v41 main_c_15
  let main_v43 : IVec S_ 1 := andi main_v38 main_v42
  let main_v44 : FVec F S36x10 .f32 := Host.absf main_arg11
  let main_cst_16 : FVec F S_ .f32 := constant S_ .f32 0x7F800000#32
  let main_v45 : FVec F S36x10 .f32 := broadcastInDim S36x10 ![] bcast_S_S36x10 main_cst_16
  let main_v46 : IVec S36x10 1 := cmpf .olt main_v44 main_v45
  let main_c_17 : IVec S_ 1 := constantI S_ 1 1#1
  let main_v47 : IVec S_ 1 := (fun x v => Host.reduce IntOp.andi x v reducesTo_S36x10_S_d0_1 h_S_) main_v46 main_c_17
  let main_v48 : IVec S_ 1 := andi main_v43 main_v47
  let main_v49 : FVec F S10 .f32 := Host.absf main_arg12
  let main_cst_18 : FVec F S_ .f32 := constant S_ .f32 0x7F800000#32
  let main_v50 : FVec F S10 .f32 := broadcastInDim S10 ![] bcast_S_S10 main_cst_18
  fn_part3 (F := F) main_v48 main_v49 main_v50

def fn_part1 {F : FTy → Type} [FloatOps F] (main_arg6 : FVec F S4x146 .f32) (main_arg7 : FVec F S146x73 .f32) (main_arg8 : FVec F S73 .f32) (main_arg9 : FVec F S73x36 .f32) (main_arg10 : FVec F S36 .f32) (main_arg11 : FVec F S36x10 .f32) (main_arg12 : FVec F S10 .f32) (main_v13 : IVec S_ 1) (main_v16 : IVec S4x146x146 1) : IVec S_ 1 :=
  let main_c_5 : IVec S_ 1 := constantI S_ 1 1#1
  let main_v17 : IVec S_ 1 := (fun x v => Host.reduce IntOp.andi x v reducesTo_S4x146x146_S_d0_1_2 h_S_) main_v16 main_c_5
  let main_v18 : IVec S_ 1 := andi main_v13 main_v17
  let main_v19 : FVec F S4x146 .f32 := Host.absf main_arg6
  let main_cst_6 : FVec F S_ .f32 := constant S_ .f32 0x7F800000#32
  let main_v20 : FVec F S4x146 .f32 := broadcastInDim S4x146 ![] bcast_S_S4x146 main_cst_6
  let main_v21 : IVec S4x146 1 := cmpf .olt main_v19 main_v20
  let main_c_7 : IVec S_ 1 := constantI S_ 1 1#1
  let main_v22 : IVec S_ 1 := (fun x v => Host.reduce IntOp.andi x v reducesTo_S4x146_S_d0_1 h_S_) main_v21 main_c_7
  let main_v23 : IVec S_ 1 := andi main_v18 main_v22
  let main_v24 : FVec F S146x73 .f32 := Host.absf main_arg7
  let main_cst_8 : FVec F S_ .f32 := constant S_ .f32 0x7F800000#32
  let main_v25 : FVec F S146x73 .f32 := broadcastInDim S146x73 ![] bcast_S_S146x73 main_cst_8
  let main_v26 : IVec S146x73 1 := cmpf .olt main_v24 main_v25
  let main_c_9 : IVec S_ 1 := constantI S_ 1 1#1
  let main_v27 : IVec S_ 1 := (fun x v => Host.reduce IntOp.andi x v reducesTo_S146x73_S_d0_1 h_S_) main_v26 main_c_9
  let main_v28 : IVec S_ 1 := andi main_v23 main_v27
  let main_v29 : FVec F S73 .f32 := Host.absf main_arg8
  let main_cst_10 : FVec F S_ .f32 := constant S_ .f32 0x7F800000#32
  let main_v30 : FVec F S73 .f32 := broadcastInDim S73 ![] bcast_S_S73 main_cst_10
  let main_v31 : IVec S73 1 := cmpf .olt main_v29 main_v30
  let main_c_11 : IVec S_ 1 := constantI S_ 1 1#1
  let main_v32 : IVec S_ 1 := (fun x v => Host.reduce IntOp.andi x v reducesTo_S73_S_d0 h_S_) main_v31 main_c_11
  let main_v33 : IVec S_ 1 := andi main_v28 main_v32
  fn_part2 (F := F) main_arg9 main_arg10 main_arg11 main_arg12 main_v33

def fn {F : FTy → Type} [FloatOps F] (main_arg0 : FVec F S100000x146 .f32) (main_arg1 : IVec S2x500000 32) (main_arg2 : IVec S100000 32) (main_arg3 : FVec F S146x146 .f32) (main_arg4 : FVec F S146 .f32) (main_arg5 : FVec F S4x146x146 .f32) (main_arg6 : FVec F S4x146 .f32) (main_arg7 : FVec F S146x73 .f32) (main_arg8 : FVec F S73 .f32) (main_arg9 : FVec F S73x36 .f32) (main_arg10 : FVec F S36 .f32) (main_arg11 : FVec F S36x10 .f32) (main_arg12 : FVec F S10 .f32) : IVec S_ 1 :=
  let main_v0 : FVec F S100000x146 .f32 := Host.absf main_arg0
  let main_cst : FVec F S_ .f32 := constant S_ .f32 0x7F800000#32
  let main_v1 : FVec F S100000x146 .f32 := broadcastInDim S100000x146 ![] bcast_S_S100000x146 main_cst
  let main_v2 : IVec S100000x146 1 := cmpf .olt main_v0 main_v1
  let main_c : IVec S_ 1 := constantI S_ 1 1#1
  let main_v3 : IVec S_ 1 := (fun x v => Host.reduce IntOp.andi x v reducesTo_S100000x146_S_d0_1 h_S_) main_v2 main_c
  let main_v4 : FVec F S146x146 .f32 := Host.absf main_arg3
  let main_cst_0 : FVec F S_ .f32 := constant S_ .f32 0x7F800000#32
  let main_v5 : FVec F S146x146 .f32 := broadcastInDim S146x146 ![] bcast_S_S146x146 main_cst_0
  let main_v6 : IVec S146x146 1 := cmpf .olt main_v4 main_v5
  let main_c_1 : IVec S_ 1 := constantI S_ 1 1#1
  let main_v7 : IVec S_ 1 := (fun x v => Host.reduce IntOp.andi x v reducesTo_S146x146_S_d0_1 h_S_) main_v6 main_c_1
  let main_v8 : IVec S_ 1 := andi main_v3 main_v7
  let main_v9 : FVec F S146 .f32 := Host.absf main_arg4
  let main_cst_2 : FVec F S_ .f32 := constant S_ .f32 0x7F800000#32
  let main_v10 : FVec F S146 .f32 := broadcastInDim S146 ![] bcast_S_S146 main_cst_2
  let main_v11 : IVec S146 1 := cmpf .olt main_v9 main_v10
  let main_c_3 : IVec S_ 1 := constantI S_ 1 1#1
  let main_v12 : IVec S_ 1 := (fun x v => Host.reduce IntOp.andi x v reducesTo_S146_S_d0 h_S_) main_v11 main_c_3
  let main_v13 : IVec S_ 1 := andi main_v8 main_v12
  let main_v14 : FVec F S4x146x146 .f32 := Host.absf main_arg5
  let main_cst_4 : FVec F S_ .f32 := constant S_ .f32 0x7F800000#32
  let main_v15 : FVec F S4x146x146 .f32 := broadcastInDim S4x146x146 ![] bcast_S_S4x146x146 main_cst_4
  let main_v16 : IVec S4x146x146 1 := cmpf .olt main_v14 main_v15
  fn_part1 (F := F) main_arg6 main_arg7 main_arg8 main_arg9 main_arg10 main_arg11 main_arg12 main_v13 main_v16
-- ==== Kernel.lean ====
abbrev S100000x146 : Shape := ⟨2, ![100000, 146]⟩
abbrev S2x500000 : Shape := ⟨2, ![2, 500000]⟩
abbrev S100000 : Shape := ⟨1, ![100000]⟩
abbrev S146x146 : Shape := ⟨2, ![146, 146]⟩
abbrev S146 : Shape := ⟨1, ![146]⟩
abbrev S4x146x146 : Shape := ⟨3, ![4, 146, 146]⟩
abbrev S4x146 : Shape := ⟨2, ![4, 146]⟩
abbrev S146x73 : Shape := ⟨2, ![146, 73]⟩
abbrev S73 : Shape := ⟨1, ![73]⟩
abbrev S73x36 : Shape := ⟨2, ![73, 36]⟩
abbrev S36 : Shape := ⟨1, ![36]⟩
abbrev S36x10 : Shape := ⟨2, ![36, 10]⟩
abbrev S10 : Shape := ⟨1, ![10]⟩
abbrev S1x500000 : Shape := ⟨2, ![1, 500000]⟩
abbrev S500000 : Shape := ⟨1, ![500000]⟩
abbrev S100000x1 : Shape := ⟨2, ![100000, 1]⟩
abbrev S1x146x146 : Shape := ⟨3, ![1, 146, 146]⟩
abbrev S1x146 : Shape := ⟨2, ![1, 146]⟩
abbrev S4000x146 : Shape := ⟨2, ![4000, 146]⟩
abbrev S_ : Shape := ⟨0, ![]⟩
abbrev S500000x1 : Shape := ⟨2, ![500000, 1]⟩
abbrev S500000x146 : Shape := ⟨2, ![500000, 146]⟩
abbrev S256x147 : Shape := ⟨2, ![256, 147]⟩
abbrev S4000x1 : Shape := ⟨2, ![4000, 1]⟩
abbrev S4000x256 : Shape := ⟨2, ![4000, 256]⟩
abbrev S4000x147 : Shape := ⟨2, ![4000, 147]⟩
abbrev S256x146 : Shape := ⟨2, ![256, 146]⟩
abbrev S256x1 : Shape := ⟨2, ![256, 1]⟩
abbrev S1x73 : Shape := ⟨2, ![1, 73]⟩
abbrev S1x36 : Shape := ⟨2, ![1, 36]⟩
abbrev S1x10 : Shape := ⟨2, ![1, 10]⟩
abbrev S256x10 : Shape := ⟨2, ![256, 10]⟩
abbrev S256x73 : Shape := ⟨2, ![256, 73]⟩
abbrev S256x36 : Shape := ⟨2, ![256, 36]⟩

abbrev nBuf : Space → Nat
  | .hbm => 113
  | .vmem => 39
  | .smem => 0
  | _ => 0

abbrev bufTy : (tb : Table) → Fin (tcTables nBuf tb) → BufTy
  | .hbm, ⟨0, _⟩ => ⟨S100000x146, .f32⟩
  | .hbm, ⟨1, _⟩ => ⟨S2x500000, .i32⟩
  | .hbm, ⟨2, _⟩ => ⟨S100000, .i32⟩
  | .hbm, ⟨3, _⟩ => ⟨S146x146, .f32⟩
  | .hbm, ⟨4, _⟩ => ⟨S146, .f32⟩
  | .hbm, ⟨5, _⟩ => ⟨S4x146x146, .f32⟩
  | .hbm, ⟨6, _⟩ => ⟨S4x146, .f32⟩
  | .hbm, ⟨7, _⟩ => ⟨S146x73, .f32⟩
  | .hbm, ⟨8, _⟩ => ⟨S73, .f32⟩
  | .hbm, ⟨9, _⟩ => ⟨S73x36, .f32⟩
  | .hbm, ⟨10, _⟩ => ⟨S36, .f32⟩
  | .hbm, ⟨11, _⟩ => ⟨S36x10, .f32⟩
  | .hbm, ⟨12, _⟩ => ⟨S10, .f32⟩
  | .hbm, ⟨13, _⟩ => ⟨S1x500000, .i32⟩
  | .hbm, ⟨14, _⟩ => ⟨S500000, .i32⟩
  | .hbm, ⟨15, _⟩ => ⟨S1x500000, .i32⟩
  | .hbm, ⟨16, _⟩ => ⟨S500000, .i32⟩
  | .hbm, ⟨17, _⟩ => ⟨S100000x1, .i32⟩
  | .hbm, ⟨18, _⟩ => ⟨S1x146x146, .f32⟩
  | .hbm, ⟨19, _⟩ => ⟨S146x146, .f32⟩
  | .hbm, ⟨20, _⟩ => ⟨S146x146, .f32⟩
  | .hbm, ⟨21, _⟩ => ⟨S1x146, .f32⟩
  | .hbm, ⟨22, _⟩ => ⟨S1x146x146, .f32⟩
  | .hbm, ⟨23, _⟩ => ⟨S146x146, .f32⟩
  | .hbm, ⟨24, _⟩ => ⟨S1x146, .f32⟩
  | .hbm, ⟨25, _⟩ => ⟨S146, .f32⟩
  | .hbm, ⟨26, _⟩ => ⟨S1x146, .f32⟩
  | .hbm, ⟨27, _⟩ => ⟨S100000x146, .f32⟩
  | .hbm, ⟨28, _⟩ => ⟨S_, .i32⟩
  | .hbm, ⟨29, _⟩ => ⟨S500000, .i32⟩
  | .hbm, ⟨30, _⟩ => ⟨S500000, .i1⟩
  | .hbm, ⟨31, _⟩ => ⟨S_, .i32⟩
  | .hbm, ⟨32, _⟩ => ⟨S500000, .i32⟩
  | .hbm, ⟨33, _⟩ => ⟨S500000, .i32⟩
  | .hbm, ⟨34, _⟩ => ⟨S500000, .i32⟩
  | .hbm, ⟨35, _⟩ => ⟨S500000x1, .i32⟩
  | .hbm, ⟨36, _⟩ => ⟨S500000x146, .f32⟩
  | .hbm, ⟨37, _⟩ => ⟨S_, .f32⟩
  | .hbm, ⟨38, _⟩ => ⟨S100000x146, .f32⟩
  | .hbm, ⟨39, _⟩ => ⟨S500000x1, .i32⟩
  | .hbm, ⟨40, _⟩ => ⟨S100000x146, .f32⟩
  | .hbm, ⟨41, _⟩ => ⟨S1x146, .f32⟩
  | .hbm, ⟨42, _⟩ => ⟨S146, .f32⟩
  | .hbm, ⟨43, _⟩ => ⟨S1x146x146, .f32⟩
  | .hbm, ⟨44, _⟩ => ⟨S146x146, .f32⟩
  | .hbm, ⟨45, _⟩ => ⟨S1x146, .f32⟩
  | .hbm, ⟨46, _⟩ => ⟨S100000x146, .f32⟩
  | .hbm, ⟨47, _⟩ => ⟨S_, .i32⟩
  | .hbm, ⟨48, _⟩ => ⟨S500000, .i32⟩
  | .hbm, ⟨49, _⟩ => ⟨S500000, .i1⟩
  | .hbm, ⟨50, _⟩ => ⟨S_, .i32⟩
  | .hbm, ⟨51, _⟩ => ⟨S500000, .i32⟩
  | .hbm, ⟨52, _⟩ => ⟨S500000, .i32⟩
  | .hbm, ⟨53, _⟩ => ⟨S500000, .i32⟩
  | .hbm, ⟨54, _⟩ => ⟨S500000x1, .i32⟩
  | .hbm, ⟨55, _⟩ => ⟨S500000x146, .f32⟩
  | .hbm, ⟨56, _⟩ => ⟨S_, .f32⟩
  | .hbm, ⟨57, _⟩ => ⟨S100000x146, .f32⟩
  | .hbm, ⟨58, _⟩ => ⟨S500000x1, .i32⟩
  | .hbm, ⟨59, _⟩ => ⟨S100000x146, .f32⟩
  | .hbm, ⟨60, _⟩ => ⟨S1x146, .f32⟩
  | .hbm, ⟨61, _⟩ => ⟨S146, .f32⟩
  | .hbm, ⟨62, _⟩ => ⟨S1x146x146, .f32⟩
  | .hbm, ⟨63, _⟩ => ⟨S146x146, .f32⟩
  | .hbm, ⟨64, _⟩ => ⟨S1x146, .f32⟩
  | .hbm, ⟨65, _⟩ => ⟨S100000x146, .f32⟩
  | .hbm, ⟨66, _⟩ => ⟨S_, .i32⟩
  | .hbm, ⟨67, _⟩ => ⟨S500000, .i32⟩
  | .hbm, ⟨68, _⟩ => ⟨S500000, .i1⟩
  | .hbm, ⟨69, _⟩ => ⟨S_, .i32⟩
  | .hbm, ⟨70, _⟩ => ⟨S500000, .i32⟩
  | .hbm, ⟨71, _⟩ => ⟨S500000, .i32⟩
  | .hbm, ⟨72, _⟩ => ⟨S500000, .i32⟩
  | .hbm, ⟨73, _⟩ => ⟨S500000x1, .i32⟩
  | .hbm, ⟨74, _⟩ => ⟨S500000x146, .f32⟩
  | .hbm, ⟨75, _⟩ => ⟨S_, .f32⟩
  | .hbm, ⟨76, _⟩ => ⟨S100000x146, .f32⟩
  | .hbm, ⟨77, _⟩ => ⟨S500000x1, .i32⟩
  | .hbm, ⟨78, _⟩ => ⟨S100000x146, .f32⟩
  | .hbm, ⟨79, _⟩ => ⟨S1x146, .f32⟩
  | .hbm, ⟨80, _⟩ => ⟨S146, .f32⟩
  | .hbm, ⟨81, _⟩ => ⟨S1x146x146, .f32⟩
  | .hbm, ⟨82, _⟩ => ⟨S146x146, .f32⟩
  | .hbm, ⟨83, _⟩ => ⟨S1x146, .f32⟩
  | .hbm, ⟨84, _⟩ => ⟨S100000x146, .f32⟩
  | .hbm, ⟨85, _⟩ => ⟨S_, .i32⟩
  | .hbm, ⟨86, _⟩ => ⟨S500000, .i32⟩
  | .hbm, ⟨87, _⟩ => ⟨S500000, .i1⟩
  | .hbm, ⟨88, _⟩ => ⟨S_, .i32⟩
  | .hbm, ⟨89, _⟩ => ⟨S500000, .i32⟩
  | .hbm, ⟨90, _⟩ => ⟨S500000, .i32⟩
  | .hbm, ⟨91, _⟩ => ⟨S500000, .i32⟩
  | .hbm, ⟨92, _⟩ => ⟨S500000x1, .i32⟩
  | .hbm, ⟨93, _⟩ => ⟨S500000x146, .f32⟩
  | .hbm, ⟨94, _⟩ => ⟨S_, .f32⟩
  | .hbm, ⟨95, _⟩ => ⟨S100000x146, .f32⟩
  | .hbm, ⟨96, _⟩ => ⟨S500000x1, .i32⟩
  | .hbm, ⟨97, _⟩ => ⟨S100000x146, .f32⟩
  | .hbm, ⟨98, _⟩ => ⟨S1x146, .f32⟩
  | .hbm, ⟨99, _⟩ => ⟨S146, .f32⟩
  | .hbm, ⟨100, _⟩ => ⟨S1x146, .f32⟩
  | .hbm, ⟨101, _⟩ => ⟨S256x147, .f32⟩
  | .hbm, ⟨102, _⟩ => ⟨S256x146, .f32⟩
  | .hbm, ⟨103, _⟩ => ⟨S256x1, .f32⟩
  | .hbm, ⟨104, _⟩ => ⟨S_, .f32⟩
  | .hbm, ⟨105, _⟩ => ⟨S256x1, .f32⟩
  | .hbm, ⟨106, _⟩ => ⟨S256x1, .f32⟩
  | .hbm, ⟨107, _⟩ => ⟨S256x146, .f32⟩
  | .hbm, ⟨108, _⟩ => ⟨S256x146, .f32⟩
  | .hbm, ⟨109, _⟩ => ⟨S1x73, .f32⟩
  | .hbm, ⟨110, _⟩ => ⟨S1x36, .f32⟩
  | .hbm, ⟨111, _⟩ => ⟨S1x10, .f32⟩
  | .hbm, ⟨112, _⟩ => ⟨S256x10, .f32⟩
  | .local _ .vmem, ⟨0, _⟩ => ⟨S4000x146, .f32⟩
  | .local _ .vmem, ⟨1, _⟩ => ⟨S4000x146, .f32⟩
  | .local _ .vmem, ⟨2, _⟩ => ⟨S146x146, .f32⟩
  | .local _ .vmem, ⟨3, _⟩ => ⟨S1x146, .f32⟩
  | .local _ .vmem, ⟨4, _⟩ => ⟨S4000x146, .f32⟩
  | .local _ .vmem, ⟨5, _⟩ => ⟨S4000x146, .f32⟩
  | .local _ .vmem, ⟨6, _⟩ => ⟨S4000x146, .f32⟩
  | .local _ .vmem, ⟨7, _⟩ => ⟨S4000x146, .f32⟩
  | .local _ .vmem, ⟨8, _⟩ => ⟨S1x146, .f32⟩
  | .local _ .vmem, ⟨9, _⟩ => ⟨S146x146, .f32⟩
  | .local _ .vmem, ⟨10, _⟩ => ⟨S4000x146, .f32⟩
  | .local _ .vmem, ⟨11, _⟩ => ⟨S4000x146, .f32⟩
  | .local _ .vmem, ⟨12, _⟩ => ⟨S4000x146, .f32⟩
  | .local _ .vmem, ⟨13, _⟩ => ⟨S4000x146, .f32⟩
  | .local _ .vmem, ⟨14, _⟩ => ⟨S1x146, .f32⟩
  | .local _ .vmem, ⟨15, _⟩ => ⟨S146x146, .f32⟩
  | .local _ .vmem, ⟨16, _⟩ => ⟨S4000x146, .f32⟩
  | .local _ .vmem, ⟨17, _⟩ => ⟨S4000x146, .f32⟩
  | .local _ .vmem, ⟨18, _⟩ => ⟨S4000x146, .f32⟩
  | .local _ .vmem, ⟨19, _⟩ => ⟨S4000x146, .f32⟩
  | .local _ .vmem, ⟨20, _⟩ => ⟨S1x146, .f32⟩
  | .local _ .vmem, ⟨21, _⟩ => ⟨S146x146, .f32⟩
  | .local _ .vmem, ⟨22, _⟩ => ⟨S4000x146, .f32⟩
  | .local _ .vmem, ⟨23, _⟩ => ⟨S4000x146, .f32⟩
  | .local _ .vmem, ⟨24, _⟩ => ⟨S4000x146, .f32⟩
  | .local _ .vmem, ⟨25, _⟩ => ⟨S4000x146, .f32⟩
  | .local _ .vmem, ⟨26, _⟩ => ⟨S1x146, .f32⟩
  | .local _ .vmem, ⟨27, _⟩ => ⟨S4000x1, .i32⟩
  | .local _ .vmem, ⟨28, _⟩ => ⟨S4000x1, .i32⟩
  | .local _ .vmem, ⟨29, _⟩ => ⟨S256x147, .f32⟩
  | .local _ .vmem, ⟨30, _⟩ => ⟨S256x147, .f32⟩
  | .local _ .vmem, ⟨31, _⟩ => ⟨S256x146, .f32⟩
  | .local _ .vmem, ⟨32, _⟩ => ⟨S146x73, .f32⟩
  | .local _ .vmem, ⟨33, _⟩ => ⟨S1x73, .f32⟩
  | .local _ .vmem, ⟨34, _⟩ => ⟨S73x36, .f32⟩
  | .local _ .vmem, ⟨35, _⟩ => ⟨S1x36, .f32⟩
  | .local _ .vmem, ⟨36, _⟩ => ⟨S36x10, .f32⟩
  | .local _ .vmem, ⟨37, _⟩ => ⟨S1x10, .f32⟩
  | .local _ .vmem, ⟨38, _⟩ => ⟨S256x10, .f32⟩
  | _, _ => ⟨S100000x146, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | _, _ => false

abbrev semScoped : Fin 0 → Bool
  | ⟨_, h⟩ => absurd h (Nat.not_lt_zero _)

abbrev dmaSemScoped : Fin 38 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | _ => false

abbrev sig : RefSig :=
  ofTc nBuf bufTy 0 38 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_c : Ref sig .tc := ⟨.hbm, 28, rfl⟩
abbrev main_v15 : Ref sig .tc := ⟨.hbm, 29, rfl⟩
abbrev main_v16 : Ref sig .tc := ⟨.hbm, 30, rfl⟩
abbrev main_c_0 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_cst : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_c_1 : Ref sig .tc := ⟨.hbm, 47, rfl⟩
abbrev main_v31 : Ref sig .tc := ⟨.hbm, 48, rfl⟩
abbrev main_v32 : Ref sig .tc := ⟨.hbm, 49, rfl⟩
abbrev main_c_2 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_cst_3 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_c_4 : Ref sig .tc := ⟨.hbm, 66, rfl⟩
abbrev main_v47 : Ref sig .tc := ⟨.hbm, 67, rfl⟩
abbrev main_v48 : Ref sig .tc := ⟨.hbm, 68, rfl⟩
abbrev main_c_5 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_cst_6 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_v61 : Ref sig .tc := ⟨.hbm, 83, rfl⟩
abbrev main_v62 : Ref sig .tc := ⟨.hbm, 84, rfl⟩
abbrev main_c_7 : Ref sig .tc := ⟨.hbm, 85, rfl⟩
abbrev main_v63 : Ref sig .tc := ⟨.hbm, 86, rfl⟩
abbrev main_v64 : Ref sig .tc := ⟨.hbm, 87, rfl⟩
abbrev main_c_8 : Ref sig .tc := ⟨.hbm, 88, rfl⟩
abbrev main_v65 : Ref sig .tc := ⟨.hbm, 89, rfl⟩
abbrev main_v66 : Ref sig .tc := ⟨.hbm, 90, rfl⟩
abbrev main_v67 : Ref sig .tc := ⟨.hbm, 91, rfl⟩
abbrev main_v68 : Ref sig .tc := ⟨.hbm, 92, rfl⟩
abbrev main_v69 : Ref sig .tc := ⟨.hbm, 93, rfl⟩
abbrev main_cst_9 : Ref sig .tc := ⟨.hbm, 94, rfl⟩
abbrev main_v70 : Ref sig .tc := ⟨.hbm, 95, rfl⟩
abbrev main_v71 : Ref sig .tc := ⟨.hbm, 96, rfl⟩
abbrev main_v72 : Ref sig .tc := ⟨.hbm, 97, rfl⟩
abbrev main_v73 : Ref sig .tc := ⟨.hbm, 98, rfl⟩
abbrev main_v74 : Ref sig .tc := ⟨.hbm, 99, rfl⟩
abbrev main_v75 : Ref sig .tc := ⟨.hbm, 100, rfl⟩
abbrev main_v76 : Ref sig .tc := ⟨.hbm, 101, rfl⟩
abbrev main_v77 : Ref sig .tc := ⟨.hbm, 102, rfl⟩
abbrev main_v78 : Ref sig .tc := ⟨.hbm, 103, rfl⟩
abbrev main_cst_10 : Ref sig .tc := ⟨.hbm, 104, rfl⟩
abbrev main_v79 : Ref sig .tc := ⟨.hbm, 105, rfl⟩
abbrev main_v80 : Ref sig .tc := ⟨.hbm, 106, rfl⟩
abbrev main_v81 : Ref sig .tc := ⟨.hbm, 107, rfl⟩
abbrev main_v82 : Ref sig .tc := ⟨.hbm, 108, rfl⟩
abbrev main_v83 : Ref sig .tc := ⟨.hbm, 109, rfl⟩
abbrev main_v84 : Ref sig .tc := ⟨.hbm, 110, rfl⟩
abbrev main_v85 : Ref sig .tc := ⟨.hbm, 111, rfl⟩
abbrev main_v86 : Ref sig .tc := ⟨.hbm, 112, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg3_1 : Ref sig .tc := ⟨.vmem, 11, rfl⟩
abbrev cc2_stg0_0 : Ref sig .tc := ⟨.vmem, 12, rfl⟩
abbrev cc2_stg0_1 : Ref sig .tc := ⟨.vmem, 13, rfl⟩
abbrev cc2_stg1_0 : Ref sig .tc := ⟨.vmem, 14, rfl⟩
abbrev cc2_stg2_0 : Ref sig .tc := ⟨.vmem, 15, rfl⟩
abbrev cc2_stg3_0 : Ref sig .tc := ⟨.vmem, 16, rfl⟩
abbrev cc2_stg3_1 : Ref sig .tc := ⟨.vmem, 17, rfl⟩
abbrev cc3_stg0_0 : Ref sig .tc := ⟨.vmem, 18, rfl⟩
abbrev cc3_stg0_1 : Ref sig .tc := ⟨.vmem, 19, rfl⟩
abbrev cc3_stg1_0 : Ref sig .tc := ⟨.vmem, 20, rfl⟩
abbrev cc3_stg2_0 : Ref sig .tc := ⟨.vmem, 21, rfl⟩
abbrev cc3_stg3_0 : Ref sig .tc := ⟨.vmem, 22, rfl⟩
abbrev cc3_stg3_1 : Ref sig .tc := ⟨.vmem, 23, rfl⟩
abbrev cc4_stg0_0 : Ref sig .tc := ⟨.vmem, 24, rfl⟩
abbrev cc4_stg0_1 : Ref sig .tc := ⟨.vmem, 25, rfl⟩
abbrev cc4_stg1_0 : Ref sig .tc := ⟨.vmem, 26, rfl⟩
abbrev cc4_stg2_0 : Ref sig .tc := ⟨.vmem, 27, rfl⟩
abbrev cc4_stg2_1 : Ref sig .tc := ⟨.vmem, 28, rfl⟩
abbrev cc4_stg3_0 : Ref sig .tc := ⟨.vmem, 29, rfl⟩
abbrev cc4_scratch0 : Ref sig .tc := ⟨.vmem, 30, rfl⟩
abbrev cc5_stg0_0 : Ref sig .tc := ⟨.vmem, 31, rfl⟩
abbrev cc5_stg1_0 : Ref sig .tc := ⟨.vmem, 32, rfl⟩
abbrev cc5_stg2_0 : Ref sig .tc := ⟨.vmem, 33, rfl⟩
abbrev cc5_stg3_0 : Ref sig .tc := ⟨.vmem, 34, rfl⟩
abbrev cc5_stg4_0 : Ref sig .tc := ⟨.vmem, 35, rfl⟩
abbrev cc5_stg5_0 : Ref sig .tc := ⟨.vmem, 36, rfl⟩
abbrev cc5_stg6_0 : Ref sig .tc := ⟨.vmem, 37, rfl⟩
abbrev cc5_stg7_0 : Ref sig .tc := ⟨.vmem, 38, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem3_0 : DmaSem sig := 10
abbrev cc1_sem3_1 : DmaSem sig := 11
abbrev cc2_sem0_0 : DmaSem sig := 12
abbrev cc2_sem0_1 : DmaSem sig := 13
abbrev cc2_sem1_0 : DmaSem sig := 14
abbrev cc2_sem2_0 : DmaSem sig := 15
abbrev cc2_sem3_0 : DmaSem sig := 16
abbrev cc2_sem3_1 : DmaSem sig := 17
abbrev cc3_sem0_0 : DmaSem sig := 18
abbrev cc3_sem0_1 : DmaSem sig := 19
abbrev cc3_sem1_0 : DmaSem sig := 20
abbrev cc3_sem2_0 : DmaSem sig := 21
abbrev cc3_sem3_0 : DmaSem sig := 22
abbrev cc3_sem3_1 : DmaSem sig := 23
abbrev cc4_sem0_0 : DmaSem sig := 24
abbrev cc4_sem0_1 : DmaSem sig := 25
abbrev cc4_sem1_0 : DmaSem sig := 26
abbrev cc4_sem2_0 : DmaSem sig := 27
abbrev cc4_sem2_1 : DmaSem sig := 28
abbrev cc4_sem3_0 : DmaSem sig := 29
abbrev cc5_sem0_0 : DmaSem sig := 30
abbrev cc5_sem1_0 : DmaSem sig := 31
abbrev cc5_sem2_0 : DmaSem sig := 32
abbrev cc5_sem3_0 : DmaSem sig := 33
abbrev cc5_sem4_0 : DmaSem sig := 34
abbrev cc5_sem5_0 : DmaSem sig := 35
abbrev cc5_sem6_0 : DmaSem sig := 36
abbrev cc5_sem7_0 : DmaSem sig := 37

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4000x146 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S146x146 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x146 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S4000x146 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S4000x146 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x146 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S146x146 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S4000x146 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![25], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S4000x146 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1x146 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S146x146 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S4000x146 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev grid3 : Pipeline.Grid := ⟨1, ![25], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S4000x146 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x146 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S146x146 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 2 → Memref sig .tc .vmem S4000x146 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

abbrev grid4 : Pipeline.Grid := ⟨1, ![25], ![false]⟩

def k4_cond2 (i : grid4.Coords) : BitVec 1 :=
  let arg0 : BitVec 32 := BitVec.ofNat 32 (i 0).val
  let c24_i32 : BitVec 32 := 24#32
  let v28 : BitVec 1 := Scalar.cmpi .eq arg0 c24_i32
  let v29 : BitVec 32 := Scalar.extui v28
  let c0_i32_12 : BitVec 32 := 0#32
  let v30 : BitVec 1 := Scalar.cmpi .ne v29 c0_i32_12
  v30

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage4_0 : Fin 2 → Memref sig .tc .vmem S4000x146 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S1x146 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 2 → Memref sig .tc .vmem S4000x1 .i32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev stage4_3 : Fin 1 → Memref sig .tc .vmem S256x147 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev grid5 : Pipeline.Grid := ⟨1, ![1], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_3 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_4 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_5 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_6 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_7 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage5_0 : Fin 1 → Memref sig .tc .vmem S256x146 .f32 := fun | 0 => Memref.whole cc5_stg0_0 | ⟨_ + 1, h⟩ => absurd h (Nat.not_lt.2 (Nat.le_add_left _ _))
abbrev sem5_0 : Fin 1 → DmaSem sig := fun | 0 => cc5_sem0_0 | ⟨_ + 1, h⟩ => absurd h (Nat.not_lt.2 (Nat.le_add_left _ _))
abbrev reads5_0 : Fin grid5.rank → Bool := ![false]

abbrev stage5_1 : Fin 1 → Memref sig .tc .vmem S146x73 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 1 → Memref sig .tc .vmem S1x73 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 1 → Memref sig .tc .vmem S73x36 .f32 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))
abbrev reads5_3 : Fin grid5.rank → Bool := ![false]

abbrev stage5_4 : Fin 1 → Memref sig .tc .vmem S1x36 .f32 := fun | 0 => Memref.whole cc5_stg4_0 | ⟨_ + 1, h⟩ => absurd h (Nat.not_lt.2 (Nat.le_add_left _ _))
abbrev sem5_4 : Fin 1 → DmaSem sig := fun | 0 => cc5_sem4_0 | ⟨_ + 1, h⟩ => absurd h (Nat.not_lt.2 (Nat.le_add_left _ _))
abbrev reads5_4 : Fin grid5.rank → Bool := ![false]

abbrev stage5_5 : Fin 1 → Memref sig .tc .vmem S36x10 .f32 := fun | 0 => Memref.whole cc5_stg5_0 | ⟨_ + 1, h⟩ => absurd h (Nat.not_lt.2 (Nat.le_add_left _ _))
abbrev sem5_5 : Fin 1 → DmaSem sig := fun | 0 => cc5_sem5_0 | ⟨_ + 1, h⟩ => absurd h (Nat.not_lt.2 (Nat.le_add_left _ _))
abbrev reads5_5 : Fin grid5.rank → Bool := ![false]

abbrev stage5_6 : Fin 1 → Memref sig .tc .vmem S1x10 .f32 := fun | 0 => Memref.whole cc5_stg6_0 | ⟨_ + 1, h⟩ => absurd h (Nat.not_lt.2 (Nat.le_add_left _ _))
abbrev sem5_6 : Fin 1 → DmaSem sig := fun | 0 => cc5_sem6_0 | ⟨_ + 1, h⟩ => absurd h (Nat.not_lt.2 (Nat.le_add_left _ _))
abbrev reads5_6 : Fin grid5.rank → Bool := ![false]

abbrev stage5_7 : Fin 1 → Memref sig .tc .vmem S256x10 .f32 := fun | 0 => Memref.whole cc5_stg7_0 | ⟨_ + 1, h⟩ => absurd h (Nat.not_lt.2 (Nat.le_add_left _ _))
abbrev sem5_7 : Fin 1 → DmaSem sig := fun | 0 => cc5_sem7_0 | ⟨_ + 1, h⟩ => absurd h (Nat.not_lt.2 (Nat.le_add_left _ _))
abbrev reads5_7 : Fin grid5.rank → Bool := ![false]

class Facts₀ : Prop where
  slices_S2x500000_S1x500000_0_0 : S2x500000.Slices ![0, 0] S1x500000
  shapeCasts_S1x500000_S500000 : S1x500000.ShapeCasts S500000
  slices_S2x500000_S1x500000_1_0 : S2x500000.Slices ![1, 0] S1x500000
  shapeCasts_S100000_S100000x1 : S100000.ShapeCasts S100000x1
  slices_S4x146x146_S1x146x146_0_0_0 : S4x146x146.Slices ![0, 0, 0] S1x146x146
  shapeCasts_S1x146x146_S146x146 : S1x146x146.ShapeCasts S146x146
  shapeCasts_S146_S1x146 : S146.ShapeCasts S1x146
  shapeCasts_S1x146_S146 : S1x146.ShapeCasts S146
  inb_S4000x146_S4000x146_0_0 : ∀ a, (![0, 0] : Fin 2 → Nat) a + S4000x146.size a ≤ S4000x146.size a
  h_S4000x146 : 0 < S4000x146.numel
  bitsLt_bf16_f32 : FTy.bits .bf16 < FTy.bits .f32
  inb_S146x146_S146x146_0_0 : ∀ a, (![0, 0] : Fin 2 → Nat) a + S146x146.size a ≤ S146x146.size a
  h_S146x146 : 0 < S146x146.numel
  shapeCasts_S146x146_S146x146 : S146x146.ShapeCasts S146x146
  inb_S1x146_S1x146_0_0 : ∀ a, (![0, 0] : Fin 2 → Nat) a + S1x146.size a ≤ S1x146.size a
  h_S1x146 : 0 < S1x146.numel
  shapeCasts_S1x146_S1x146 : S1x146.ShapeCasts S1x146
  broadcasts_S1x146_S4000x146 : S1x146.Broadcasts S4000x146
  bcast_S_S500000 : S_.BroadcastsInDim S500000 (![] : Fin 0 → Fin S500000.rank)
  bcast_S500000_S500000x1_0 : S500000.BroadcastsInDim S500000x1 (![0] : Fin 1 → Fin S500000x1.rank)
  bcast_S_S100000x146 : S_.BroadcastsInDim S100000x146 (![] : Fin 0 → Fin S100000x146.rank)
  slices_S4x146_S1x146_0_0 : S4x146.Slices ![0, 0] S1x146
  slices_S4x146x146_S1x146x146_1_0_0 : S4x146x146.Slices ![1, 0, 0] S1x146x146
  shapeCasts_S4000x146_S4000x146 : S4000x146.ShapeCasts S4000x146
  slices_S4x146_S1x146_1_0 : S4x146.Slices ![1, 0] S1x146
  slices_S4x146x146_S1x146x146_2_0_0 : S4x146x146.Slices ![2, 0, 0] S1x146x146
  slices_S4x146_S1x146_2_0 : S4x146.Slices ![2, 0] S1x146
  slices_S4x146x146_S1x146x146_3_0_0 : S4x146x146.Slices ![3, 0, 0] S1x146x146
  slices_S4x146_S1x146_3_0 : S4x146.Slices ![3, 0] S1x146
  inb_S256x147_S256x147_0_0 : ∀ a, (![0, 0] : Fin 2 → Nat) a + S256x147.size a ≤ S256x147.size a
  h_S256x147 : 0 < S256x147.numel
  shapeCasts_S256x147_S256x147 : S256x147.ShapeCasts S256x147
  inb_S4000x1_S4000x1_0_0 : ∀ a, (![0, 0] : Fin 2 → Nat) a + S4000x1.size a ≤ S4000x1.size a
  h_S4000x1 : 0 < S4000x1.numel
  shapeCasts_S4000x1_S4000x1 : S4000x1.ShapeCasts S4000x1
  iota_S4000x256_d1_w32 : S4000x256.Iotas .tc 32 [1]
  broadcasts_S4000x1_S4000x256 : S4000x1.Broadcasts S4000x256
  natLt_1_32 : 1 < 32
  concatenates_S4000x146_S4000x1_S4000x147_d1 : Shape.Concatenates [S4000x146, S4000x1] S4000x147 1
  slices_S256x147_S256x146_0_0 : S256x147.Slices ![0, 0] S256x146
  slices_S256x147_S256x1_0_146 : S256x147.Slices ![0, 146] S256x1
  bcast_S_S256x1 : S_.BroadcastsInDim S256x1 (![] : Fin 0 → Fin S256x1.rank)
  bcast_S256x1_S256x146_0_1 : S256x1.BroadcastsInDim S256x146 (![0, 1] : Fin 2 → Fin S256x146.rank)
  shapeCasts_S73_S1x73 : S73.ShapeCasts S1x73
  shapeCasts_S36_S1x36 : S36.ShapeCasts S1x36
  shapeCasts_S10_S1x10 : S10.ShapeCasts S1x10
  inb_S256x146_S256x146_0_0 : ∀ a, (![0, 0] : Fin 2 → Nat) a + S256x146.size a ≤ S256x146.size a
  h_S256x146 : 0 < S256x146.numel
  shapeCasts_S256x146_S256x146 : S256x146.ShapeCasts S256x146
  inb_S146x73_S146x73_0_0 : ∀ a, (![0, 0] : Fin 2 → Nat) a + S146x73.size a ≤ S146x73.size a
  h_S146x73 : 0 < S146x73.numel
  inb_S1x73_S1x73_0_0 : ∀ a, (![0, 0] : Fin 2 → Nat) a + S1x73.size a ≤ S1x73.size a
  h_S1x73 : 0 < S1x73.numel
  shapeCasts_S1x73_S1x73 : S1x73.ShapeCasts S1x73
  broadcasts_S1x73_S256x73 : S1x73.Broadcasts S256x73
  inb_S73x36_S73x36_0_0 : ∀ a, (![0, 0] : Fin 2 → Nat) a + S73x36.size a ≤ S73x36.size a
  h_S73x36 : 0 < S73x36.numel
  inb_S1x36_S1x36_0_0 : ∀ a, (![0, 0] : Fin 2 → Nat) a + S1x36.size a ≤ S1x36.size a
  h_S1x36 : 0 < S1x36.numel
  shapeCasts_S1x36_S1x36 : S1x36.ShapeCasts S1x36
  broadcasts_S1x36_S256x36 : S1x36.Broadcasts S256x36
  inb_S36x10_S36x10_0_0 : ∀ a, (![0, 0] : Fin 2 → Nat) a + S36x10.size a ≤ S36x10.size a
  h_S36x10 : 0 < S36x10.numel
  inb_S1x10_S1x10_0_0 : ∀ a, (![0, 0] : Fin 2 → Nat) a + S1x10.size a ≤ S1x10.size a
  h_S1x10 : 0 < S1x10.numel
  shapeCasts_S1x10_S1x10 : S1x10.ShapeCasts S1x10
  broadcasts_S1x10_S256x10 : S1x10.Broadcasts S256x10
  inb_S256x10_S256x10_0_0 : ∀ a, (![0, 0] : Fin 2 → Nat) a + S256x10.size a ≤ S256x10.size a
  h_S256x10 : 0 < S256x10.numel
  dot_S146x146_S146x146_S146x146_1_0_0_1_n_n_wf : DotDims.WF S146x146 S146x146 S146x146 [1] [0] [0] [1] [] []
  dot_S1x146_S146x146_S1x146_1_0_0_1_n_n_wf : DotDims.WF S1x146 S146x146 S1x146 [1] [0] [0] [1] [] []
  dot_S4000x146_S146x146_S4000x146_1_0_0_1_n_n_wf : DotDims.WF S4000x146 S146x146 S4000x146 [1] [0] [0] [1] [] []
  gather_S100000x146_S500000x1_S500000x146_1_0_n_n_0_1_1146_wf : GatherDims.WF S100000x146 S500000x1 S500000x146 [1] [0] [] [0] [] 1 ![1, 146]
  scatter_S100000x146_S500000x1_S500000x146_1_0_0_1_wf : ScatterDims.WF S100000x146 S500000x1 S500000x146 [1] [0] [0] 1
  dot_S4000x256_S4000x147_S256x147_0_0_1_1_n_n_wf : DotDims.WF S4000x256 S4000x147 S256x147 [0] [0] [1] [1] [] []
  dot_S256x146_S146x73_S256x73_1_0_0_1_n_n_wf : DotDims.WF S256x146 S146x73 S256x73 [1] [0] [0] [1] [] []
  dot_S256x73_S73x36_S256x36_1_0_0_1_n_n_wf : DotDims.WF S256x73 S73x36 S256x36 [1] [0] [0] [1] [] []
  dot_S256x36_S36x10_S256x10_1_0_0_1_n_n_wf : DotDims.WF S256x36 S36x10 S256x10 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4000x146.size a ≤ S100000x146.size a
  hwx0_0 : ∀ i : grid0.Coords, EltTy.bits .f32 = 32 ∨ (Rect.block (s := S100000x146) S4000x146.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S146x146.size a ≤ S146x146.size a
  hwx0_1 : ∀ i : grid0.Coords, EltTy.bits .f32 = 32 ∨ (Rect.block (s := S146x146) S146x146.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x146.size a ≤ S1x146.size a
  hwx0_2 : ∀ i : grid0.Coords, EltTy.bits .f32 = 32 ∨ (Rect.block (s := S1x146) S1x146.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S4000x146.size a ≤ S100000x146.size a
  hwx0_3 : ∀ i : grid0.Coords, EltTy.bits .f32 = 32 ∨ (Rect.block (s := S100000x146) S4000x146.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S4000x146.size a ≤ S100000x146.size a
  hwx1_0 : ∀ i : grid1.Coords, EltTy.bits .f32 = 32 ∨ (Rect.block (s := S100000x146) S4000x146.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x146.size a ≤ S1x146.size a
  hwx1_1 : ∀ i : grid1.Coords, EltTy.bits .f32 = 32 ∨ (Rect.block (s := S1x146) S1x146.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S146x146.size a ≤ S146x146.size a
  hwx1_2 : ∀ i : grid1.Coords, EltTy.bits .f32 = 32 ∨ (Rect.block (s := S146x146) S146x146.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S4000x146.size a ≤ S100000x146.size a
  hwx1_3 : ∀ i : grid1.Coords, EltTy.bits .f32 = 32 ∨ (Rect.block (s := S100000x146) S4000x146.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S4000x146.size a ≤ S100000x146.size a
  hwx2_0 : ∀ i : grid2.Coords, EltTy.bits .f32 = 32 ∨ (Rect.block (s := S100000x146) S4000x146.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1x146.size a ≤ S1x146.size a
  hwx2_1 : ∀ i : grid2.Coords, EltTy.bits .f32 = 32 ∨ (Rect.block (s := S1x146) S1x146.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S146x146.size a ≤ S146x146.size a
  hwx2_2 : ∀ i : grid2.Coords, EltTy.bits .f32 = 32 ∨ (Rect.block (s := S146x146) S146x146.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S4000x146.size a ≤ S100000x146.size a
  hwx2_3 : ∀ i : grid2.Coords, EltTy.bits .f32 = 32 ∨ (Rect.block (s := S100000x146) S4000x146.size (cc2_transform_3 i) (hinb2_3 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S4000x146.size a ≤ S100000x146.size a
  hwx3_0 : ∀ i : grid3.Coords, EltTy.bits .f32 = 32 ∨ (Rect.block (s := S100000x146) S4000x146.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x146.size a ≤ S1x146.size a
  hwx3_1 : ∀ i : grid3.Coords, EltTy.bits .f32 = 32 ∨ (Rect.block (s := S1x146) S1x146.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S146x146.size a ≤ S146x146.size a
  hwx3_2 : ∀ i : grid3.Coords, EltTy.bits .f32 = 32 ∨ (Rect.block (s := S146x146) S146x146.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S4000x146.size a ≤ S100000x146.size a
  hwx3_3 : ∀ i : grid3.Coords, EltTy.bits .f32 = 32 ∨ (Rect.block (s := S100000x146) S4000x146.size (cc3_transform_3 i) (hinb3_3 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S4000x146.size a ≤ S100000x146.size a
  hwx4_0 : ∀ i : grid4.Coords, EltTy.bits .f32 = 32 ∨ (Rect.block (s := S100000x146) S4000x146.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S1x146.size a ≤ S1x146.size a
  hwx4_1 : ∀ i : grid4.Coords, EltTy.bits .f32 = 32 ∨ (Rect.block (s := S1x146) S1x146.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S4000x1.size a ≤ S100000x1.size a
  hwx4_2 : ∀ i : grid4.Coords, EltTy.bits .i32 = 32 ∨ (Rect.block (s := S100000x1) S4000x1.size (cc4_transform_2 i) (hinb4_2 i)).WholeWords (EltTy.packing .i32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S256x147.size a ≤ S256x147.size a
  hwx4_3 : ∀ i : grid4.Coords, EltTy.bits .f32 = 32 ∨ (Rect.block (s := S256x147) S256x147.size (cc4_transform_3 i) (hinb4_3 i)).WholeWords (EltTy.packing .f32)
  hrank5 : 0 < grid5.rank
  hstage5_0 : ∀ j, (stage5_0 j).IsWhole
  nbuf5_0 : grid5.bufCount reads5_0 true = 1
  hreads5_0 : ∀ i i' : grid5.Coords, (∀ a, reads5_0 a = true → i a = i' a) → cc5_transform_0 i = cc5_transform_0 i'
  hinb5_0 : ∀ (i : grid5.Coords) a, (cc5_transform_0 i a + 1) * S256x146.size a ≤ S256x146.size a
  hwx5_0 : ∀ i : grid5.Coords, EltTy.bits .f32 = 32 ∨ (Rect.block (s := S256x146) S256x146.size (cc5_transform_0 i) (hinb5_0 i)).WholeWords (EltTy.packing .f32)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S146x73.size a ≤ S146x73.size a
  hwx5_1 : ∀ i : grid5.Coords, EltTy.bits .f32 = 32 ∨ (Rect.block (s := S146x73) S146x73.size (cc5_transform_1 i) (hinb5_1 i)).WholeWords (EltTy.packing .f32)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S1x73.size a ≤ S1x73.size a
  hwx5_2 : ∀ i : grid5.Coords, EltTy.bits .f32 = 32 ∨ (Rect.block (s := S1x73) S1x73.size (cc5_transform_2 i) (hinb5_2 i)).WholeWords (EltTy.packing .f32)
  hstage5_3 : ∀ j, (stage5_3 j).IsWhole
  nbuf5_3 : grid5.bufCount reads5_3 true = 1
  hreads5_3 : ∀ i i' : grid5.Coords, (∀ a, reads5_3 a = true → i a = i' a) → cc5_transform_3 i = cc5_transform_3 i'
  hinb5_3 : ∀ (i : grid5.Coords) a, (cc5_transform_3 i a + 1) * S73x36.size a ≤ S73x36.size a
  hwx5_3 : ∀ i : grid5.Coords, EltTy.bits .f32 = 32 ∨ (Rect.block (s := S73x36) S73x36.size (cc5_transform_3 i) (hinb5_3 i)).WholeWords (EltTy.packing .f32)
  hstage5_4 : ∀ j, (stage5_4 j).IsWhole
  nbuf5_4 : grid5.bufCount reads5_4 true = 1
  hreads5_4 : ∀ i i' : grid5.Coords, (∀ a, reads5_4 a = true → i a = i' a) → cc5_transform_4 i = cc5_transform_4 i'
  hinb5_4 : ∀ (i : grid5.Coords) a, (cc5_transform_4 i a + 1) * S1x36.size a ≤ S1x36.size a
  hwx5_4 : ∀ i : grid5.Coords, EltTy.bits .f32 = 32 ∨ (Rect.block (s := S1x36) S1x36.size (cc5_transform_4 i) (hinb5_4 i)).WholeWords (EltTy.packing .f32)
  hstage5_5 : ∀ j, (stage5_5 j).IsWhole
  nbuf5_5 : grid5.bufCount reads5_5 true = 1
  hreads5_5 : ∀ i i' : grid5.Coords, (∀ a, reads5_5 a = true → i a = i' a) → cc5_transform_5 i = cc5_transform_5 i'
  hinb5_5 : ∀ (i : grid5.Coords) a, (cc5_transform_5 i a + 1) * S36x10.size a ≤ S36x10.size a
  hwx5_5 : ∀ i : grid5.Coords, EltTy.bits .f32 = 32 ∨ (Rect.block (s := S36x10) S36x10.size (cc5_transform_5 i) (hinb5_5 i)).WholeWords (EltTy.packing .f32)
  hstage5_6 : ∀ j, (stage5_6 j).IsWhole
  nbuf5_6 : grid5.bufCount reads5_6 true = 1
  hreads5_6 : ∀ i i' : grid5.Coords, (∀ a, reads5_6 a = true → i a = i' a) → cc5_transform_6 i = cc5_transform_6 i'
  hinb5_6 : ∀ (i : grid5.Coords) a, (cc5_transform_6 i a + 1) * S1x10.size a ≤ S1x10.size a
  hwx5_6 : ∀ i : grid5.Coords, EltTy.bits .f32 = 32 ∨ (Rect.block (s := S1x10) S1x10.size (cc5_transform_6 i) (hinb5_6 i)).WholeWords (EltTy.packing .f32)
  hstage5_7 : ∀ j, (stage5_7 j).IsWhole
  nbuf5_7 : grid5.bufCount reads5_7 true = 1
  hreads5_7 : ∀ i i' : grid5.Coords, (∀ a, reads5_7 a = true → i a = i' a) → cc5_transform_7 i = cc5_transform_7 i'
  hinb5_7 : ∀ (i : grid5.Coords) a, (cc5_transform_7 i a + 1) * S256x10.size a ≤ S256x10.size a
  hwx5_7 : ∀ i : grid5.Coords, EltTy.bits .f32 = 32 ∨ (Rect.block (s := S256x10) S256x10.size (cc5_transform_7 i) (hinb5_7 i)).WholeWords (EltTy.packing .f32)

variable [Facts₀]

def dot_S146x146_S146x146_S146x146_1_0_0_1_n_n : DotDims S146x146 S146x146 S146x146 where
  lhsContracting := [1]
  rhsContracting := [0]
  lhsNonContracting := [0]
  rhsNonContracting := [1]
  lhsBatch := []
  rhsBatch := []
  wf := dot_S146x146_S146x146_S146x146_1_0_0_1_n_n_wf
def dot_S1x146_S146x146_S1x146_1_0_0_1_n_n : DotDims S1x146 S146x146 S1x146 where
  lhsContracting := [1]
  rhsContracting := [0]
  lhsNonContracting := [0]
  rhsNonContracting := [1]
  lhsBatch := []
  rhsBatch := []
  wf := dot_S1x146_S146x146_S1x146_1_0_0_1_n_n_wf
def dot_S4000x146_S146x146_S4000x146_1_0_0_1_n_n : DotDims S4000x146 S146x146 S4000x146 where
  lhsContracting := [1]
  rhsContracting := [0]
  lhsNonContracting := [0]
  rhsNonContracting := [1]
  lhsBatch := []
  rhsBatch := []
  wf := dot_S4000x146_S146x146_S4000x146_1_0_0_1_n_n_wf
def gather_S100000x146_S500000x1_S500000x146_1_0_n_n_0_1_1146 : GatherDims S100000x146 S500000x1 S500000x146 where
  offsetDims := [1]
  collapsedSliceDims := [0]
  operandBatchingDims := []
  startIndicesBatchingDims := []
  startIndexMap := [0]
  indexVectorDim := 1
  sliceSizes := ![1, 146]
  wf := gather_S100000x146_S500000x1_S500000x146_1_0_n_n_0_1_1146_wf
def scatter_S100000x146_S500000x1_S500000x146_1_0_0_1 : ScatterDims S100000x146 S500000x1 S500000x146 where
  updateWindowDims := [1]
  insertedWindowDims := [0]
  scatterDimsToOperandDims := [0]
  indexVectorDim := 1
  wf := scatter_S100000x146_S500000x1_S500000x146_1_0_0_1_wf
def dot_S4000x256_S4000x147_S256x147_0_0_1_1_n_n : DotDims S4000x256 S4000x147 S256x147 where
  lhsContracting := [0]
  rhsContracting := [0]
  lhsNonContracting := [1]
  rhsNonContracting := [1]
  lhsBatch := []
  rhsBatch := []
  wf := dot_S4000x256_S4000x147_S256x147_0_0_1_1_n_n_wf
def dot_S256x146_S146x73_S256x73_1_0_0_1_n_n : DotDims S256x146 S146x73 S256x73 where
  lhsContracting := [1]
  rhsContracting := [0]
  lhsNonContracting := [0]
  rhsNonContracting := [1]
  lhsBatch := []
  rhsBatch := []
  wf := dot_S256x146_S146x73_S256x73_1_0_0_1_n_n_wf
def dot_S256x73_S73x36_S256x36_1_0_0_1_n_n : DotDims S256x73 S73x36 S256x36 where
  lhsContracting := [1]
  rhsContracting := [0]
  lhsNonContracting := [0]
  rhsNonContracting := [1]
  lhsBatch := []
  rhsBatch := []
  wf := dot_S256x73_S73x36_S256x36_1_0_0_1_n_n_wf
def dot_S256x36_S36x10_S256x10_1_0_0_1_n_n : DotDims S256x36 S36x10 S256x10 where
  lhsContracting := [1]
  rhsContracting := [0]
  lhsNonContracting := [0]
  rhsNonContracting := [1]
  lhsBatch := []
  rhsBatch := []
  wf := dot_S256x36_S36x10_S256x10_1_0_0_1_n_n_wf

abbrev win0_0 : Pipeline.Window sig grid0 :=
  Pipeline.Window.ofSpec (Memref.whole main_arg0) S4000x146.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v7) S146x146.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v13) S1x146.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v14) S4000x146.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v24) S4000x146.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v29) S1x146.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v28) S146x146.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v30) S4000x146.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v40) S4000x146.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v45) S1x146.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v44) S146x146.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v46) S4000x146.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

abbrev win3_0 : Pipeline.Window sig grid3 :=
  Pipeline.Window.ofSpec (Memref.whole main_v56) S4000x146.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v61) S1x146.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v60) S146x146.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v62) S4000x146.size cc3_transform_3 reads3_3 true false 2 stage3_3 sem3_3
    hrank3 hreads3_3 hinb3_3 nbuf3_3 (Memref.isWhole_whole _) hwx3_3 hstage3_3

abbrev win3 : Fin 4 → Pipeline.Window sig grid3 := fun | 0 => win3_0 | 1 => win3_1 | 2 => win3_2 | 3 => win3_3 | ⟨_ + 4, h⟩ => absurd h (Nat.not_lt.2 (Nat.le_add_left _ _))
abbrev spec3 : Fin 4 → Pipeline.WinSpec sig grid3.rank := fun w => (win3 w).toWinSpec

abbrev win4_0 : Pipeline.Window sig grid4 :=
  Pipeline.Window.ofSpec (Memref.whole main_v72) S4000x146.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v75) S1x146.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v4) S4000x1.size cc4_transform_2 reads4_2 false false 2 stage4_2 sem4_2
    hrank4 hreads4_2 hinb4_2 nbuf4_2 (Memref.isWhole_whole _) hwx4_2 hstage4_2

abbrev win4_3 : Pipeline.Window sig grid4 :=
  Pipeline.Window.ofSpec (Memref.whole main_v76) S256x147.size cc4_transform_3 reads4_3 true true 1 stage4_3 sem4_3
    hrank4 hreads4_3 hinb4_3 nbuf4_3 (Memref.isWhole_whole _) hwx4_3 hstage4_3

abbrev win4 : Fin 4 → Pipeline.Window sig grid4 := fun | 0 => win4_0 | 1 => win4_1 | 2 => win4_2 | 3 => win4_3 | ⟨_ + 4, h⟩ => absurd h (Nat.not_lt.2 (Nat.le_add_left _ _))
abbrev spec4 : Fin 4 → Pipeline.WinSpec sig grid4.rank := fun w => (win4 w).toWinSpec

abbrev idle4 : Fin 4 → grid4.Coords → Bool := fun | 0 => fun _ => false | 1 => fun _ => false | 2 => fun _ => false | 3 => fun i => !(k4_cond2 i == 1#1) | ⟨_ + 4, h⟩ => absurd h (Nat.not_lt.2 (Nat.le_add_left _ _))

abbrev win5_0 : Pipeline.Window sig grid5 :=
  Pipeline.Window.ofSpec (Memref.whole main_v82) S256x146.size cc5_transform_0 reads5_0 false true 1 stage5_0 sem5_0
    hrank5 hreads5_0 hinb5_0 nbuf5_0 (Memref.isWhole_whole _) hwx5_0 hstage5_0

abbrev win5_1 : Pipeline.Window sig grid5 :=
  Pipeline.Window.ofSpec (Memref.whole main_arg7) S146x73.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_v83) S1x73.size cc5_transform_2 reads5_2 false true 1 stage5_2 sem5_2
    hrank5 hreads5_2 hinb5_2 nbuf5_2 (Memref.isWhole_whole _) hwx5_2 hstage5_2

abbrev win5_3 : Pipeline.Window sig grid5 :=
  Pipeline.Window.ofSpec (Memref.whole main_arg9) S73x36.size cc5_transform_3 reads5_3 false true 1 stage5_3 sem5_3
    hrank5 hreads5_3 hinb5_3 nbuf5_3 (Memref.isWhole_whole _) hwx5_3 hstage5_3

abbrev win5_4 : Pipeline.Window sig grid5 :=
  Pipeline.Window.ofSpec (Memref.whole main_v84) S1x36.size cc5_transform_4 reads5_4 false true 1 stage5_4 sem5_4
    hrank5 hreads5_4 hinb5_4 nbuf5_4 (Memref.isWhole_whole _) hwx5_4 hstage5_4

abbrev win5_5 : Pipeline.Window sig grid5 :=
  Pipeline.Window.ofSpec (Memref.whole main_arg11) S36x10.size cc5_transform_5 reads5_5 false true 1 stage5_5 sem5_5
    hrank5 hreads5_5 hinb5_5 nbuf5_5 (Memref.isWhole_whole _) hwx5_5 hstage5_5

abbrev win5_6 : Pipeline.Window sig grid5 :=
  Pipeline.Window.ofSpec (Memref.whole main_v85) S1x10.size cc5_transform_6 reads5_6 false true 1 stage5_6 sem5_6
    hrank5 hreads5_6 hinb5_6 nbuf5_6 (Memref.isWhole_whole _) hwx5_6 hstage5_6

abbrev win5_7 : Pipeline.Window sig grid5 :=
  Pipeline.Window.ofSpec (Memref.whole main_v86) S256x10.size cc5_transform_7 reads5_7 true true 1 stage5_7 sem5_7
    hrank5 hreads5_7 hinb5_7 nbuf5_7 (Memref.isWhole_whole _) hwx5_7 hstage5_7

abbrev win5 : Fin 8 → Pipeline.Window sig grid5 := fun | 0 => win5_0 | 1 => win5_1 | 2 => win5_2 | 3 => win5_3 | 4 => win5_4 | 5 => win5_5 | 6 => win5_6 | 7 => win5_7 | ⟨_ + 8, h⟩ => absurd h (Nat.not_lt.2 (Nat.le_add_left _ _))
abbrev spec5 : Fin 8 → Pipeline.WinSpec sig grid5.rank := fun w => (win5 w).toWinSpec

class Facts : Prop extends Facts₀ where

variable [Facts]
-- ==== ReferenceIdeal.lean ====
abbrev S100000x146 : Shape := ⟨2, ![100000, 146]⟩
abbrev S2x500000 : Shape := ⟨2, ![2, 500000]⟩
abbrev S100000 : Shape := ⟨1, ![100000]⟩
abbrev S146x146 : Shape := ⟨2, ![146, 146]⟩
abbrev S146 : Shape := ⟨1, ![146]⟩
abbrev S4x146x146 : Shape := ⟨3, ![4, 146, 146]⟩
abbrev S4x146 : Shape := ⟨2, ![4, 146]⟩
abbrev S146x73 : Shape := ⟨2, ![146, 73]⟩
abbrev S73 : Shape := ⟨1, ![73]⟩
abbrev S73x36 : Shape := ⟨2, ![73, 36]⟩
abbrev S36 : Shape := ⟨1, ![36]⟩
abbrev S36x10 : Shape := ⟨2, ![36, 10]⟩
abbrev S10 : Shape := ⟨1, ![10]⟩
abbrev S1x500000 : Shape := ⟨2, ![1, 500000]⟩
abbrev S500000 : Shape := ⟨1, ![500000]⟩
abbrev S1x146 : Shape := ⟨2, ![1, 146]⟩
abbrev S1x146x146 : Shape := ⟨3, ![1, 146, 146]⟩
abbrev S_ : Shape := ⟨0, ![]⟩
abbrev S500000x1 : Shape := ⟨2, ![500000, 1]⟩
abbrev S500000x146 : Shape := ⟨2, ![500000, 146]⟩
abbrev S256x146 : Shape := ⟨2, ![256, 146]⟩
abbrev S100000x1 : Shape := ⟨2, ![100000, 1]⟩
abbrev S256 : Shape := ⟨1, ![256]⟩
abbrev S256x1 : Shape := ⟨2, ![256, 1]⟩
abbrev S256x73 : Shape := ⟨2, ![256, 73]⟩
abbrev S1x73 : Shape := ⟨2, ![1, 73]⟩
abbrev S256x36 : Shape := ⟨2, ![256, 36]⟩
abbrev S1x36 : Shape := ⟨2, ![1, 36]⟩
abbrev S256x10 : Shape := ⟨2, ![256, 10]⟩
abbrev S1x10 : Shape := ⟨2, ![1, 10]⟩

abbrev nBuf : Space → Nat
  | .hbm => 151
  | .vmem => 0
  | .smem => 0
  | _ => 0

abbrev hbmTy0_0 (i : Nat) : BufTy := match i % 128 with
  | 0 => ⟨S100000x146, .f32⟩
  | 1 => ⟨S2x500000, .i32⟩
  | 2 => ⟨S100000, .i32⟩
  | 3 => ⟨S146x146, .f32⟩
  | 4 => ⟨S146, .f32⟩
  | 5 => ⟨S4x146x146, .f32⟩
  | 6 => ⟨S4x146, .f32⟩
  | 7 => ⟨S146x73, .f32⟩
  | 8 => ⟨S73, .f32⟩
  | 9 => ⟨S73x36, .f32⟩
  | 10 => ⟨S36, .f32⟩
  | 11 => ⟨S36x10, .f32⟩
  | 12 => ⟨S10, .f32⟩
  | 13 => ⟨S1x500000, .i32⟩
  | 14 => ⟨S500000, .i32⟩
  | 15 => ⟨S1x500000, .i32⟩
  | 16 => ⟨S500000, .i32⟩
  | 17 => ⟨S100000x146, .f32⟩
  | 18 => ⟨S1x146, .f32⟩
  | 19 => ⟨S100000x146, .f32⟩
  | 20 => ⟨S100000x146, .f32⟩
  | 21 => ⟨S1x146x146, .f32⟩
  | 22 => ⟨S146x146, .f32⟩
  | 23 => ⟨S100000x146, .f32⟩
  | 24 => ⟨S_, .i32⟩
  | 25 => ⟨S500000, .i32⟩
  | 26 => ⟨S500000, .i1⟩
  | 27 => ⟨S_, .i32⟩
  | 28 => ⟨S500000, .i32⟩
  | 29 => ⟨S500000, .i32⟩
  | 30 => ⟨S500000, .i32⟩
  | 31 => ⟨S500000x1, .i32⟩
  | 32 => ⟨S500000x146, .f32⟩
  | 33 => ⟨S_, .f32⟩
  | 34 => ⟨S100000x146, .f32⟩
  | 35 => ⟨S500000x1, .i32⟩
  | 36 => ⟨S100000x146, .f32⟩
  | 37 => ⟨S1x146, .f32⟩
  | 38 => ⟨S146, .f32⟩
  | 39 => ⟨S1x146, .f32⟩
  | 40 => ⟨S100000x146, .f32⟩
  | 41 => ⟨S100000x146, .f32⟩
  | 42 => ⟨S_, .f32⟩
  | 43 => ⟨S100000x146, .f32⟩
  | 44 => ⟨S100000x146, .f32⟩
  | 45 => ⟨S1x146x146, .f32⟩
  | 46 => ⟨S146x146, .f32⟩
  | 47 => ⟨S100000x146, .f32⟩
  | 48 => ⟨S_, .i32⟩
  | 49 => ⟨S500000, .i32⟩
  | 50 => ⟨S500000, .i1⟩
  | 51 => ⟨S_, .i32⟩
  | 52 => ⟨S500000, .i32⟩
  | 53 => ⟨S500000, .i32⟩
  | 54 => ⟨S500000, .i32⟩
  | 55 => ⟨S500000x1, .i32⟩
  | 56 => ⟨S500000x146, .f32⟩
  | 57 => ⟨S_, .f32⟩
  | 58 => ⟨S100000x146, .f32⟩
  | 59 => ⟨S500000x1, .i32⟩
  | 60 => ⟨S100000x146, .f32⟩
  | 61 => ⟨S1x146, .f32⟩
  | 62 => ⟨S146, .f32⟩
  | 63 => ⟨S1x146, .f32⟩
  | 64 => ⟨S100000x146, .f32⟩
  | 65 => ⟨S100000x146, .f32⟩
  | 66 => ⟨S_, .f32⟩
  | 67 => ⟨S100000x146, .f32⟩
  | 68 => ⟨S100000x146, .f32⟩
  | 69 => ⟨S1x146x146, .f32⟩
  | 70 => ⟨S146x146, .f32⟩
  | 71 => ⟨S100000x146, .f32⟩
  | 72 => ⟨S_, .i32⟩
  | 73 => ⟨S500000, .i32⟩
  | 74 => ⟨S500000, .i1⟩
  | 75 => ⟨S_, .i32⟩
  | 76 => ⟨S500000, .i32⟩
  | 77 => ⟨S500000, .i32⟩
  | 78 => ⟨S500000, .i32⟩
  | 79 => ⟨S500000x1, .i32⟩
  | 80 => ⟨S500000x146, .f32⟩
  | 81 => ⟨S_, .f32⟩
  | 82 => ⟨S100000x146, .f32⟩
  | 83 => ⟨S500000x1, .i32⟩
  | 84 => ⟨S100000x146, .f32⟩
  | 85 => ⟨S1x146, .f32⟩
  | 86 => ⟨S146, .f32⟩
  | 87 => ⟨S1x146, .f32⟩
  | 88 => ⟨S100000x146, .f32⟩
  | 89 => ⟨S100000x146, .f32⟩
  | 90 => ⟨S_, .f32⟩
  | 91 => ⟨S100000x146, .f32⟩
  | 92 => ⟨S100000x146, .f32⟩
  | 93 => ⟨S1x146x146, .f32⟩
  | 94 => ⟨S146x146, .f32⟩
  | 95 => ⟨S100000x146, .f32⟩
  | 96 => ⟨S_, .i32⟩
  | 97 => ⟨S500000, .i32⟩
  | 98 => ⟨S500000, .i1⟩
  | 99 => ⟨S_, .i32⟩
  | 100 => ⟨S500000, .i32⟩
  | 101 => ⟨S500000, .i32⟩
  | 102 => ⟨S500000, .i32⟩
  | 103 => ⟨S500000x1, .i32⟩
  | 104 => ⟨S500000x146, .f32⟩
  | 105 => ⟨S_, .f32⟩
  | 106 => ⟨S100000x146, .f32⟩
  | 107 => ⟨S500000x1, .i32⟩
  | 108 => ⟨S100000x146, .f32⟩
  | 109 => ⟨S1x146, .f32⟩
  | 110 => ⟨S146, .f32⟩
  | 111 => ⟨S1x146, .f32⟩
  | 112 => ⟨S100000x146, .f32⟩
  | 113 => ⟨S100000x146, .f32⟩
  | 114 => ⟨S_, .f32⟩
  | 115 => ⟨S100000x146, .f32⟩
  | 116 => ⟨S100000x146, .f32⟩
  | 117 => ⟨S_, .f32⟩
  | 118 => ⟨S256x146, .f32⟩
  | 119 => ⟨S100000x1, .i32⟩
  | 120 => ⟨S256x146, .f32⟩
  | 121 => ⟨S_, .f32⟩
  | 122 => ⟨S100000, .f32⟩
  | 123 => ⟨S_, .f32⟩
  | 124 => ⟨S256, .f32⟩
  | 125 => ⟨S100000x1, .i32⟩
  | 126 => ⟨S256, .f32⟩
  | 127 => ⟨S_, .f32⟩
  | _ => ⟨S100000x146, .f32⟩

abbrev hbmTy0_1 (i : Nat) : BufTy := match i % 128 with
  | 0 => ⟨S256, .f32⟩
  | 1 => ⟨S256, .f32⟩
  | 2 => ⟨S256x1, .f32⟩
  | 3 => ⟨S256x146, .f32⟩
  | 4 => ⟨S256x146, .f32⟩
  | 5 => ⟨S256x73, .f32⟩
  | 6 => ⟨S1x73, .f32⟩
  | 7 => ⟨S256x73, .f32⟩
  | 8 => ⟨S256x73, .f32⟩
  | 9 => ⟨S_, .f32⟩
  | 10 => ⟨S256x73, .f32⟩
  | 11 => ⟨S256x73, .f32⟩
  | 12 => ⟨S256x36, .f32⟩
  | 13 => ⟨S1x36, .f32⟩
  | 14 => ⟨S256x36, .f32⟩
  | 15 => ⟨S256x36, .f32⟩
  | 16 => ⟨S_, .f32⟩
  | 17 => ⟨S256x36, .f32⟩
  | 18 => ⟨S256x36, .f32⟩
  | 19 => ⟨S256x10, .f32⟩
  | 20 => ⟨S1x10, .f32⟩
  | 21 => ⟨S256x10, .f32⟩
  | 22 => ⟨S256x10, .f32⟩
  | _ => ⟨S100000x146, .f32⟩

abbrev hbmTy (i : Nat) : BufTy := match i / 128 with
  | 0 => hbmTy0_0 i
  | 1 => hbmTy0_1 i
  | _ => ⟨S100000x146, .f32⟩

abbrev bufTy : (tb : Table) → Fin (tcTables nBuf tb) → BufTy
  | .hbm, ⟨i, _⟩ => hbmTy i
  | _, _ => ⟨S100000x146, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_c : Ref sig .tc := ⟨.hbm, 24, rfl⟩
abbrev main_v11 : Ref sig .tc := ⟨.hbm, 25, rfl⟩
abbrev main_v12 : Ref sig .tc := ⟨.hbm, 26, rfl⟩
abbrev main_c_0 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_cst : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_call0_cst : Ref sig .tc := ⟨.hbm, 42, rfl⟩
abbrev main_call0_v0 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_c_1 : Ref sig .tc := ⟨.hbm, 48, rfl⟩
abbrev main_v30 : Ref sig .tc := ⟨.hbm, 49, rfl⟩
abbrev main_v31 : Ref sig .tc := ⟨.hbm, 50, rfl⟩
abbrev main_c_2 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_cst_3 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_call1_cst : Ref sig .tc := ⟨.hbm, 66, rfl⟩
abbrev main_call1_v0 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_c_4 : Ref sig .tc := ⟨.hbm, 72, rfl⟩
abbrev main_v49 : Ref sig .tc := ⟨.hbm, 73, rfl⟩
abbrev main_v50 : Ref sig .tc := ⟨.hbm, 74, rfl⟩
abbrev main_c_5 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_cst_6 : Ref sig .tc := ⟨.hbm, 81, rfl⟩
abbrev main_v56 : Ref sig .tc := ⟨.hbm, 82, rfl⟩
abbrev main_v57 : Ref sig .tc := ⟨.hbm, 83, rfl⟩
abbrev main_v58 : Ref sig .tc := ⟨.hbm, 84, rfl⟩
abbrev main_v59 : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩
abbrev main_v63 : Ref sig .tc := ⟨.hbm, 89, rfl⟩
abbrev main_call2_cst : Ref sig .tc := ⟨.hbm, 90, rfl⟩
abbrev main_call2_v0 : Ref sig .tc := ⟨.hbm, 91, rfl⟩
abbrev main_v64 : Ref sig .tc := ⟨.hbm, 92, rfl⟩
abbrev main_v65 : Ref sig .tc := ⟨.hbm, 93, rfl⟩
abbrev main_v66 : Ref sig .tc := ⟨.hbm, 94, rfl⟩
abbrev main_v67 : Ref sig .tc := ⟨.hbm, 95, rfl⟩
abbrev main_c_7 : Ref sig .tc := ⟨.hbm, 96, rfl⟩
abbrev main_v68 : Ref sig .tc := ⟨.hbm, 97, rfl⟩
abbrev main_v69 : Ref sig .tc := ⟨.hbm, 98, rfl⟩
abbrev main_c_8 : Ref sig .tc := ⟨.hbm, 99, rfl⟩
abbrev main_v70 : Ref sig .tc := ⟨.hbm, 100, rfl⟩
abbrev main_v71 : Ref sig .tc := ⟨.hbm, 101, rfl⟩
abbrev main_v72 : Ref sig .tc := ⟨.hbm, 102, rfl⟩
abbrev main_v73 : Ref sig .tc := ⟨.hbm, 103, rfl⟩
abbrev main_v74 : Ref sig .tc := ⟨.hbm, 104, rfl⟩
abbrev main_cst_9 : Ref sig .tc := ⟨.hbm, 105, rfl⟩
abbrev main_v75 : Ref sig .tc := ⟨.hbm, 106, rfl⟩
abbrev main_v76 : Ref sig .tc := ⟨.hbm, 107, rfl⟩
abbrev main_v77 : Ref sig .tc := ⟨.hbm, 108, rfl⟩
abbrev main_v78 : Ref sig .tc := ⟨.hbm, 109, rfl⟩
abbrev main_v79 : Ref sig .tc := ⟨.hbm, 110, rfl⟩
abbrev main_v80 : Ref sig .tc := ⟨.hbm, 111, rfl⟩
abbrev main_v81 : Ref sig .tc := ⟨.hbm, 112, rfl⟩
abbrev main_v82 : Ref sig .tc := ⟨.hbm, 113, rfl⟩
abbrev main_call3_cst : Ref sig .tc := ⟨.hbm, 114, rfl⟩
abbrev main_call3_v0 : Ref sig .tc := ⟨.hbm, 115, rfl⟩
abbrev main_v83 : Ref sig .tc := ⟨.hbm, 116, rfl⟩
abbrev main_cst_10 : Ref sig .tc := ⟨.hbm, 117, rfl⟩
abbrev main_v84 : Ref sig .tc := ⟨.hbm, 118, rfl⟩
abbrev main_v85 : Ref sig .tc := ⟨.hbm, 119, rfl⟩
abbrev main_v86 : Ref sig .tc := ⟨.hbm, 120, rfl⟩
abbrev main_cst_11 : Ref sig .tc := ⟨.hbm, 121, rfl⟩
abbrev main_v87 : Ref sig .tc := ⟨.hbm, 122, rfl⟩
abbrev main_cst_12 : Ref sig .tc := ⟨.hbm, 123, rfl⟩
abbrev main_v88 : Ref sig .tc := ⟨.hbm, 124, rfl⟩
abbrev main_v89 : Ref sig .tc := ⟨.hbm, 125, rfl⟩
abbrev main_v90 : Ref sig .tc := ⟨.hbm, 126, rfl⟩
abbrev main_cst_13 : Ref sig .tc := ⟨.hbm, 127, rfl⟩
abbrev main_v91 : Ref sig .tc := ⟨.hbm, 128, rfl⟩
abbrev main_v92 : Ref sig .tc := ⟨.hbm, 129, rfl⟩
abbrev main_v93 : Ref sig .tc := ⟨.hbm, 130, rfl⟩
abbrev main_v94 : Ref sig .tc := ⟨.hbm, 131, rfl⟩
abbrev main_v95 : Ref sig .tc := ⟨.hbm, 132, rfl⟩
abbrev main_v96 : Ref sig .tc := ⟨.hbm, 133, rfl⟩
abbrev main_v97 : Ref sig .tc := ⟨.hbm, 134, rfl⟩
abbrev main_v98 : Ref sig .tc := ⟨.hbm, 135, rfl⟩
abbrev main_v99 : Ref sig .tc := ⟨.hbm, 136, rfl⟩
abbrev main_call4_cst : Ref sig .tc := ⟨.hbm, 137, rfl⟩
abbrev main_call4_v0 : Ref sig .tc := ⟨.hbm, 138, rfl⟩
abbrev main_v100 : Ref sig .tc := ⟨.hbm, 139, rfl⟩
abbrev main_v101 : Ref sig .tc := ⟨.hbm, 140, rfl⟩
abbrev main_v102 : Ref sig .tc := ⟨.hbm, 141, rfl⟩
abbrev main_v103 : Ref sig .tc := ⟨.hbm, 142, rfl⟩
abbrev main_v104 : Ref sig .tc := ⟨.hbm, 143, rfl⟩
abbrev main_call5_cst : Ref sig .tc := ⟨.hbm, 144, rfl⟩
abbrev main_call5_v0 : Ref sig .tc := ⟨.hbm, 145, rfl⟩
abbrev main_v105 : Ref sig .tc := ⟨.hbm, 146, rfl⟩
abbrev main_v106 : Ref sig .tc := ⟨.hbm, 147, rfl⟩
abbrev main_v107 : Ref sig .tc := ⟨.hbm, 148, rfl⟩
abbrev main_v108 : Ref sig .tc := ⟨.hbm, 149, rfl⟩
abbrev main_v109 : Ref sig .tc := ⟨.hbm, 150, rfl⟩

abbrev nD : Nat := 1
abbrev τ : Topo := Topo.v7x

variable {F : FTy → Type} [FloatOps F]

class Facts₀ : Prop where
  slices_S2x500000_S1x500000_0_0 : S2x500000.Slices ![0, 0] S1x500000
  shapeCasts_S1x500000_S500000 : S1x500000.ShapeCasts S500000
  slices_S2x500000_S1x500000_1_0 : S2x500000.Slices ![1, 0] S1x500000
  bcast_S146_S1x146_1 : S146.BroadcastsInDim S1x146 (![1] : Fin 1 → Fin S1x146.rank)
  bcast_S1x146_S100000x146_0_1 : S1x146.BroadcastsInDim S100000x146 (![0, 1] : Fin 2 → Fin S100000x146.rank)
  slices_S4x146x146_S1x146x146_0_0_0 : S4x146x146.Slices ![0, 0, 0] S1x146x146
  shapeCasts_S1x146x146_S146x146 : S1x146x146.ShapeCasts S146x146
  bcast_S_S500000 : S_.BroadcastsInDim S500000 (![] : Fin 0 → Fin S500000.rank)
  bcast_S500000_S500000x1_0 : S500000.BroadcastsInDim S500000x1 (![0] : Fin 1 → Fin S500000x1.rank)
  bcast_S_S100000x146 : S_.BroadcastsInDim S100000x146 (![] : Fin 0 → Fin S100000x146.rank)
  slices_S4x146_S1x146_0_0 : S4x146.Slices ![0, 0] S1x146
  shapeCasts_S1x146_S146 : S1x146.ShapeCasts S146
  slices_S4x146x146_S1x146x146_1_0_0 : S4x146x146.Slices ![1, 0, 0] S1x146x146
  slices_S4x146_S1x146_1_0 : S4x146.Slices ![1, 0] S1x146
  slices_S4x146x146_S1x146x146_2_0_0 : S4x146x146.Slices ![2, 0, 0] S1x146x146
  slices_S4x146_S1x146_2_0 : S4x146.Slices ![2, 0] S1x146
  slices_S4x146x146_S1x146x146_3_0_0 : S4x146x146.Slices ![3, 0, 0] S1x146x146
  slices_S4x146_S1x146_3_0 : S4x146.Slices ![3, 0] S1x146
  bcast_S_S256x146 : S_.BroadcastsInDim S256x146 (![] : Fin 0 → Fin S256x146.rank)
  bcast_S100000_S100000x1_0 : S100000.BroadcastsInDim S100000x1 (![0] : Fin 1 → Fin S100000x1.rank)
  bcast_S_S100000 : S_.BroadcastsInDim S100000 (![] : Fin 0 → Fin S100000.rank)
  bcast_S_S256 : S_.BroadcastsInDim S256 (![] : Fin 0 → Fin S256.rank)
  bcast_S256_S256x1_0 : S256.BroadcastsInDim S256x1 (![0] : Fin 1 → Fin S256x1.rank)
  bcast_S256x1_S256x146_0_1 : S256x1.BroadcastsInDim S256x146 (![0, 1] : Fin 2 → Fin S256x146.rank)
  bcast_S73_S1x73_1 : S73.BroadcastsInDim S1x73 (![1] : Fin 1 → Fin S1x73.rank)
  bcast_S1x73_S256x73_0_1 : S1x73.BroadcastsInDim S256x73 (![0, 1] : Fin 2 → Fin S256x73.rank)
  bcast_S_S256x73 : S_.BroadcastsInDim S256x73 (![] : Fin 0 → Fin S256x73.rank)
  bcast_S36_S1x36_1 : S36.BroadcastsInDim S1x36 (![1] : Fin 1 → Fin S1x36.rank)
  bcast_S1x36_S256x36_0_1 : S1x36.BroadcastsInDim S256x36 (![0, 1] : Fin 2 → Fin S256x36.rank)
  bcast_S_S256x36 : S_.BroadcastsInDim S256x36 (![] : Fin 0 → Fin S256x36.rank)
  bcast_S10_S1x10_1 : S10.BroadcastsInDim S1x10 (![1] : Fin 1 → Fin S1x10.rank)
  bcast_S1x10_S256x10_0_1 : S1x10.BroadcastsInDim S256x10 (![0, 1] : Fin 2 → Fin S256x10.rank)
  dot_S100000x146_S146x146_S100000x146_1_0_0_1_n_n_wf : DotDims.WF S100000x146 S146x146 S100000x146 [1] [0] [0] [1] [] []
  gather_S100000x146_S500000x1_S500000x146_1_0_n_n_0_1_1146_wf : GatherDims.WF S100000x146 S500000x1 S500000x146 [1] [0] [] [0] [] 1 ![1, 146]
  scatter_S100000x146_S500000x1_S500000x146_1_0_0_1_wf : ScatterDims.WF S100000x146 S500000x1 S500000x146 [1] [0] [0] 1
  scatter_S256x146_S100000x1_S100000x146_1_0_0_1_wf : ScatterDims.WF S256x146 S100000x1 S100000x146 [1] [0] [0] 1
  scatter_S256_S100000x1_S100000_n_0_0_1_wf : ScatterDims.WF S256 S100000x1 S100000 [] [0] [0] 1
  dot_S256x146_S146x73_S256x73_1_0_0_1_n_n_wf : DotDims.WF S256x146 S146x73 S256x73 [1] [0] [0] [1] [] []
  dot_S256x73_S73x36_S256x36_1_0_0_1_n_n_wf : DotDims.WF S256x73 S73x36 S256x36 [1] [0] [0] [1] [] []
  dot_S256x36_S36x10_S256x10_1_0_0_1_n_n_wf : DotDims.WF S256x36 S36x10 S256x10 [1] [0] [0] [1] [] []

variable [Facts₀]

def dot_S100000x146_S146x146_S100000x146_1_0_0_1_n_n : DotDims S100000x146 S146x146 S100000x146 where
  lhsContracting := [1]
  rhsContracting := [0]
  lhsNonContracting := [0]
  rhsNonContracting := [1]
  lhsBatch := []
  rhsBatch := []
  wf := dot_S100000x146_S146x146_S100000x146_1_0_0_1_n_n_wf
def gather_S100000x146_S500000x1_S500000x146_1_0_n_n_0_1_1146 : GatherDims S100000x146 S500000x1 S500000x146 where
  offsetDims := [1]
  collapsedSliceDims := [0]
  operandBatchingDims := []
  startIndicesBatchingDims := []
  startIndexMap := [0]
  indexVectorDim := 1
  sliceSizes := ![1, 146]
  wf := gather_S100000x146_S500000x1_S500000x146_1_0_n_n_0_1_1146_wf
def scatter_S100000x146_S500000x1_S500000x146_1_0_0_1 : ScatterDims S100000x146 S500000x1 S500000x146 where
  updateWindowDims := [1]
  insertedWindowDims := [0]
  scatterDimsToOperandDims := [0]
  indexVectorDim := 1
  wf := scatter_S100000x146_S500000x1_S500000x146_1_0_0_1_wf
def scatter_S256x146_S100000x1_S100000x146_1_0_0_1 : ScatterDims S256x146 S100000x1 S100000x146 where
  updateWindowDims := [1]
  insertedWindowDims := [0]
  scatterDimsToOperandDims := [0]
  indexVectorDim := 1
  wf := scatter_S256x146_S100000x1_S100000x146_1_0_0_1_wf
def scatter_S256_S100000x1_S100000_n_0_0_1 : ScatterDims S256 S100000x1 S100000 where
  updateWindowDims := []
  insertedWindowDims := [0]
  scatterDimsToOperandDims := [0]
  indexVectorDim := 1
  wf := scatter_S256_S100000x1_S100000_n_0_0_1_wf
def dot_S256x146_S146x73_S256x73_1_0_0_1_n_n : DotDims S256x146 S146x73 S256x73 where
  lhsContracting := [1]
  rhsContracting := [0]
  lhsNonContracting := [0]
  rhsNonContracting := [1]
  lhsBatch := []
  rhsBatch := []
  wf := dot_S256x146_S146x73_S256x73_1_0_0_1_n_n_wf
def dot_S256x73_S73x36_S256x36_1_0_0_1_n_n : DotDims S256x73 S73x36 S256x36 where
  lhsContracting := [1]
  rhsContracting := [0]
  lhsNonContracting := [0]
  rhsNonContracting := [1]
  lhsBatch := []
  rhsBatch := []
  wf := dot_S256x73_S73x36_S256x36_1_0_0_1_n_n_wf
def dot_S256x36_S36x10_S256x10_1_0_0_1_n_n : DotDims S256x36 S36x10 S256x10 where
  lhsContracting := [1]
  rhsContracting := [0]
  lhsNonContracting := [0]
  rhsNonContracting := [1]
  lhsBatch := []
  rhsBatch := []
  wf := dot_S256x36_S36x10_S256x10_1_0_0_1_n_n_wf

class Facts : Prop extends Facts₀ where

variable [Facts]
-- ==== Proof.KI.Dats.lean ====
import proofs.«430219_j41016937677162_3_alg».proof.Proof.Gen.KernelIdeal.Launch
import proofs.«430219_j41016937677162_3_alg».proof.Proof.Gen.KernelIdeal.Skeleton
import proofs.«430219_j41016937677162_3_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

abbrev rA : Rect S4000x146 := Rect.unit (s := S4000x146) ![0, 0] S4000x146.size inb_S4000x146_S4000x146_0_0
abbrev rW : Rect S146x146 := Rect.unit (s := S146x146) ![0, 0] S146x146.size inb_S146x146_S146x146_0_0
abbrev rB : Rect S1x146 := Rect.unit (s := S1x146) ![0, 0] S1x146.size inb_S1x146_S1x146_0_0
abbrev rI : Rect S4000x1 := Rect.unit (s := S4000x1) ![0, 0] S4000x1.size inb_S4000x1_S4000x1_0_0
abbrev rP : Rect S256x147 := Rect.unit (s := S256x147) ![0, 0] S256x147.size inb_S256x147_S256x147_0_0
abbrev rH : Rect S256x146 := Rect.unit (s := S256x146) ![0, 0] S256x146.size inb_S256x146_S256x146_0_0
abbrev rW1 : Rect S146x73 := Rect.unit (s := S146x73) ![0, 0] S146x73.size inb_S146x73_S146x73_0_0
abbrev rB1 : Rect S1x73 := Rect.unit (s := S1x73) ![0, 0] S1x73.size inb_S1x73_S1x73_0_0
abbrev rW2 : Rect S73x36 := Rect.unit (s := S73x36) ![0, 0] S73x36.size inb_S73x36_S73x36_0_0
abbrev rB2 : Rect S1x36 := Rect.unit (s := S1x36) ![0, 0] S1x36.size inb_S1x36_S1x36_0_0
abbrev rW3 : Rect S36x10 := Rect.unit (s := S36x10) ![0, 0] S36x10.size inb_S36x10_S36x10_0_0
abbrev rB3 : Rect S1x10 := Rect.unit (s := S1x10) ![0, 0] S1x10.size inb_S1x10_S1x10_0_0
abbrev rO : Rect S256x10 := Rect.unit (s := S256x10) ![0, 0] S256x10.size inb_S256x10_S256x10_0_0

def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

def out0_3 (x0 : Vec F S4000x146 .f32) (x1 : Vec F S146x146 .f32) (x2 : Vec F S1x146 .f32) : Vec F S4000x146 .f32 :=
  View.canon [⟨rA, k0_pay1 (View.ld x0 rA) (View.ld x1 rW) (View.ld x2 rB)⟩]

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t) (iblk0 V c 1 t) (iblk0 V c 2 t)
  Φ _ := Pipeline.ΦA spec0 c
  q _ := fullShare
  owed _ := 0

def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

def out1_3 (x0 : Vec F S4000x146 .f32) (x1 : Vec F S1x146 .f32) (x2 : Vec F S146x146 .f32) : Vec F S4000x146 .f32 :=
  View.canon [⟨rA, k1_pay1 (View.ld x0 rA) (View.ld x1 rB) (View.ld x2 rW)⟩]

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => out1_3 (iblk1 V c 0 t) (iblk1 V c 1 t) (iblk1 V c 2 t)
  Φ _ := Pipeline.ΦA spec1 c
  q _ := fullShare
  owed _ := 0

def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

def out2_3 (x0 : Vec F S4000x146 .f32) (x1 : Vec F S1x146 .f32) (x2 : Vec F S146x146 .f32) : Vec F S4000x146 .f32 :=
  View.canon [⟨rA, k2_pay1 (View.ld x0 rA) (View.ld x1 rB) (View.ld x2 rW)⟩]

def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => out2_3 (iblk2 V c 0 t) (iblk2 V c 1 t) (iblk2 V c 2 t)
  Φ _ := Pipeline.ΦA spec2 c
  q _ := fullShare
  owed _ := 0

def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

def out3_3 (x0 : Vec F S4000x146 .f32) (x1 : Vec F S1x146 .f32) (x2 : Vec F S146x146 .f32) : Vec F S4000x146 .f32 :=
  View.canon [⟨rA, k3_pay1 (View.ld x0 rA) (View.ld x1 rB) (View.ld x2 rW)⟩]

def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => out3_3 (iblk3 V c 0 t) (iblk3 V c 1 t) (iblk3 V c 2 t)
  Φ _ := Pipeline.ΦA spec3 c
  q _ := fullShare
  owed _ := 0

def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

abbrev scM4 : Memref sig .tc .vmem S256x147 .f32 := Memref.whole cc4_scratch0

def step4 (x0 : Vec F S4000x146 .f32) (x1 : Vec F S1x146 .f32) (x2 : Vec F S4000x1 .i32) (s : Vec F S256x147 .f32) : Vec F S256x147 .f32 :=
  View.canon [⟨rP, k4_pay2 (View.ld x0 rA) (View.ld x1 rB) (View.ld x2 rI) (View.ld s rP)⟩]

def zero4 : Vec F S256x147 .f32 := View.canon [⟨rP, k4_pay1 (F := F)⟩]

def acc4 (c : Dev nD) : (n : ℕ) → n < cfg4.N → Vec F S256x147 .f32
  | 0, hn => step4 (iblk4 V c 0 ⟨0, hn⟩) (iblk4 V c 1 ⟨0, hn⟩) (iblk4 V c 2 ⟨0, hn⟩) (zero4 (F := F))
  | n + 1, hn => step4 (iblk4 V c 0 ⟨n + 1, hn⟩) (iblk4 V c 1 ⟨n + 1, hn⟩) (iblk4 V c 2 ⟨n + 1, hn⟩) (acc4 c n (Nat.lt_of_succ_lt hn))

def out4_3 (s : Vec F S256x147 .f32) : Vec F S256x147 .f32 := View.canon [⟨rP, View.ld s rP⟩]

def PhiS4 (c : Dev nD) : (n : ℕ) → n ≤ cfg4.N → sProp 𝕄
  | 0, _ => Pipeline.ΦA spec4 c
  | n + 1, hn => iprop(owns (c : Thread nD τ) scM4 fullShare (acc4 V c n hn)
      ∗ Pipeline.scopedRestBut (Ix := Unit) (Name := ℕ) (U := UR sig nD τ) (Lvl := ℕ) (Val := Elt F) spec4 c [cc4_scratch0]
      ∗ (∃ r, prngReg c r))

def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => iblk4 V c 2 t
    | ⟨3, _⟩ => out4_3 (acc4 V c t.val t.isLt)
  Φ t := PhiS4 V c t.val (Nat.le_of_lt_succ t.isLt)
  q _ := fullShare
  owed _ := 0

def iblk5 (c : Dev nD) (w : Fin cfg5.W) (t : Fin cfg5.N) : ((cfg5.win w).xblock (cfg5.grid.coords t)).Idx → Elt F (cfg5.win w).elt :=
  ((cfg5.win w).blk t).view.read (Elt F) (V c (Pipeline.arrRef spec5 w))

def out5_7 (x0 : Vec F S256x146 .f32) (x1 : Vec F S146x73 .f32) (x2 : Vec F S1x73 .f32) (x3 : Vec F S73x36 .f32) (x4 : Vec F S1x36 .f32)
    (x5 : Vec F S36x10 .f32) (x6 : Vec F S1x10 .f32) : Vec F S256x10 .f32 :=
  View.canon [⟨rO, k5_pay1 (View.ld x0 rH) (View.ld x1 rW1) (View.ld x2 rB1) (View.ld x3 rW2) (View.ld x4 rB2) (View.ld x5 rW3) (View.ld x6 rB3)⟩]

def dat5 (c : Dev nD) : Dat τ (Elt F) Unit ℕ (UR sig nD τ) ℕ cfg5 c where
  A w := V c (Pipeline.arrRef spec5 w)
  after w t := match w with
    | ⟨0, _⟩ => iblk5 V c 0 t
    | ⟨1, _⟩ => iblk5 V c 1 t
    | ⟨2, _⟩ => iblk5 V c 2 t
    | ⟨3, _⟩ => iblk5 V c 3 t
    | ⟨4, _⟩ => iblk5 V c 4 t
    | ⟨5, _⟩ => iblk5 V c 5 t
    | ⟨6, _⟩ => iblk5 V c 6 t
    | ⟨7, _⟩ => out5_7 (iblk5 V c 0 t) (iblk5 V c 1 t) (iblk5 V c 2 t) (iblk5 V c 3 t) (iblk5 V c 4 t) (iblk5 V c 5 t) (iblk5 V c 6 t)
  Φ _ := Pipeline.ΦA spec5 c
  q _ := fullShare
  owed _ := 0

end Cert.KernelIdeal.Hand

end
-- ==== Proof.KI.RLin.lean ====
import proofs.«430219_j41016937677162_3_alg».proof.Proof.KI.Dats
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

-- Three whole blocks are read and `pay` of them is stored over the whole output block: the inputs stay and the output ends at that value.
theorem body_triple {Sb Sc : Shape} (c : Dev nD) (rb : Rect Sb) (lb : 0 < rb.toLoadRect.shape.numel) (rc : Rect Sc)
    (lc : 0 < rc.toLoadRect.shape.numel) (pay : Vec F rA.shape .f32 → Vec F rb.shape .f32 → Vec F rc.shape .f32 → Vec F rA.shape .f32)
    {Φ O : sProp 𝕄} {a1 a4 : Memref sig .tc .vmem S4000x146 .f32} {a2 : Memref sig .tc .vmem Sb .f32} {a3 : Memref sig .tc .vmem Sc .f32}
    {D0 D1 D2 D3 : Type} {f0 : D0 → Vec F S4000x146 .f32} {f1 : D1 → Vec F Sb .f32} {f2 : D2 → Vec F Sc .f32}
    {f3 : D3 → Vec F S4000x146 .f32} {x0 x1 x2 y} (e0 : ∀ d, f0 d = x0) (e1 : ∀ d, f1 d = x1) (e2 : ∀ d, f2 d = x2)
    (e3 : y = View.canon [⟨rA, pay (View.ld x0 rA) (View.ld x1 rb) (View.ld x2 rc)⟩]) :
    iprop(Φ ∗ O ∗ (∃ d, owns (c : Thread nD τ) a1 fullShare (f0 d)) ∗ (∃ d, owns (c : Thread nD τ) a2 fullShare (f1 d))
        ∗ (∃ d, owns (c : Thread nD τ) a3 fullShare (f2 d)) ∗ (∃ d, owns (c : Thread nD τ) a4 fullShare (f3 d)))
      ⊢ wp frame (wpE (defs₀ (F := F)) Variants.none c none) Set.univ (do
          let v0 ← Prog.lift (.load a1 rA.toLoadRect (View.loadsAt_vmem h_S4000x146))
          let v1 ← Prog.lift (.load a2 rb.toLoadRect (View.loadsAt_vmem lb))
          let v2 ← Prog.lift (.load a3 rc.toLoadRect (View.loadsAt_vmem lc))
          let _ ← Prog.lift (.load a4 rA.toLoadRect (View.loadsAt_vmem h_S4000x146))
          Prog.lift (.store a4 rA (pay v0 v1 v2) Finset.univ (View.stores_vmem_bits_univ h_S4000x146 rfl) (.inl rfl))
          pure PUnit.unit)
        fun _ => iprop(Φ ∗ O ∗ owns (c : Thread nD τ) a1 fullShare x0 ∗ owns (c : Thread nD τ) a2 fullShare x1
          ∗ owns (c : Thread nD τ) a3 fullShare x2 ∗ owns (c : Thread nD τ) a4 fullShare y) := by
  subst e3
  simp only [e0, e1, e2]; unfold owns
  iintro ⟨HΦ, Ho, ⟨%d0, %g0, %hg0, H0⟩, ⟨%d1, %g1, %hg1, H1⟩, ⟨%d2, %g2, %hg2, H2⟩, ⟨%d3, %g3, -, H3⟩⟩
  subst hg0 hg1 hg2
  sl_exec
  sl_step
  iframe
  isplitl [H0]; · iexists g0; iframe; ipureintro; rfl
  isplitl [H1]; · iexists g1; iframe; ipureintro; rfl
  isplitl [H2]; · iexists g2; iframe; ipureintro; rfl
  iexists _; iframe; ipureintro
  exact View.read_writes_eq_canon _ _ _ (View.cover_of_tiled _ S4000x146.size (by rfl))

theorem A_eq0 (c : Dev nD) (w : Fin cfg0.W) : (dat0 V c).A w = V c (Pipeline.arrRef spec0 w) := rfl

-- Before the body each input's contents are its block, so the triple applies with the region's payload.
theorem body_obligation0 (c : Dev nD) : BodyObligation (dat0 (F := F) V c) (defs₀ (F := F)) Variants.none () Set.univ := fun t => by
  rw [bigSep_W0, bigSep_W0]
  refine body_triple c rW h_S146x146 rB h_S1x146 k0_pay1 ?_ ?_ ?_ (by dsimp only [dat0]; rfl) <;>
    exact Dat.before_in_eq_fetched _ _ rfl (fun _ => rfl) (fun _ _ _ => rfl) (fun _ => rfl) t

theorem body_obligation1 (c : Dev nD) : BodyObligation (dat1 (F := F) V c) (defs₀ (F := F)) Variants.none () Set.univ := fun t => by
  rw [bigSep_W1, bigSep_W1]
  refine body_triple c rB h_S1x146 rW h_S146x146 k1_pay1 ?_ ?_ ?_ (by dsimp only [dat1]; rfl) <;>
    exact Dat.before_in_eq_fetched _ _ rfl (fun _ => rfl) (fun _ _ _ => rfl) (fun _ => rfl) t

theorem body_obligation2 (c : Dev nD) : BodyObligation (dat2 (F := F) V c) (defs₀ (F := F)) Variants.none () Set.univ := fun t => by
  rw [bigSep_W2, bigSep_W2]
  refine body_triple c rB h_S1x146 rW h_S146x146 k2_pay1 ?_ ?_ ?_ (by dsimp only [dat2]; rfl) <;>
    exact Dat.before_in_eq_fetched _ _ rfl (fun _ => rfl) (fun _ _ _ => rfl) (fun _ => rfl) t

theorem body_obligation3 (c : Dev nD) : BodyObligation (dat3 (F := F) V c) (defs₀ (F := F)) Variants.none () Set.univ := fun t => by
  rw [bigSep_W3, bigSep_W3]
  refine body_triple c rB h_S1x146 rW h_S146x146 k3_pay1 ?_ ?_ ?_ (by dsimp only [dat3]; rfl) <;>
    exact Dat.before_in_eq_fetched _ _ rfl (fun _ => rfl) (fun _ _ _ => rfl) (fun _ => rfl) t

end Cert.KernelIdeal.Hand

end
-- ==== Proof.KI.R4.lean ====
import proofs.«430219_j41016937677162_3_alg».proof.Proof.KI.Dats
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

abbrev cond4_0 (i : grid4.Coords) : Prop := (Scalar.cmpi .ne (Scalar.extui (Scalar.cmpi .eq (BitVec.ofNat 32 (i 0).val) 0#32)) 0#32) = 1#1
/-- The accumulator is reset at the first point only. -/
theorem hcond4_0 : ∀ t : Fin cfg4.N, cond4_0 (grid4.coords t) ↔ t.val = 0 :=
  (by decide +kernel : ∀ t : Fin grid4.N, cond4_0 (grid4.coords t) ↔ t.val = 0)

abbrev cond4_1 (i : grid4.Coords) : Prop := k4_cond2 i = 1#1
/-- The accumulator is copied out at the last point only. -/
theorem hcond4_1 : ∀ t : Fin cfg4.N, cond4_1 (grid4.coords t) ↔ t.val = 24 :=
  (by decide +kernel : ∀ t : Fin grid4.N, cond4_1 (grid4.coords t) ↔ t.val = 24)

theorem liveAt4_0 : ∀ t : Fin cfg4.N, cfg4.idle 0 (grid4.coords t) = false := by decide +kernel
theorem liveAt4_1 : ∀ t : Fin cfg4.N, cfg4.idle 1 (grid4.coords t) = false := by decide +kernel
theorem liveAt4_2 : ∀ t : Fin cfg4.N, cfg4.idle 2 (grid4.coords t) = false := by decide +kernel
theorem idleAt4_3 : ∀ t : Fin cfg4.N, ¬cond4_1 (grid4.coords t) → cfg4.idle 3 (grid4.coords t) = true := by decide +kernel
theorem noFlush4_3 : ∀ t : Fin cfg4.N, ¬cond4_1 (grid4.coords t) → (cfg4.win 3).flush t = false := by decide +kernel
theorem liveAt4_3 : ∀ t : Fin cfg4.N, cond4_1 (grid4.coords t) → cfg4.idle 3 (grid4.coords t) = false := by decide +kernel

theorem hzP : (![0, 0] : Fin S256x147.rank → ℕ) = fun _ => 0 := by funext a; fin_cases a <;> rfl

/-- A list of stores whose newest is over the whole block covers the block. -/
theorem coverP (w : rP.shape.Idx → Elt F .f32) (L : List (View.Piece (Elt F) S256x147 .f32)) (y : S256x147.Idx) :
    ∃ p ∈ ((⟨rP, w⟩ : View.Piece (Elt F) S256x147 .f32) :: L), y ∈ p.1.set :=
  ⟨⟨rP, w⟩, List.mem_cons_self, View.mem_set_unit_zero hzP inb_S256x147_S256x147_0_0 y⟩

theorem zero4_eq : zero4 (F := F) = k4_pay1 := by
  unfold zero4; rw [View.canon_unit_zero hzP]

theorem out4_3_eq (s : Vec F S256x147 .f32) : out4_3 (F := F) s = s := by
  unfold out4_3; rw [View.canon_unit_zero hzP, View.ld_unit_zero hzP]

/-- A reset followed by an update reads back as the update of the reset contents. -/
theorem scratch_first (v5 : View sig .tc .vmem S256x147 .f32) (fs : v5.ty.Contents (Elt F))
    (a : Vec F S4000x146 .f32) (b : Vec F S1x146 .f32) (k : Vec F S4000x1 .i32) :
    v5.read (Elt F) (v5.writes (Elt F) fs
        [⟨rP, k4_pay2 (View.ld a rA) (View.ld b rB) (View.ld k rI) (v5.readCov [⟨rP, k4_pay1 (F := F)⟩] rP.toLoadRect)⟩, ⟨rP, k4_pay1 (F := F)⟩])
      = step4 a b k (zero4 (F := F)) := by
  rw [View.read_writes_eq_canon _ _ _ (coverP _ _), View.canon_cons_unit_zero hzP, View.readCov_unit_zero _ hzP]
  unfold step4
  rw [View.canon_unit_zero hzP, View.ld_unit_zero hzP _ (zero4 (F := F)), zero4_eq]

/-- The copy of the freshly updated accumulator reads back as that update. -/
theorem out_last (v4 v5 : View sig .tc .vmem S256x147 .f32) (f3 : v4.ty.Contents (Elt F))
    (a : Vec F S4000x146 .f32) (b : Vec F S1x146 .f32) (k : Vec F S4000x1 .i32) (s : Vec F S256x147 .f32) :
    v4.read (Elt F) (v4.writes (Elt F) f3
        [⟨rP, v5.readCov [⟨rP, k4_pay2 (View.ld a rA) (View.ld b rB) (View.ld k rI) (View.ld s rP)⟩] rP.toLoadRect⟩])
      = out4_3 (step4 a b k s) := by
  rw [View.read_writes_eq_canon _ _ _ (coverP _ _), View.canon_unit_zero hzP, View.readCov_unit_zero _ hzP, out4_3_eq]
  unfold step4
  rw [View.canon_unit_zero hzP]

/-- One triple for the three cases of the two conditionals, which never hold together. -/
theorem kernel4 (c : Dev nD) (E : Set ℕ) (i : grid4.Coords)
    (arg1 : Memref sig .tc .vmem S4000x146 .f32) (harg1 : arg1.IsWhole) (arg2 : Memref sig .tc .vmem S1x146 .f32) (harg2 : arg2.IsWhole)
    (arg3 : Memref sig .tc .vmem S4000x1 .i32) (harg3 : arg3.IsWhole) (arg4 : Memref sig .tc .vmem S256x147 .f32) (harg4 : arg4.IsWhole)
    (arg5 : Memref sig .tc .vmem S256x147 .f32) (harg5 : arg5.IsWhole) (h01 : cond4_0 i → ¬cond4_1 i)
    (x0 : Vec F S4000x146 .f32) (x1 : Vec F S1x146 .f32) (x2 : Vec F S4000x1 .i32) (xi s : Vec F S256x147 .f32)
    (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare xi ∗ owns (c : Thread nD τ) arg5 fullShare s
        ∗ (iprop(owns (c : Thread nD τ) arg1 fullShare x0 ∗ owns (c : Thread nD τ) arg2 fullShare x1 ∗ owns (c : Thread nD τ) arg3 fullShare x2
            ∗ owns (c : Thread nD τ) arg4 fullShare (if cond4_1 i then out4_3 (step4 x0 x1 x2 (if cond4_0 i then zero4 (F := F) else s)) else xi)
            ∗ owns (c : Thread nD τ) arg5 fullShare (step4 x0 x1 x2 (if cond4_0 i then zero4 (F := F) else s))) -∗ K ⟨⟩))
      ⊢ wp frame (wpE (defs₀ (F := F)) Variants.none c none) E (cc4__fused_relu_pool_kernel i arg1 harg1 arg2 harg2 arg3 harg3 arg4 harg4 arg5 harg5) K := by
  simp only [cc4__fused_relu_pool_kernel_eq_skeleton]; unfold cc4__fused_relu_pool_kernel_skel owns
  iintro ⟨⟨%f0, %hf0, H0⟩, ⟨%f1, %hf1, H1⟩, ⟨%f2, %hf2, H2⟩, ⟨%f3, %hf3, H3⟩, ⟨%fs, %hfs, HS⟩, Hk⟩
  subst hf0 hf1 hf2 hf3 hfs
  by_cases hc0 : cond4_0 i <;> by_cases hc1 : cond4_1 i
  · exact absurd hc1 (h01 hc0)
  all_goals
    first | rw [if_pos hc0] | rw [if_neg hc0]
    first | rw [if_pos hc1] | rw [if_neg hc1]
    sl_exec (disch := first | exact hc0 | exact hc1)
    sl_step
    iapply Hk
    isplitl [H0]; · iexists f0; isplitr; ipureintro; rfl; iexact H0
    isplitl [H1]; · iexists f1; isplitr; ipureintro; rfl; iexact H1
    isplitl [H2]; · iexists f2; isplitr; ipureintro; rfl; iexact H2
    isplitl [H3]
    · iexists _; isplitr; swap; · iexact H3
      ipureintro
      first
      | have : cond4_1 i := hc1
        exact out_last arg4.view arg5.view f3 (arg1.view.read (Elt F) f0) (arg2.view.read (Elt F) f1) (arg3.view.read (Elt F) f2) (arg5.view.read (Elt F) fs)
      | rfl
    iexists _; isplitr; swap; · iexact HS
    ipureintro
    first
    | have : cond4_0 i := hc0
      exact scratch_first arg5.view fs (arg1.view.read (Elt F) f0) (arg2.view.read (Elt F) f1) (arg3.view.read (Elt F) f2)
    | exact View.read_writes_eq_canon _ _ _ (coverP _ _)

theorem A_eq4 (c : Dev nD) (w : Fin cfg4.W) : (dat4 V c).A w = V c (Pipeline.arrRef spec4 w) := rfl

theorem before4_0 (c : Dev nD) (t : Fin cfg4.N) (d) : (dat4 V c).before 0 t d = (dat4 V c).after 0 t :=
  Dat.before_fetched _ 0 t (fetch4_0 t) d
theorem before4_1 (c : Dev nD) (t : Fin cfg4.N) (d) : (dat4 V c).before 1 t d = (dat4 V c).after 1 t :=
  Dat.before_in_eq_fetched _ 1 rfl (fun _ => rfl) (fun _ _ _ => rfl) (fun _ => rfl) t d
theorem before4_2 (c : Dev nD) (t : Fin cfg4.N) (d) : (dat4 V c).before 2 t d = (dat4 V c).after 2 t :=
  Dat.before_fetched _ 2 t (fetch4_2 t) d

theorem leaves4 (c : Dev nD) (w : Fin cfg4.W) (t : Fin cfg4.N) (h : cfg4.idle w (grid4.coords t) = false) :
    (dat4 V c).leavesExact w t = owns (c : Thread nD τ) ((cfg4.win w).stage (cfg4.slots t w)) fullShare ((dat4 V c).after w t) := by
  unfold Dat.leavesExact; rw [h]

theorem leaves4_3 (c : Dev nD) (t : Fin cfg4.N) (d) :
    owns (c : Thread nD τ) (st4_3 t) fullShare (if cond4_1 (grid4.coords t) then out4_3 (acc4 V c t.val t.isLt) else (dat4 V c).before 3 t d)
      ⊢ (dat4 V c).leavesExact 3 t := by
  by_cases h : cond4_1 (grid4.coords t)
  · rw [if_pos h, leaves4 V c 3 t (liveAt4_3 t h)]; exact Entails.refl _
  · rw [if_neg h, Dat.leavesExact_idle _ 3 t (idleAt4_3 t h) (noFlush4_3 t h)]
    iintro H; iexists d; iexact H

/-- By cases on whether the point is the first. -/
theorem acc4_eq (c : Dev nD) (t : Fin cfg4.N) (s : Vec F S256x147 .f32)
    (hs : ∀ hn : t.val ≠ 0, s = acc4 V c (t.val - 1) (Nat.lt_of_le_of_lt (Nat.sub_le _ _) t.isLt)) :
    step4 ((dat4 V c).after 0 t) ((dat4 V c).after 1 t) ((dat4 V c).after 2 t) (if cond4_0 (grid4.coords t) then zero4 (F := F) else s)
      = acc4 V c t.val t.isLt := by
  obtain ⟨n, hn⟩ := t
  cases n with
  | zero => rw [if_pos ((hcond4_0 ⟨0, hn⟩).mpr rfl)]; rfl
  | succ n => rw [if_neg fun h => Nat.succ_ne_zero n ((hcond4_0 ⟨n + 1, hn⟩).mp h), hs (Nat.succ_ne_zero n)]; rfl

/-- The region's resources with the accumulator at `s`. -/
abbrev Inv4 (c : Dev nD) (s : Vec F S256x147 .f32) : sProp 𝕄 :=
  iprop(owns (c : Thread nD τ) scM4 fullShare s
    ∗ Pipeline.scopedRestBut (Ix := Unit) (Name := ℕ) (U := UR sig nD τ) (Lvl := ℕ) (Val := Elt F) spec4 c [cc4_scratch0]
    ∗ (∃ r, prngReg c r))

theorem PhiA4_eq (c : Dev nD) :
    (Pipeline.ΦA spec4 c : sProp 𝕄)
      = iprop(iprop((∃ d, owns (c : Thread nD τ) scM4 fullShare d)
          ∗ Pipeline.scopedRestBut (Ix := Unit) (Name := ℕ) (U := UR sig nD τ) (Lvl := ℕ) (Val := Elt F) spec4 c [cc4_scratch0])
        ∗ (∃ r, prngReg c r)) := by
  unfold Pipeline.ΦA; rw [scopedRest4_split]; simp only [scM4, owns_whole]; try rfl

/-- At every position the invariant holds the accumulator at some contents: past the first point, what the point before left. -/
theorem PhiS4_open (c : Dev nD) (n : ℕ) (h : n ≤ cfg4.N) :
    PhiS4 V c n h ⊢ iprop(∃ s, ⌜∀ hn : n ≠ 0, s = acc4 V c (n - 1) (by omega)⌝ ∗ Inv4 c s) := by
  cases n with
  | zero =>
    rw [show PhiS4 V c 0 h = _ from PhiA4_eq (F := F) c]
    unfold Inv4
    iintro ⟨⟨⟨%d, HS⟩, HR⟩, Hg⟩
    iexists d; isplitr; ipureintro; exact fun hn => absurd rfl hn; iframe
  | succ n =>
    rw [show PhiS4 V c (n + 1) h = Inv4 c (acc4 V c n h) from rfl]
    iintro H
    iexists acc4 V c n h; isplitr; ipureintro; exact fun _ => rfl; iexact H

/-- The invariant lends the accumulator and takes it back one update on. -/
theorem sound_body4 (c : Dev nD) (t : Fin cfg4.N) (Q : sProp 𝕄) :
    iprop((dat4 V c).Φ t.castSucc ∗ Q
      ∗ (∃ d, owns (c : Thread nD τ) (st4_0 t) fullShare ((dat4 V c).before 0 t d))
      ∗ (∃ d, owns (c : Thread nD τ) (st4_1 t) fullShare ((dat4 V c).before 1 t d))
      ∗ (∃ d, owns (c : Thread nD τ) (st4_2 t) fullShare ((dat4 V c).before 2 t d))
      ∗ (∃ d, owns (c : Thread nD τ) (st4_3 t) fullShare ((dat4 V c).before 3 t d)))
      ⊢ wp frame (wpE (defs₀ (F := F)) Variants.none c none) Set.univ (bodyAt4 t) (fun _ => iprop((dat4 V c).Φ t.succ ∗ Q
        ∗ (dat4 V c).leavesExact 0 t ∗ (dat4 V c).leavesExact 1 t ∗ (dat4 V c).leavesExact 2 t ∗ (dat4 V c).leavesExact 3 t)) := by
  unfold bodyAt4
  simp only [before4_0, before4_1, before4_2]
  rw [leaves4 V c 0 t (liveAt4_0 t), leaves4 V c 1 t (liveAt4_1 t), leaves4 V c 2 t (liveAt4_2 t),
    show (dat4 V c).Φ t.succ = Inv4 c (acc4 V c t.val t.isLt) from rfl]
  unfold Inv4
  have h01 : cond4_0 (grid4.coords t) → ¬cond4_1 (grid4.coords t) := fun a b => by
    have := (hcond4_0 t).mp a; have := (hcond4_1 t).mp b; omega
  refine (sep_mono_left (PhiS4_open V c t.val (Nat.le_of_lt t.isLt))).trans ?_
  unfold Inv4
  iintro ⟨⟨%s, %hs, HS, HR, Hg⟩, HQ, ⟨%d0, H0⟩, ⟨%d1, H1⟩, ⟨%d2, H2⟩, ⟨%d3, H3⟩⟩
  iapply (kernel4 c Set.univ (grid4.coords t) _ _ _ _ _ _ _ _ _ _ h01
    ((dat4 V c).after 0 t) ((dat4 V c).after 1 t) ((dat4 V c).after 2 t) ((dat4 V c).before 3 t d3) s _)
  iframe H0 H1 H2 H3 HS
  iintro ⟨H0, H1, H2, H3, HS⟩
  rw [acc4_eq V c t s hs]
  iframe H0 H1 H2 HS HR Hg HQ
  iapply (leaves4_3 V c t d3)
  iexact H3

theorem body_obligation4 (c : Dev nD) : BodyObligation (dat4 (F := F) V c) (defs₀ (F := F)) Variants.none () Set.univ := fun t => by
  rw [bigSep_W4, bigSep_W4]
  exact sound_body4 V c t _

theorem hin4 (c : Dev nD) : Pipeline.ΦA spec4 c ⊢ (dat4 V c).Φ 0 := Entails.refl _

/-- After the last point the accumulator's contents are forgotten. -/
theorem hout4 (c : Dev nD) : (dat4 V c).Φ (Fin.last cfg4.N) ⊢ Pipeline.ΦA spec4 c := by
  rw [PhiA4_eq]
  refine (PhiS4_open V c _ (Nat.le_of_lt_succ (Fin.last cfg4.N).isLt)).trans ?_
  unfold Inv4
  iintro ⟨%s, -, HS, HR, Hg⟩
  iframe HR Hg
  iexists _; iexact HS

end Cert.KernelIdeal.Hand

end
-- ==== Proof.KI.R5.lean ====
import proofs.«430219_j41016937677162_3_alg».proof.Proof.KI.Dats
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- The one store is over the whole block. -/
theorem cover5_7 (p0 : Vec F S256x10 .f32) (y : S256x10.Idx) :
    ∃ pc ∈ ([⟨rO, p0⟩] : List (View.Piece (Elt F) S256x10 .f32)), y ∈ pc.1.set :=
  View.cover_of_tiled [⟨rO, p0⟩] S256x10.size (by rfl) y

/-- The body reads the seven input blocks whole and overwrites the whole output block with the readout of them. -/
theorem sound_kernel5 (c : Dev nD) (E : Set ℕ) (i : grid5.Coords)
    (arg0 : Memref sig .tc .vmem S256x146 .f32) (harg0 : arg0.IsWhole) (arg1 : Memref sig .tc .vmem S146x73 .f32) (harg1 : arg1.IsWhole)
    (arg2 : Memref sig .tc .vmem S1x73 .f32) (harg2 : arg2.IsWhole) (arg3 : Memref sig .tc .vmem S73x36 .f32) (harg3 : arg3.IsWhole)
    (arg4 : Memref sig .tc .vmem S1x36 .f32) (harg4 : arg4.IsWhole) (arg5 : Memref sig .tc .vmem S36x10 .f32) (harg5 : arg5.IsWhole)
    (arg6 : Memref sig .tc .vmem S1x10 .f32) (harg6 : arg6.IsWhole) (arg7 : Memref sig .tc .vmem S256x10 .f32) (harg7 : arg7.IsWhole)
    (x0 : Vec F S256x146 .f32) (x1 : Vec F S146x73 .f32) (x2 : Vec F S1x73 .f32) (x3 : Vec F S73x36 .f32) (x4 : Vec F S1x36 .f32)
    (x5 : Vec F S36x10 .f32) (x6 : Vec F S1x10 .f32) (d : Vec F S256x10 .f32) (K : PUnit → sProp 𝕄) :
    iprop(owns (c : Thread nD τ) arg0 fullShare x0 ∗ owns (c : Thread nD τ) arg1 fullShare x1 ∗ owns (c : Thread nD τ) arg2 fullShare x2
        ∗ owns (c : Thread nD τ) arg3 fullShare x3 ∗ owns (c : Thread nD τ) arg4 fullShare x4 ∗ owns (c : Thread nD τ) arg5 fullShare x5
        ∗ owns (c : Thread nD τ) arg6 fullShare x6 ∗ owns (c : Thread nD τ) arg7 fullShare d
        ∗ (iprop(owns (c : Thread nD τ) arg0 fullShare x0 ∗ owns (c : Thread nD τ) arg1 fullShare x1 ∗ owns (c : Thread nD τ) arg2 fullShare x2
            ∗ owns (c : Thread nD τ) arg3 fullShare x3 ∗ owns (c : Thread nD τ) arg4 fullShare x4 ∗ owns (c : Thread nD τ) arg5 fullShare x5
            ∗ owns (c : Thread nD τ) arg6 fullShare x6 ∗ owns (c : Thread nD τ) arg7 fullShare (out5_7 x0 x1 x2 x3 x4 x5 x6)) -∗ K ⟨⟩))
      ⊢ wp frame (wpE (defs₀ (F := F)) Variants.none c none) E
          (cc5__mlp_kernel i arg0 harg0 arg1 harg1 arg2 harg2 arg3 harg3 arg4 harg4 arg5 harg5 arg6 harg6 arg7 harg7) K := by
  simp only [cc5__mlp_kernel_eq_skeleton]; unfold cc5__mlp_kernel_skel owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, -, H7⟩, Hk⟩
  subst hf0 hf1 hf2 hf3 hf4 hf5 hf6
  sl_exec
  sl_step
  iapply Hk
  isplitl [H0]; · iexists f0; isplitr; ipureintro; rfl; iexact H0
  isplitl [H1]; · iexists f1; isplitr; ipureintro; rfl; iexact H1
  isplitl [H2]; · iexists f2; isplitr; ipureintro; rfl; iexact H2
  isplitl [H3]; · iexists f3; isplitr; ipureintro; rfl; iexact H3
  isplitl [H4]; · iexists f4; isplitr; ipureintro; rfl; iexact H4
  isplitl [H5]; · iexists f5; isplitr; ipureintro; rfl; iexact H5
  isplitl [H6]; · iexists f6; isplitr; ipureintro; rfl; iexact H6
  iexists _; isplitr
  swap; · iexact H7
  ipureintro
  exact View.read_writes_eq_canon _ _ _ (cover5_7 _)

theorem A_eq5 (c : Dev nD) (w : Fin cfg5.W) : (dat5 V c).A w = V c (Pipeline.arrRef spec5 w) := rfl

theorem before5_0 (c : Dev nD) (t : Fin cfg5.N) (d) : (dat5 V c).before 0 t d = iblk5 V c 0 t :=
  Dat.before_fetched _ 0 t (fetch5_0 t) d
theorem before5_1 (c : Dev nD) (t : Fin cfg5.N) (d) : (dat5 V c).before 1 t d = iblk5 V c 1 t :=
  Dat.before_fetched _ 1 t (fetch5_1 t) d
theorem before5_2 (c : Dev nD) (t : Fin cfg5.N) (d) : (dat5 V c).before 2 t d = iblk5 V c 2 t :=
  Dat.before_fetched _ 2 t (fetch5_2 t) d
theorem before5_3 (c : Dev nD) (t : Fin cfg5.N) (d) : (dat5 V c).before 3 t d = iblk5 V c 3 t :=
  Dat.before_fetched _ 3 t (fetch5_3 t) d
theorem before5_4 (c : Dev nD) (t : Fin cfg5.N) (d) : (dat5 V c).before 4 t d = iblk5 V c 4 t :=
  Dat.before_fetched _ 4 t (fetch5_4 t) d
theorem before5_5 (c : Dev nD) (t : Fin cfg5.N) (d) : (dat5 V c).before 5 t d = iblk5 V c 5 t :=
  Dat.before_fetched _ 5 t (fetch5_5 t) d
theorem before5_6 (c : Dev nD) (t : Fin cfg5.N) (d) : (dat5 V c).before 6 t d = iblk5 V c 6 t :=
  Dat.before_fetched _ 6 t (fetch5_6 t) d

/-- The body's triple at any point, under any frame. -/
theorem sound_body5 (c : Dev nD) (t : Fin cfg5.N) (P Q : sProp 𝕄) :
    iprop(P ∗ Q
      ∗ (∃ d, owns (c : Thread nD τ) (st5_0 t) fullShare ((dat5 V c).before 0 t d))
      ∗ (∃ d, owns (c : Thread nD τ) (st5_1 t) fullShare ((dat5 V c).before 1 t d))
      ∗ (∃ d, owns (c : Thread nD τ) (st5_2 t) fullShare ((dat5 V c).before 2 t d))
      ∗ (∃ d, owns (c : Thread nD τ) (st5_3 t) fullShare ((dat5 V c).before 3 t d))
      ∗ (∃ d, owns (c : Thread nD τ) (st5_4 t) fullShare ((dat5 V c).before 4 t d))
      ∗ (∃ d, owns (c : Thread nD τ) (st5_5 t) fullShare ((dat5 V c).before 5 t d))
      ∗ (∃ d, owns (c : Thread nD τ) (st5_6 t) fullShare ((dat5 V c).before 6 t d))
      ∗ (∃ d, owns (c : Thread nD τ) (st5_7 t) fullShare ((dat5 V c).before 7 t d)))
      ⊢ wp frame (wpE (defs₀ (F := F)) Variants.none c none) Set.univ (bodyAt5 t) (fun _ => iprop(P ∗ Q
        ∗ owns (c : Thread nD τ) (st5_0 t) fullShare (iblk5 V c 0 t)
        ∗ owns (c : Thread nD τ) (st5_1 t) fullShare (iblk5 V c 1 t)
        ∗ owns (c : Thread nD τ) (st5_2 t) fullShare (iblk5 V c 2 t)
        ∗ owns (c : Thread nD τ) (st5_3 t) fullShare (iblk5 V c 3 t)
        ∗ owns (c : Thread nD τ) (st5_4 t) fullShare (iblk5 V c 4 t)
        ∗ owns (c : Thread nD τ) (st5_5 t) fullShare (iblk5 V c 5 t)
        ∗ owns (c : Thread nD τ) (st5_6 t) fullShare (iblk5 V c 6 t)
        ∗ owns (c : Thread nD τ) (st5_7 t) fullShare (out5_7 (iblk5 V c 0 t) (iblk5 V c 1 t) (iblk5 V c 2 t) (iblk5 V c 3 t) (iblk5 V c 4 t) (iblk5 V c 5 t) (iblk5 V c 6 t)))) := by
  unfold bodyAt5
  simp only [before5_0, before5_1, before5_2, before5_3, before5_4, before5_5, before5_6]
  iintro ⟨HP, HQ, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel5 c Set.univ _ _ _ _ _ _ _ _ _ _ _ _ _ _ _ _ _
    (iblk5 V c 0 t) (iblk5 V c 1 t) (iblk5 V c 2 t) (iblk5 V c 3 t) (iblk5 V c 4 t) (iblk5 V c 5 t) (iblk5 V c 6 t) _ _)
  iframe H0 H1 H2 H3 H4 H5 H6 H7
  iintro H
  iframe

theorem body_obligation5 (c : Dev nD) : BodyObligation (dat5 (F := F) V c) (defs₀ (F := F)) Variants.none () Set.univ := fun t => by
  rw [bigSep_W5, bigSep_W5]
  exact sound_body5 V c t _ _

end Cert.KernelIdeal.Hand

end
-- ==== Proof.KI.Run.lean ====
import proofs.«430219_j41016937677162_3_alg».proof.Proof.KI.Dats
import proofs.«430219_j41016937677162_3_alg».proof.Proof.KI.RLin
import proofs.«430219_j41016937677162_3_alg».proof.Proof.KI.R4
import proofs.«430219_j41016937677162_3_alg».proof.Proof.KI.R5
import proofs.«430219_j41016937677162_3_alg».proof.Proof.Gen.KernelIdeal.Regions

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

abbrev W0 : Dev nD → Valuation τ sig (Elt F) := fun c b => (s₀ m ρ).mem ((c : Dev nD), b)

abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b
def W2 (c : Dev nD) : Valuation τ sig (Elt F) :=
  Pipeline.withArrays spec0 c (W1 m ρ c) fun w => (dat0 (V1 m ρ) c).arrAt w cfg0.N
abbrev V2 : (c : Dev nD) → (b : Ref sig .tc) → Buf (Elt F) ((c : Thread nD τ).loc b) := fun c b => W2 m ρ c b

abbrev W3 : Dev nD → Valuation τ sig (Elt F) := fun c => StableHlo.after hostOps1 (W2 m ρ c)
abbrev V3 : (c : Dev nD) → (b : Ref sig .tc) → Buf (Elt F) ((c : Thread nD τ).loc b) := fun c b => W3 m ρ c b
def W4 (c : Dev nD) : Valuation τ sig (Elt F) :=
  Pipeline.withArrays spec1 c (W3 m ρ c) fun w => (dat1 (V3 m ρ) c).arrAt w cfg1.N
abbrev V4 : (c : Dev nD) → (b : Ref sig .tc) → Buf (Elt F) ((c : Thread nD τ).loc b) := fun c b => W4 m ρ c b

abbrev W5 : Dev nD → Valuation τ sig (Elt F) := fun c => StableHlo.after hostOps2 (W4 m ρ c)
abbrev V5 : (c : Dev nD) → (b : Ref sig .tc) → Buf (Elt F) ((c : Thread nD τ).loc b) := fun c b => W5 m ρ c b
def W6 (c : Dev nD) : Valuation τ sig (Elt F) :=
  Pipeline.withArrays spec2 c (W5 m ρ c) fun w => (dat2 (V5 m ρ) c).arrAt w cfg2.N
abbrev V6 : (c : Dev nD) → (b : Ref sig .tc) → Buf (Elt F) ((c : Thread nD τ).loc b) := fun c b => W6 m ρ c b

abbrev W7 : Dev nD → Valuation τ sig (Elt F) := fun c => StableHlo.after hostOps3 (W6 m ρ c)
abbrev V7 : (c : Dev nD) → (b : Ref sig .tc) → Buf (Elt F) ((c : Thread nD τ).loc b) := fun c b => W7 m ρ c b
def W8 (c : Dev nD) : Valuation τ sig (Elt F) :=
  Pipeline.withArrays spec3 c (W7 m ρ c) fun w => (dat3 (V7 m ρ) c).arrAt w cfg3.N
abbrev V8 : (c : Dev nD) → (b : Ref sig .tc) → Buf (Elt F) ((c : Thread nD τ).loc b) := fun c b => W8 m ρ c b

abbrev W9 : Dev nD → Valuation τ sig (Elt F) := fun c => StableHlo.after hostOps4 (W8 m ρ c)
abbrev V9 : (c : Dev nD) → (b : Ref sig .tc) → Buf (Elt F) ((c : Thread nD τ).loc b) := fun c b => W9 m ρ c b
def W10 (c : Dev nD) : Valuation τ sig (Elt F) :=
  Pipeline.withArrays spec4 c (W9 m ρ c) fun w => (dat4 (V9 m ρ) c).arrAt w cfg4.N
abbrev V10 : (c : Dev nD) → (b : Ref sig .tc) → Buf (Elt F) ((c : Thread nD τ).loc b) := fun c b => W10 m ρ c b

abbrev W11 : Dev nD → Valuation τ sig (Elt F) := fun c => StableHlo.after hostOps5 (W10 m ρ c)
abbrev V11 : (c : Dev nD) → (b : Ref sig .tc) → Buf (Elt F) ((c : Thread nD τ).loc b) := fun c b => W11 m ρ c b
def W12 (c : Dev nD) : Valuation τ sig (Elt F) :=
  Pipeline.withArrays spec5 c (W11 m ρ c) fun w => (dat5 (V11 m ρ) c).arrAt w cfg5.N
abbrev V12 : (c : Dev nD) → (b : Ref sig .tc) → Buf (Elt F) ((c : Thread nD τ).loc b) := fun c b => W12 m ρ c b

abbrev adm : (p : Fin 6) → (pcfgs (F := F) p).Adm := fun p => (cfgs p).toPCfg_adm
def pdats : (p : Fin 6) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V3 m ρ) c
  | ⟨2, _⟩ => fun c => dat2 (V5 m ρ) c
  | ⟨3, _⟩ => fun c => dat3 (V7 m ρ) c
  | ⟨4, _⟩ => fun c => dat4 (V9 m ρ) c
  | ⟨5, _⟩ => fun c => dat5 (V11 m ρ) c
abbrev 𝒱₀ : Variants := Variants.none
abbrev L : GSem nD τ sig → Finset Unit := fun _ => ∅
abbrev lv : GSem nD τ sig → Unit → ℕ := fun _ _ => 0
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

theorem prefEmp : ∀ (p : Fin 6) (c : Dev nD),
    (BI.emp : sProp 𝕄) ⊢ Pipeline.prefHeld (pcfgs (F := F) p).pre c (fun _ => fullShare) (adm p).1
  | ⟨0, _⟩, _ | ⟨1, _⟩, _ | ⟨2, _⟩, _ | ⟨3, _⟩, _ | ⟨4, _⟩, _ | ⟨5, _⟩, _ => by
    unfold Pipeline.prefHeld; rw [show (Finset.univ : Finset (Fin 0)) = ∅ from rfl, BI.bigSep_empty]

theorem pd_share : ∀ (p : Fin 6) (c : Dev nD) w, (pdats m ρ p c).share w = fullShare
  | ⟨0, _⟩, _ | ⟨1, _⟩, _ | ⟨2, _⟩, _ | ⟨3, _⟩, _ | ⟨4, _⟩, _ | ⟨5, _⟩, _ => Dat.share_full _ fun _ => rfl

theorem pd_owed : ∀ (p : Fin 6) (c : Dev nD) t, (pdats m ρ p c).owed t = 0
  | ⟨0, _⟩, _ | ⟨1, _⟩, _ | ⟨2, _⟩, _ | ⟨3, _⟩, _ | ⟨4, _⟩, _ | ⟨5, _⟩, _ => fun _ => rfl

theorem owes_in : ∀ (p : Fin 6) (c : Dev nD),
    (iprop(∃ W, owes (c : Thread nD τ) (0 : CellTallies nD τ sig Unit) W) : sProp 𝕄) ⊢ (pdats m ρ p c).owesAt () 0
  | ⟨0, _⟩, _ | ⟨1, _⟩, _ | ⟨2, _⟩, _ | ⟨3, _⟩, _ | ⟨4, _⟩, _ | ⟨5, _⟩, _ => by
    unfold Pipeline.Dat.owesAt Pipeline.owesWithin
    iintro ⟨%W, HO⟩; iexists W; isplitr; · ipureintro; exact fun _ _ => Or.inl trivial
    iexact HO

theorem owes_out : ∀ (p : Fin 6) (c : Dev nD), (pdats m ρ p c).owesAt () (Fin.last (Pipeline.pin (pcfgs (F := F)) adm p).N)
    ⊢ (iprop(∃ W, owes (c : Thread nD τ) (0 : CellTallies nD τ sig Unit) W) : sProp 𝕄)
  | ⟨0, _⟩, _ | ⟨1, _⟩, _ | ⟨2, _⟩, _ | ⟨3, _⟩, _ | ⟨4, _⟩, _ | ⟨5, _⟩, _ => by
    unfold Pipeline.Dat.owesAt Pipeline.owesWithin
    iintro ⟨%W, -, HO⟩; iexists W; iexact HO

set_option backward.isDefEq.respectTransparency.types false in
def regOf (p : Fin 6) (lch : Pipeline.LaunchFacts (nD := nD) (τ := τ) cfgs p) (Wi Wo : Dev nD → Valuation τ sig (Elt F))
    (hbody : ∀ c, BodyObligation (pdats m ρ p c) (defs₀ (F := F)) 𝒱₀ () Set.univ)
    (hA : ∀ c w, (pdats m ρ p c).A w = Wi c (Proc.devRef .tc (Pipeline.arrRef (Pipeline.pin (pcfgs (F := F)) adm p).spec w)))
    (hWo : ∀ c, Wo c = Pipeline.withArrays (Pipeline.pin (pcfgs (F := F)) adm p).spec c (Wi c) fun w => (pdats m ρ p c).arrAt w (Pipeline.pin (pcfgs (F := F)) adm p).N)
    (hin : ∀ c, Pipeline.ΦA (Pipeline.pin (pcfgs (F := F)) adm p).spec c ⊢ (pdats m ρ p c).Φ 0)
    (hout : ∀ c, (pdats m ρ p c).Φ (Fin.last (Pipeline.pin (pcfgs (F := F)) adm p).N) ⊢ Pipeline.ΦA (Pipeline.pin (pcfgs (F := F)) adm p).spec c) :
    Pipeline.RegionSeg (pcfgs (F := F)) adm (pdats m ρ) () defs₀ 𝒱₀ L lv p where
  win := lch.win.to₀
  block_pos := lch.block_pos
  stage_whole := lch.stage_whole
  K := PEmpty
  osem k := k.elim
  ho := Pipeline.OwnSemFacts.none _
  hbody c := (hbody c).loose
  hwaits := Pipeline.hwaits_of_owed_zero _ _ _ _ L lv p (pd_owed m ρ p)
  pre c := iprop(StableHlo.held (c : Thread nD τ) (Pipeline.ucRefs τ sig) (Wi c) ∗ R c)
  post c := iprop(StableHlo.held (c : Thread nD τ) (Pipeline.ucRefs τ sig) (Wo c) ∗ R c)
  X c := iprop(∃ r, prngReg c r)
  Y c := iprop(∃ r, prngReg c r)
  Z c := Pipeline.unscopedRest (Ix := Unit) (Name := ℕ) (U := UR sig nD τ) (Lvl := ℕ) (Pipeline.pin (pcfgs (F := F)) adm p).spec c (fun b => Wi c b)
  hentry c := by
    rw [Pipeline.ownSems0_none]
    have hsplit := Pipeline.arrays_of_unscopedBufs (p := p) (pcfgs (F := F)) adm (pdats m ρ) lch.win lch.arr_whole c
      (pd_share m ρ p c) (fun b => Wi c b) (hA c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · iapply (prefEmp p c); iempintro
    isplitl [HO]; · iapply (owes_in m ρ p c); iexact HO
    isplitl [Hp]; · iexact Hp
    iexact Hrest
  hin c := by
    refine .trans ?_ (hin c)
    unfold Pipeline.ΦA
    iintro ⟨Hp, -, Hr⟩
    isplitl [Hr]; · iexact Hr
    iexact Hp
  hout c := by
    rw [Pipeline.ownSems0_none]
    refine (hout c).trans ?_
    unfold Pipeline.ΦA
    iintro ⟨Hr, Hp⟩
    isplitl [Hp]; · iexact Hp
    isplitr; · iempintro
    iexact Hr
  hexit c := by
    have hjoin := Pipeline.unscopedBufs_of_arrays (p := p) (pcfgs (F := F)) adm (Ix := Unit) (Name := ℕ) (U := UR sig nD τ) (Lvl := ℕ)
      lch.win lch.arr_whole c (pdats m ρ) (pd_share m ρ p c) (fun b => Wi c b) (fun b => Wo c b) ((pdats m ρ p c).arrAt · (Pipeline.pin (pcfgs (F := F)) adm p).N)
      (fun w => by
        rw [hWo c]
        exact (Pipeline.withArrays_arr (Pipeline.pin (pcfgs (F := F)) adm p).spec lch.win.arr_inj c (Wi c) (fun w => (pdats m ρ p c).arrAt w (Pipeline.pin (pcfgs (F := F)) adm p).N) w).symm)
      (fun b hb => by
        rw [hWo c]
        exact Pipeline.withArrays_of_ne _ c _ _ b fun w e => hb (Finset.mem_image.mpr ⟨w, Finset.mem_univ _, e⟩))
    rw [Pipeline.unscopedBufs_held] at hjoin
    iintro ⟨Ha, HO, HY, Hrest⟩
    imodintro
    isplitl [Ha Hrest]
    · iapply hjoin; isplitl [Ha] <;> iassumption
    isplitl [HY]; · iexact HY
    iapply (owes_out m ρ p c); iexact HO

abbrev Tₙ (c : Dev nD) : sProp 𝕄 := iprop(StableHlo.held (c : Thread nD τ) (Pipeline.ucRefs τ sig) (W12 m ρ c) ∗ ∃ r, prngReg c r)

set_option backward.isDefEq.respectTransparency.types false in
def reg0 := regOf m ρ 0 launch0 (W1 m ρ) (W2 m ρ) (body_obligation0 (V1 m ρ)) (fun _ _ => rfl) (fun _ => rfl) (fun _ => .rfl) (fun _ => .rfl)
set_option backward.isDefEq.respectTransparency.types false in
def reg1 := regOf m ρ 1 launch1 (W3 m ρ) (W4 m ρ) (body_obligation1 (V3 m ρ)) (fun _ _ => rfl) (fun _ => rfl) (fun _ => .rfl) (fun _ => .rfl)
set_option backward.isDefEq.respectTransparency.types false in
def reg2 := regOf m ρ 2 launch2 (W5 m ρ) (W6 m ρ) (body_obligation2 (V5 m ρ)) (fun _ _ => rfl) (fun _ => rfl) (fun _ => .rfl) (fun _ => .rfl)
set_option backward.isDefEq.respectTransparency.types false in
def reg3 := regOf m ρ 3 launch3 (W7 m ρ) (W8 m ρ) (body_obligation3 (V7 m ρ)) (fun _ _ => rfl) (fun _ => rfl) (fun _ => .rfl) (fun _ => .rfl)
set_option backward.isDefEq.respectTransparency.types false in
def reg4 := regOf m ρ 4 launch4 (W9 m ρ) (W10 m ρ) (body_obligation4 (V9 m ρ)) (fun c w => A_eq4 (V9 m ρ) c w) (fun _ => rfl) (hin4 (V9 m ρ)) (hout4 (V9 m ρ))
set_option backward.isDefEq.respectTransparency.types false in
def reg5 := regOf m ρ 5 launch5 (W11 m ρ) (W12 m ρ) (body_obligation5 (V11 m ρ)) (fun _ _ => rfl) (fun _ => rfl) (fun _ => .rfl) (fun _ => .rfl)

abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ),
    .host (hseg hostOps2 hostOps2_sub hostOps2_fresh (W4 m ρ)),
    .region (reg2 m ρ),
    .host (hseg hostOps3 hostOps3_sub hostOps3_fresh (W6 m ρ)),
    .region (reg3 m ρ),
    .host (hseg hostOps4 hostOps4_sub hostOps4_fresh (W8 m ρ)),
    .region (reg4 m ρ),
    .host (hseg hostOps5 hostOps5_sub hostOps5_fresh (W10 m ρ)),
    .region (reg5 m ρ) ]

theorem main_run (c : Dev nD) : main (F := F) c = Pipeline.Seg.run (segs m ρ) := by
  rewrite [main_chain c, Pipeline.Seg.run_eq_chain,
    show (segs m ρ).map Pipeline.Seg.prog = [
      StableHlo.seq hostOps0,
      Prog.lift (.customCall (Pipeline.entry 0) ()),
      StableHlo.seq hostOps1,
      Prog.lift (.customCall (Pipeline.entry 1) ()),
      StableHlo.seq hostOps2,
      Prog.lift (.customCall (Pipeline.entry 2) ()),
      StableHlo.seq hostOps3,
      Prog.lift (.customCall (Pipeline.entry 3) ()),
      StableHlo.seq hostOps4,
      Prog.lift (.customCall (Pipeline.entry 4) ()),
      StableHlo.seq hostOps5,
      Prog.lift (.customCall (Pipeline.entry 5) ()) ] from rfl]
  rfl

set_option backward.isDefEq.respectTransparency.types false in
theorem run_all : θ_run defs (onTc (τ := τ) (main (F := F))) ⟨m, fun _ => 0, ρ⟩ (fun r => ∀ c : Dev nD,
      ∀ b ∈ Pipeline.ucRefs τ sig, r.2.mem (((c : Thread nD τ)).1, b) = W12 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => sep_assoc.2⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W12 m ρ c b)
    (hfin := fun c s' => by
      iintro ⟨⟨Hh, -⟩, HSI⟩
      unfold StableHlo.held
      imodintro
      iapply (pointsTo_read_all (Pipeline.ucRefs τ sig) (fun b => (((c : Thread nD τ)).1, b)) (W12 m ρ c) s')
      isplitl [Hh] <;> iassumption)
    (hQ := fun s h => h)

/-- A reference no host stretch writes and no region has an output window on. -/
def Quiet (b : Ref sig .tc) : Prop :=
  ¬ (Proc.devRef .tc b : DevRef τ sig).isScoped
  ∧ b ∉ hostOps0_W ++ hostOps1_W ++ hostOps2_W ++ hostOps3_W ++ hostOps4_W ++ hostOps5_W
  ∧ (∀ w, Pipeline.arrRef spec0 w = b → (cfg0.win w).isOut = false) ∧ (∀ w, Pipeline.arrRef spec1 w = b → (cfg1.win w).isOut = false)
  ∧ (∀ w, Pipeline.arrRef spec2 w = b → (cfg2.win w).isOut = false) ∧ (∀ w, Pipeline.arrRef spec3 w = b → (cfg3.win w).isOut = false)
  ∧ (∀ w, Pipeline.arrRef spec4 w = b → (cfg4.win w).isOut = false) ∧ (∀ w, Pipeline.arrRef spec5 w = b → (cfg5.win w).isOut = false)

instance (b : Ref sig .tc) : Decidable (Quiet b) := by unfold Quiet; infer_instance

/-- A region's exit contents agree with its entry contents at a reference all of whose windows are inputs. -/
theorem keep_of_in {cfg : Cfg sig Λ₀} {c : Dev nD} (dat : Dat τ (Elt F) Unit ℕ (UR sig nD τ) ℕ cfg c)
    (hinj : Function.Injective (Pipeline.arrRef cfg.spec)) (Wi : Valuation τ sig (Elt F))
    (hA : ∀ w, dat.A w = Wi (Proc.devRef .tc (Pipeline.arrRef cfg.spec w))) (b : Ref sig .tc)
    (hb : ∀ w, Pipeline.arrRef cfg.spec w = b → (cfg.win w).isOut = false) :
    Pipeline.withArrays cfg.spec c Wi (fun w => dat.arrAt w cfg.N) (Proc.devRef .tc b) = Wi (Proc.devRef .tc b) := by
  by_cases h : ∃ w, Pipeline.arrRef cfg.spec w = b
  · obtain ⟨w, rfl⟩ := h
    rw [Pipeline.withArrays_arr _ hinj, dat.arrAt_in w (hb w rfl), hA]
  · exact Pipeline.withArrays_of_ne _ c _ _ b fun w e => h ⟨w, e⟩

/-- A quiet reference ends as launched: every segment leaves it alone. -/
theorem W12_quiet (c : Dev nD) (b : Ref sig .tc) (h : Quiet b) : W12 m ρ c (Proc.devRef .tc b) = m ((c : Thread nD τ).loc b) := by
  obtain ⟨-, hw, h0, h1, h2, h3, h4, h5⟩ := h
  simp only [List.mem_append, not_or] at hw
  obtain ⟨⟨⟨⟨⟨w0, w1⟩, w2⟩, w3⟩, w4⟩, w5⟩ := hw
  exact (keep_of_in (dat5 (V11 m ρ) c) launch5.win.arr_inj _ (fun _ => rfl) b h5).trans <| (StableHlo.after_of_writes_sub hostOps5 _ hostOps5_writes w5).trans <|
    (keep_of_in (dat4 (V9 m ρ) c) launch4.win.arr_inj _ (fun _ => rfl) b h4).trans <| (StableHlo.after_of_writes_sub hostOps4 _ hostOps4_writes w4).trans <|
    (keep_of_in (dat3 (V7 m ρ) c) launch3.win.arr_inj _ (fun _ => rfl) b h3).trans <| (StableHlo.after_of_writes_sub hostOps3 _ hostOps3_writes w3).trans <|
    (keep_of_in (dat2 (V5 m ρ) c) launch2.win.arr_inj _ (fun _ => rfl) b h2).trans <| (StableHlo.after_of_writes_sub hostOps2 _ hostOps2_writes w2).trans <|
    (keep_of_in (dat1 (V3 m ρ) c) launch1.win.arr_inj _ (fun _ => rfl) b h1).trans <| (StableHlo.after_of_writes_sub hostOps1 _ hostOps1_writes w1).trans <|
    (keep_of_in (dat0 (V1 m ρ) c) launch0.win.arr_inj _ (fun _ => rfl) b h0).trans <| StableHlo.after_of_writes_sub hostOps0 _ hostOps0_writes w0

/-- What a final state holds at a quiet reference, from its agreement with the last boundary's contents. -/
theorem mem_quiet {c : Dev nD} {s : MemSt nD τ sig (Elt F)}
    (h : ∀ b ∈ Pipeline.ucRefs τ sig, s.mem (((c : Thread nD τ)).1, b) = W12 m ρ c b) (b : Ref sig .tc) (hq : Quiet b) :
    s.mem ((c : Thread nD τ).loc b) = m ((c : Thread nD τ).loc b) :=
  (h _ (mem_uc b hq.1)).trans (W12_quiet m ρ c b hq)

end Cert.KernelIdeal.Hand

end
-- ==== Proof.Spec.lean ====
import Mathlib.Data.EReal.Basic
import Mathlib.Algebra.BigOperators.Group.Finset.Basic
import Idealize.ShloMosaic.PureOps.Ideal

noncomputable section

namespace Cert.Spec

open Idealize.ShloMosaic

def mm {n k m : Nat} (A : Fin n → Fin k → EReal) (B : Fin k → Fin m → EReal) : Fin n → Fin m → EReal :=
  fun p q => ∑ j : Fin k, A p j * B j q

def addRow {n m : Nat} (A : Fin n → Fin m → EReal) (b : Fin m → EReal) : Fin n → Fin m → EReal :=
  fun p q => A p q + b q

def relu {n m : Nat} (A : Fin n → Fin m → EReal) : Fin n → Fin m → EReal :=
  fun p q => max (A p q) 0

def first_folded {n : Nat} (x : Fin n → Fin 146 → EReal) (E : Fin 146 → Fin 146 → EReal) (e : Fin 146 → EReal)
    (W : Fin 146 → Fin 146 → EReal) : Fin n → Fin 146 → EReal :=
  addRow (mm x (mm E W)) (fun q => ∑ j : Fin 146, e j * W j q)

def first_plain {n : Nat} (x : Fin n → Fin 146 → EReal) (E : Fin 146 → Fin 146 → EReal) (e : Fin 146 → EReal)
    (W : Fin 146 → Fin 146 → EReal) : Fin n → Fin 146 → EReal :=
  mm (addRow (mm x E) e) W

def layer {n : Nat} (A : Fin n → Fin 146 → EReal) (b : Fin 146 → EReal) (W : Fin 146 → Fin 146 → EReal) :
    Fin n → Fin 146 → EReal :=
  mm (relu (addRow A b)) W

def groupSum {n C : Nat} (grp : Fin n → BitVec 32) (h : Fin n → Fin C → EReal) : Fin 256 → Fin C → EReal :=
  fun g q => ∑ k : Fin n, if (grp k).toInt = (g.val : ℤ) then h k q else 0

def groupCount {n : Nat} (grp : Fin n → BitVec 32) : Fin 256 → EReal :=
  fun g => ∑ k : Fin n, if (grp k).toInt = (g.val : ℤ) then (1 : EReal) else 0

def groupMean {n C : Nat} (grp : Fin n → BitVec 32) (h : Fin n → Fin C → EReal) : Fin 256 → Fin C → EReal :=
  fun g q => Ideal.div (groupSum grp h g q) (max (groupCount grp g) 1)

def readout (hg : Fin 256 → Fin 146 → EReal) (W1 : Fin 146 → Fin 73 → EReal) (b1 : Fin 73 → EReal)
    (W2 : Fin 73 → Fin 36 → EReal) (b2 : Fin 36 → EReal) (W3 : Fin 36 → Fin 10 → EReal) (b3 : Fin 10 → EReal) :
    Fin 256 → Fin 10 → EReal :=
  addRow (mm (relu (addRow (mm (relu (addRow (mm hg W1) b1)) W2) b2)) W3) b3

end Cert.Spec

end
-- ==== Proof.KI.ValLin.lean ====
import proofs.«430219_j41016937677162_3_alg».proof.Proof.KI.Dats
import proofs.«430219_j41016937677162_3_alg».proof.Proof.Spec
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Val

open Cert.KernelIdeal Cert.KernelIdeal.Gen Cert.KernelIdeal.Hand Cert.Spec
open Idealize.ShloMosaic Idealize.ShloMosaic.TcCoe Idealize.ShloMosaic.ValueIdx
open Idealize.SL.Sem
open Idealize.ShloMosaic.Pipeline (Dat)

/-- An entry of the product of a block of rows with the matrix is the sum over the one contracted axis. -/
theorem matmul_blk_apply {φ₁ φ₂ : FTy} (l : FVec Ideal S4000x146 φ₁) (m : FVec Ideal S146x146 φ₂) (r : Fin 4000) (q : Fin 146) :
    matmul dot_S4000x146_S146x146_S4000x146_1_0_0_1_n_n none l m (constant (F := Ideal) S4000x146 .f32 0x00000000#32) (ix2 r q)
      = ∑ k : Fin 146, l (ix2 r k) * m (ix2 k q) := by
  simp only [matmul]
  rw [Ideal.matmul_constant_zero_apply, ← Equiv.sum_comp (ValueIdx.contrEquiv1 dot_S4000x146_S146x146_S4000x146_1_0_0_1_n_n 146 rfl rfl).symm]
  refine Finset.sum_congr rfl fun k _ => ?_
  have hk := ValueIdx.contrEquiv1_symm_val dot_S4000x146_S146x146_S4000x146_1_0_0_1_n_n 146 rfl rfl k
  generalize (ValueIdx.contrEquiv1 dot_S4000x146_S146x146_S4000x146_1_0_0_1_n_n 146 rfl rfl).symm k = κ at hk ⊢
  have el : dot_S4000x146_S146x146_S4000x146_1_0_0_1_n_n.lhsIdx (ix2 r q) κ = ix2 r k := Shape.idx_ext₂
    (by unfold DotDims.lhsIdx; rw [dif_neg (by decide), dif_pos (by decide)]; rfl) ((DotDims.lhsIdx_val_of_single _ rfl _ κ).trans hk)
  have er : dot_S4000x146_S146x146_S4000x146_1_0_0_1_n_n.rhsIdx (ix2 r q) κ = ix2 k q := Shape.idx_ext₂
    ((DotDims.rhsIdx_val_of_single _ rfl _ κ).trans hk) (by unfold DotDims.rhsIdx; rw [dif_neg (by decide), dif_pos (by decide)]; rfl)
  rw [el, er]

theorem bias_blk_apply (b : Vec Ideal S1x146 .f32) (r : Fin 4000) (q : Fin 146) :
    broadcastTo S4000x146 b broadcasts_S1x146_S4000x146 (ix2 r q) = b (ix2 (0 : Fin 1) q) :=
  broadcastTo_1b_ab_apply b broadcasts_S1x146_S4000x146 r q

theorem hz2 : (![0, 0] : Fin 2 → Nat) = fun _ => 0 := funext fun a => match a with | ⟨0, _⟩ => rfl | ⟨1, _⟩ => rfl

/-- A row times the matrix, plus the bias row. -/
def rowLin (row : Fin 146 → EReal) (W : S146x146.Idx → EReal) (b : S1x146.Idx → EReal) (q : Fin 146) : EReal :=
  (∑ k : Fin 146, row k * W (ix2 k q)) + b (ix2 (0 : Fin 1) q)

/-- A row plus the bias row, clamped at zero, times the matrix. -/
def rowLayer (row : Fin 146 → EReal) (b : S1x146.Idx → EReal) (W : S146x146.Idx → EReal) (q : Fin 146) : EReal :=
  ∑ k : Fin 146, max (row k + b (ix2 (0 : Fin 1) k)) 0 * W (ix2 k q)

/-- A function of a row and a column number, as an array. -/
def rowsArr (Ψ : Fin 100000 → Fin 146 → EReal) : S100000x146.Idx → EReal := fun i => Ψ (i 0) (i 1)

theorem out0_3_apply (x0 : Vec Ideal S4000x146 .f32) (x1 : Vec Ideal S146x146 .f32) (x2 : Vec Ideal S1x146 .f32) (r : Fin 4000) (q : Fin 146) :
    out0_3 (F := Ideal) x0 x1 x2 (ix2 r q) = rowLin (fun k => x0 (ix2 r k)) x1 x2 q := by
  unfold out0_3
  rw [View.canon_unit_zero hz2]
  simp only [View.ld_unit_zero (S := S4000x146) hz2, View.ld_unit_zero (S := S146x146) hz2, View.ld_unit_zero (S := S1x146) hz2]
  unfold k0_pay1
  simp only [shapeCast_self]
  refine (addf_apply _ _ _).trans ?_
  refine congrArg₂ (fun a b : EReal => a + b) ((matmul_blk_apply _ _ r q).trans ?_) (bias_blk_apply x2 r q)
  rfl

/-- Regions 1, 2 and 3 store one and the same term. -/
theorem out1_3_apply (x0 : Vec Ideal S4000x146 .f32) (x1 : Vec Ideal S1x146 .f32) (x2 : Vec Ideal S146x146 .f32) (r : Fin 4000) (q : Fin 146) :
    out1_3 (F := Ideal) x0 x1 x2 (ix2 r q) = rowLayer (fun k => x0 (ix2 r k)) x1 x2 q := by
  unfold out1_3
  rw [View.canon_unit_zero hz2]
  simp only [View.ld_unit_zero (S := S4000x146) hz2, View.ld_unit_zero (S := S146x146) hz2, View.ld_unit_zero (S := S1x146) hz2]
  unfold k1_pay1
  simp only [shapeCast_self]
  refine (matmul_blk_apply _ _ r q).trans ?_
  refine Finset.sum_congr rfl fun k _ => ?_
  show max (x0 (ix2 r k) + broadcastTo S4000x146 x1 broadcasts_S1x146_S4000x146 (ix2 r k)) (Ideal.ofBits .f32 0x00000000#32) * x2 (ix2 k q) = _
  rw [bias_blk_apply, Ideal.ofBits_zero_f32]

/-- Rows `4000 n` to `4000 n + 3999` of an array made row by row are made from the same rows of the input alone. -/
theorem blk_rows {T1 T2 : Shape}
    {B : Vec Ideal S4000x146 .f32 → Vec Ideal T1 .f32 → Vec Ideal T2 .f32 → Vec Ideal S4000x146 .f32}
    {Φ : (Fin 146 → EReal) → (T1.Idx → EReal) → (T2.Idx → EReal) → Fin 146 → EReal}
    (hB : ∀ x0 x1 x2 r q, B x0 x1 x2 (ix2 r q) = Φ (fun k => x0 (ix2 r k)) x1 x2 q)
    (A0 : S100000x146.Idx → EReal) (A1 : T1.Idx → EReal) (A2 : T2.Idx → EReal)
    {e0 e3 : S4000x146.Idx → S100000x146.Idx} {e1 : T1.Idx → T1.Idx} {e2 : T2.Idx → T2.Idx}
    {ι0 ι3 : Fin 2 → ℕ} {ι1 : Fin T1.rank → ℕ} {ι2 : Fin T2.rank → ℕ} {n : ℕ}
    (h0 : ∀ y a, (e0 y a : ℕ) = ι0 a * S4000x146.size a + y a)
    (h1 : ∀ y a, (e1 y a : ℕ) = ι1 a * T1.size a + y a)
    (h2 : ∀ y a, (e2 y a : ℕ) = ι2 a * T2.size a + y a)
    (h3 : ∀ y a, (e3 y a : ℕ) = ι3 a * S4000x146.size a + y a)
    (hι : ι0 = ![n, 0] ∧ (∀ a, ι1 a = 0) ∧ (∀ a, ι2 a = 0) ∧ ι3 = ![n, 0])
    {R : (S100000x146.Idx → EReal) → S4000x146.Idx → EReal} (hR : ∀ G j, R G j = G (e3 j))
    {x0 : Vec Ideal S4000x146 .f32} {x1 : Vec Ideal T1 .f32} {x2 : Vec Ideal T2 .f32} {X : S4000x146.Idx → EReal}
    (hX : X = B x0 x1 x2)
    (hx0 : x0 = fun i => A0 (e0 i)) (hx1 : x1 = fun i => A1 (e1 i)) (hx2 : x2 = fun i => A2 (e2 i)) :
    X = R (rowsArr fun p q => Φ (fun k => A0 (ix2 p k)) A1 A2 q) := by
  obtain ⟨rfl, z1, z2, rfl⟩ := hι
  subst hX hx0 hx1 hx2
  funext j
  rw [hR]
  have E0 : (fun k => A0 (e0 (ix2 (j 0) k))) = fun k => A0 (ix2 (e3 j 0) k) := funext fun k => congrArg A0
    (Shape.idx_ext₂ ((h0 _ 0).trans (h3 j 0).symm) ((h0 _ 1).trans (by show 0 * 146 + k.val = k.val; omega)))
  have E1 : (fun i => A1 (e1 i)) = A1 := funext fun y => congrArg A1 (funext fun a => Fin.ext (by rw [h1, z1, Nat.zero_mul, Nat.zero_add]))
  have E2 : (fun i => A2 (e2 i)) = A2 := funext fun y => congrArg A2 (funext fun a => Fin.ext (by rw [h2, z2, Nat.zero_mul, Nat.zero_add]))
  have E3 : e3 j = ix2 (e3 j 0) (j 1) := Shape.idx_ext₂ rfl ((h3 j 1).trans (by show 0 * 146 + (j 1).val = (j 1).val; omega))
  refine (congrArg (B _ _ _) (eq_ix2 j)).trans ((hB _ _ _ (j 0) (j 1)).trans ?_)
  show Φ (fun k => A0 (e0 (ix2 (j 0) k))) (fun i => A1 (e1 i)) (fun i => A2 (e2 i)) (j 1) = _
  rw [E0, E1, E2]
  exact (congrArg (rowsArr fun p q => Φ (fun k => A0 (ix2 p k)) A1 A2 q) E3).symm

/-- Row `p` is row `p % 4000` of block `p / 4000`, so 25 blocks of 4000 rows cover 100000 rows. -/
theorem cover_rows {N : ℕ} (hN : N = 25) {f : Fin N → Bool} (hf : ∀ t, f t = true)
    {e : Fin N → S4000x146.Idx → S100000x146.Idx} {ι : Fin N → Fin 2 → ℕ}
    (he : ∀ t y a, (e t y a : ℕ) = ι t a * S4000x146.size a + y a) (hι : ∀ t, ι t = ![t.val, 0])
    {S : Fin N → Finset S100000x146.Idx} (hS : ∀ t y, e t y ∈ S t) (i : S100000x146.Idx) :
    ∃ t, f t = true ∧ i ∈ S t := by
  subst hN
  have h0 : (i 0).val < 100000 := (i 0).isLt
  suffices h : ∃ t y, e t y = i from let ⟨t, y, h⟩ := h; ⟨t, hf t, h ▸ hS t y⟩
  exact ⟨⟨(i 0).val / 4000, by omega⟩, ix2 ⟨(i 0).val % 4000, by omega⟩ (i 1), Shape.idx_ext₂
    (by rw [he, hι]; show (i 0).val / 4000 * 4000 + (i 0).val % 4000 = (i 0).val; omega)
    (by rw [he, hι]; show 0 * 146 + (i 1).val = (i 1).val; omega)⟩

variable (V : (c : Dev nD) → (b : Ref sig .tc) → Buf (Elt Ideal) ((c : Thread nD τ).loc b))

/-- All four regions split their arrays alike: rows and result into blocks of 4000 rows, the other two whole. -/
theorem idx : ∀ t : Fin cfg0.N, win0_0.index t = ![t.val, 0] ∧ (∀ a, win0_1.index t a = 0) ∧ (∀ a, win0_2.index t a = 0)
    ∧ win0_3.index t = ![t.val, 0] :=
  (by decide +kernel : ∀ t : Fin grid0.N, _)

theorem val0 (c : Dev nD) (p : Fin 100000) (q : Fin 146) :
    (dat0 (F := Ideal) V c).arrAt 3 cfg0.N (ix2 p q)
      = addRow (mm (fun p j => (V c (Pipeline.arrRef spec0 0) : S100000x146.Idx → EReal) (ix2 p j))
                   (fun j q => (V c (Pipeline.arrRef spec0 1) : S146x146.Idx → EReal) (ix2 j q)))
               (fun q => (V c (Pipeline.arrRef spec0 2) : S1x146.Idx → EReal) (ix2 (0 : Fin 1) q)) p q :=
  (congrFun ((dat0 (F := Ideal) V c).arrAt_eq_of_cover 3 _
    (fun t _ => blk_rows out0_3_apply _ _ _ (win0_0.rect_emb_val t) (win0_1.rect_emb_val t) (win0_2.rect_emb_val t)
      (win0_3.rect_emb_val t) (idx t) (by exact fun _ _ => rfl) (by dsimp only [Dat.flushed, dat0]; rfl) rfl rfl rfl)
    (cover_rows N_0 flush0_3 win0_3.rect_emb_val (fun t => (idx t).2.2.2) fun t => ((cfg0.win 3).blk t).view.emb_mem_set))
    (ix2 p q)).trans rfl

theorem val1 (c : Dev nD) (p : Fin 100000) (q : Fin 146) :
    (dat1 (F := Ideal) V c).arrAt 3 cfg1.N (ix2 p q)
      = layer (fun p j => (V c (Pipeline.arrRef spec1 0) : S100000x146.Idx → EReal) (ix2 p j))
              (fun q => (V c (Pipeline.arrRef spec1 1) : S1x146.Idx → EReal) (ix2 (0 : Fin 1) q))
              (fun j q => (V c (Pipeline.arrRef spec1 2) : S146x146.Idx → EReal) (ix2 j q)) p q :=
  (congrFun ((dat1 (F := Ideal) V c).arrAt_eq_of_cover 3 _
    (fun t _ => blk_rows out1_3_apply _ _ _ (win1_0.rect_emb_val t) (win1_1.rect_emb_val t) (win1_2.rect_emb_val t)
      (win1_3.rect_emb_val t) (idx t) (by exact fun _ _ => rfl) (by dsimp only [Dat.flushed, dat1]; rfl) rfl rfl rfl)
    (cover_rows N_1 flush1_3 win1_3.rect_emb_val (fun t => (idx t).2.2.2) fun t => ((cfg1.win 3).blk t).view.emb_mem_set))
    (ix2 p q)).trans rfl

theorem val2 (c : Dev nD) (p : Fin 100000) (q : Fin 146) :
    (dat2 (F := Ideal) V c).arrAt 3 cfg2.N (ix2 p q)
      = layer (fun p j => (V c (Pipeline.arrRef spec2 0) : S100000x146.Idx → EReal) (ix2 p j))
              (fun q => (V c (Pipeline.arrRef spec2 1) : S1x146.Idx → EReal) (ix2 (0 : Fin 1) q))
              (fun j q => (V c (Pipeline.arrRef spec2 2) : S146x146.Idx → EReal) (ix2 j q)) p q :=
  (congrFun ((dat2 (F := Ideal) V c).arrAt_eq_of_cover 3 _
    (fun t _ => blk_rows out1_3_apply _ _ _ (win2_0.rect_emb_val t) (win2_1.rect_emb_val t) (win2_2.rect_emb_val t)
      (win2_3.rect_emb_val t) (idx t) (by exact fun _ _ => rfl) (by dsimp only [Dat.flushed, dat2]; rfl) rfl rfl rfl)
    (cover_rows N_2 flush2_3 win2_3.rect_emb_val (fun t => (idx t).2.2.2) fun t => ((cfg2.win 3).blk t).view.emb_mem_set))
    (ix2 p q)).trans rfl

theorem val3 (c : Dev nD) (p : Fin 100000) (q : Fin 146) :
    (dat3 (F := Ideal) V c).arrAt 3 cfg3.N (ix2 p q)
      = layer (fun p j => (V c (Pipeline.arrRef spec3 0) : S100000x146.Idx → EReal) (ix2 p j))
              (fun q => (V c (Pipeline.arrRef spec3 1) : S1x146.Idx → EReal) (ix2 (0 : Fin 1) q))
              (fun j q => (V c (Pipeline.arrRef spec3 2) : S146x146.Idx → EReal) (ix2 j q)) p q :=
  (congrFun ((dat3 (F := Ideal) V c).arrAt_eq_of_cover 3 _
    (fun t _ => blk_rows out1_3_apply _ _ _ (win3_0.rect_emb_val t) (win3_1.rect_emb_val t) (win3_2.rect_emb_val t)
      (win3_3.rect_emb_val t) (idx t) (by exact fun _ _ => rfl) (by dsimp only [Dat.flushed, dat3]; rfl) rfl rfl rfl)
    (cover_rows N_3 flush3_3 win3_3.rect_emb_val (fun t => (idx t).2.2.2) fun t => ((cfg3.win 3).blk t).view.emb_mem_set))
    (ix2 p q)).trans rfl

end Cert.KernelIdeal.Val

end
-- ==== Proof.KI.ValMlp.lean ====
import proofs.«430219_j41016937677162_3_alg».proof.Proof.KI.Dats
import proofs.«430219_j41016937677162_3_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Val

open Cert.KernelIdeal Cert.KernelIdeal.Gen Cert.KernelIdeal.Hand Cert.Spec
open Idealize.ShloMosaic Idealize.ShloMosaic.TcCoe Idealize.ShloMosaic.ValueIdx
open Idealize.SL.Sem
open Idealize.ShloMosaic.Pipeline (Dat)

-- An M×K by K×N product into the zero accumulator is, at (g, c), the sum over the K inner positions.
theorem matmul_plain_apply {M K N : ℕ} {φ₁ φ₂ : FTy} (l : FVec Ideal ⟨2, ![M, K]⟩ φ₁) (m : FVec Ideal ⟨2, ![K, N]⟩ φ₂) (g : Fin M) (c : Fin N) :
    matmul (DotDims.plain M K N) none l m (constant (F := Ideal) ⟨2, ![M, N]⟩ .f32 0x00000000#32) (ix2 g c)
      = ∑ k : Fin K, l (ix2 g k) * m (ix2 k c) := by
  simp only [matmul]
  rw [Ideal.matmul_constant_zero_apply, ← Equiv.sum_comp (ValueIdx.contrEquiv1 (DotDims.plain M K N) K rfl rfl).symm]
  refine Finset.sum_congr rfl fun k _ => ?_
  have hk := ValueIdx.contrEquiv1_symm_val (DotDims.plain M K N) K rfl rfl k
  exact congrArg₂ (· * ·) (congrArg l (Shape.idx_ext₂ rfl hk)) (congrArg m (Shape.idx_ext₂ hk rfl))

-- One layer at an index: the product plus the bias row, cut off below at zero (at ideal values a change of format is the identity).
theorem dense_relu_apply {M K N : ℕ} (h : FVec Ideal ⟨2, ![M, K]⟩ .bf16) (w : FVec Ideal ⟨2, ![K, N]⟩ .bf16) (b : Vec Ideal ⟨2, ![1, N]⟩ .f32)
    (hb : (⟨2, ![1, N]⟩ : Shape).Broadcasts ⟨2, ![M, N]⟩) (g : Fin M) (c : Fin N) :
    truncf .bf16 (maximumf (addf (matmul (DotDims.plain M K N) none h w (constant (F := Ideal) ⟨2, ![M, N]⟩ .f32 0x00000000#32))
        (broadcastTo ⟨2, ![M, N]⟩ b hb)) (broadcast ⟨2, ![M, N]⟩ (FloatOps.ofBits (F := Ideal) .f32 0x00000000#32))) bitsLt_bf16_f32 (ix2 g c)
      = max ((∑ k : Fin K, h (ix2 g k) * w (ix2 k c)) + b (ix2 (0 : Fin 1) c)) 0 := by
  rw [truncf_apply, maximumf_apply, addf_apply, matmul_plain_apply h w g c, broadcastTo_1b_ab_apply b hb g c, broadcast_apply]
  exact congrArg (max _) Ideal.ofBits_zero_f32

theorem k5_pay1_apply (x0 : Vec Ideal S256x146 .f32) (w1 : Vec Ideal S146x73 .f32) (b1 : Vec Ideal S1x73 .f32) (w2 : Vec Ideal S73x36 .f32)
    (b2 : Vec Ideal S1x36 .f32) (w3 : Vec Ideal S36x10 .f32) (b3 : Vec Ideal S1x10 .f32) (g : Fin 256) (o : Fin 10) :
    k5_pay1 (F := Ideal) x0 w1 b1 w2 b2 w3 b3 (ix2 g o)
      = (∑ k3 : Fin 36, max ((∑ k2 : Fin 73, max ((∑ k1 : Fin 146, x0 (ix2 g k1) * w1 (ix2 k1 k2)) + b1 (ix2 (0 : Fin 1) k2)) 0 * w2 (ix2 k2 k3))
          + b2 (ix2 (0 : Fin 1) k3)) 0 * w3 (ix2 k3 o)) + b3 (ix2 (0 : Fin 1) o) := by
  unfold k5_pay1
  simp only [shapeCast_self]
  refine (addf_apply _ _ _).trans ?_
  refine congrArg₂ (fun a b : EReal => a + b) ?_ (broadcastTo_1b_ab_apply b3 broadcasts_S1x10_S256x10 g o)
  refine (matmul_plain_apply (K := 36) _ _ g o).trans (Finset.sum_congr rfl fun k3 _ => ?_)
  refine congrArg (fun a : EReal => a * w3 (ix2 k3 o)) ((dense_relu_apply (K := 73) _ _ b2 _ g k3).trans ?_)
  refine congrArg (fun s : EReal => max (s + b2 (ix2 (0 : Fin 1) k3)) 0) (Finset.sum_congr rfl fun k2 _ => ?_)
  exact congrArg (fun a : EReal => a * w2 (ix2 k2 k3)) (dense_relu_apply (K := 146) _ _ b1 _ g k2)

variable (V : (c : Dev nD) → (b : Ref sig .tc) → Buf (Elt Ideal) ((c : Thread nD τ).loc b))

theorem hz2' : (![0, 0] : Fin 2 → Nat) = fun _ => 0 := funext fun a => match a with | ⟨0, _⟩ => rfl | ⟨1, _⟩ => rfl

theorem out5_7_pay (x0 : Vec Ideal S256x146 .f32) (x1 : Vec Ideal S146x73 .f32) (x2 : Vec Ideal S1x73 .f32) (x3 : Vec Ideal S73x36 .f32)
    (x4 : Vec Ideal S1x36 .f32) (x5 : Vec Ideal S36x10 .f32) (x6 : Vec Ideal S1x10 .f32) :
    out5_7 (F := Ideal) x0 x1 x2 x3 x4 x5 x6 = k5_pay1 x0 x1 x2 x3 x4 x5 x6 := by
  unfold out5_7
  rw [View.canon_unit_zero hz2']
  simp only [View.ld_unit_zero (S := ⟨2, _⟩) hz2']

theorem idx5 : ∀ t : Fin cfg5.N, (∀ a, win5_0.index t a = 0) ∧ (∀ a, win5_1.index t a = 0) ∧ (∀ a, win5_2.index t a = 0)
    ∧ (∀ a, win5_3.index t a = 0) ∧ (∀ a, win5_4.index t a = 0) ∧ (∀ a, win5_5.index t a = 0) ∧ (∀ a, win5_6.index t a = 0)
    ∧ (∀ a, win5_7.index t a = 0) :=
  (by decide +kernel : ∀ t : Fin grid5.N, _)

-- Reading through an embedding that moves no coordinate is reading the array itself.
theorem read_eq {n0 n1 : ℕ} {α : Type} (A : (⟨2, ![n0, n1]⟩ : Shape).Idx → α) (e : (⟨2, ![n0, n1]⟩ : Shape).Idx → (⟨2, ![n0, n1]⟩ : Shape).Idx)
    (h : ∀ y a, (e y a : ℕ) = y a) : (fun y => A (e y)) = A :=
  funext fun y => congrArg A (Shape.idx_ext₂ (h y 0) (h y 1))

theorem blk5_0 (c : Dev nD) (t : Fin cfg5.N) : (iblk5 V c 0 t : Vec Ideal S256x146 .f32) = V c (Pipeline.arrRef spec5 0) :=
  read_eq _ _ fun y a => win5_0.rect_emb_val_of_index_zero t a ((idx5 t).1 a) y
theorem blk5_1 (c : Dev nD) (t : Fin cfg5.N) : (iblk5 V c 1 t : Vec Ideal S146x73 .f32) = V c (Pipeline.arrRef spec5 1) :=
  read_eq _ _ fun y a => win5_1.rect_emb_val_of_index_zero t a ((idx5 t).2.1 a) y
theorem blk5_2 (c : Dev nD) (t : Fin cfg5.N) : (iblk5 V c 2 t : Vec Ideal S1x73 .f32) = V c (Pipeline.arrRef spec5 2) :=
  read_eq _ _ fun y a => win5_2.rect_emb_val_of_index_zero t a ((idx5 t).2.2.1 a) y
theorem blk5_3 (c : Dev nD) (t : Fin cfg5.N) : (iblk5 V c 3 t : Vec Ideal S73x36 .f32) = V c (Pipeline.arrRef spec5 3) :=
  read_eq _ _ fun y a => win5_3.rect_emb_val_of_index_zero t a ((idx5 t).2.2.2.1 a) y
theorem blk5_4 (c : Dev nD) (t : Fin cfg5.N) : (iblk5 V c 4 t : Vec Ideal S1x36 .f32) = V c (Pipeline.arrRef spec5 4) :=
  read_eq _ _ fun y a => win5_4.rect_emb_val_of_index_zero t a ((idx5 t).2.2.2.2.1 a) y
theorem blk5_5 (c : Dev nD) (t : Fin cfg5.N) : (iblk5 V c 5 t : Vec Ideal S36x10 .f32) = V c (Pipeline.arrRef spec5 5) :=
  read_eq _ _ fun y a => win5_5.rect_emb_val_of_index_zero t a ((idx5 t).2.2.2.2.2.1 a) y
theorem blk5_6 (c : Dev nD) (t : Fin cfg5.N) : (iblk5 V c 6 t : Vec Ideal S1x10 .f32) = V c (Pipeline.arrRef spec5 6) :=
  read_eq _ _ fun y a => win5_6.rect_emb_val_of_index_zero t a ((idx5 t).2.2.2.2.2.2.1 a) y

def pay5 (c : Dev nD) : Vec Ideal S256x10 .f32 :=
  k5_pay1 (V c (Pipeline.arrRef spec5 0)) (V c (Pipeline.arrRef spec5 1)) (V c (Pipeline.arrRef spec5 2)) (V c (Pipeline.arrRef spec5 3))
    (V c (Pipeline.arrRef spec5 4)) (V c (Pipeline.arrRef spec5 5)) (V c (Pipeline.arrRef spec5 6))

-- The block the body leaves is the payload over the whole arrays, read through the output block.
theorem flushed5 (c : Dev nD) (t : Fin cfg5.N) :
    (dat5 (F := Ideal) V c).flushed 7 t = ((cfg5.win 7).blk t).view.read (Elt Ideal) (pay5 V c) := by
  show (cfg5.win 7).cut (grid5.coords t) ((dat5 (F := Ideal) V c).after 7 t) = _
  rw [show (dat5 (F := Ideal) V c).after 7 t = out5_7 (iblk5 V c 0 t) (iblk5 V c 1 t) (iblk5 V c 2 t) (iblk5 V c 3 t) (iblk5 V c 4 t)
    (iblk5 V c 5 t) (iblk5 V c 6 t) by dsimp only [dat5], out5_7_pay, blk5_0, blk5_1, blk5_2, blk5_3, blk5_4, blk5_5, blk5_6]
  exact funext fun j => congrArg (pay5 V c) (Shape.idx_ext₂ (win5_7.rect_emb_val_of_index_zero t 0 ((idx5 t).2.2.2.2.2.2.2 0) j).symm
    (win5_7.rect_emb_val_of_index_zero t 1 ((idx5 t).2.2.2.2.2.2.2 1) j).symm)

theorem mem_blk5 (t : Fin cfg5.N) (i : S256x10.Idx) :
    i ∈ ((cfg5.win 7).blk t).view.set ↔ ∀ a : Fin 2, win5_7.index t a * S256x10.size a ≤ (i a).val ∧ (i a).val < win5_7.index t a * S256x10.size a + S256x10.size a := by
  show i ∈ ((View.whole main_v86).slice (win5_7.rect t)).set ↔ _
  rw [View.set_slice_whole, Rect.mem_set_unit]
  exact Iff.rfl

theorem cover5 (i : S256x10.Idx) : ∃ t : Fin cfg5.N, (cfg5.win 7).flush t = true ∧ i ∈ ((cfg5.win 7).blk t).view.set := by
  refine ⟨t5_0, flush5_7 t5_0, (mem_blk5 t5_0 i).2 fun a => ?_⟩
  rw [(idx5 t5_0).2.2.2.2.2.2.2 a, Nat.zero_mul, Nat.zero_add]
  exact ⟨Nat.zero_le _, (i a).isLt⟩

theorem val5 (c : Dev nD) (g : Fin 256) (o : Fin 10) :
    (dat5 (F := Ideal) V c).arrAt 7 cfg5.N (ix2 g o)
      = readout (fun g j => (V c (Pipeline.arrRef spec5 0) : S256x146.Idx → EReal) (ix2 g j))
          (fun j q => (V c (Pipeline.arrRef spec5 1) : S146x73.Idx → EReal) (ix2 j q))
          (fun q => (V c (Pipeline.arrRef spec5 2) : S1x73.Idx → EReal) (ix2 (0 : Fin 1) q))
          (fun j q => (V c (Pipeline.arrRef spec5 3) : S73x36.Idx → EReal) (ix2 j q))
          (fun q => (V c (Pipeline.arrRef spec5 4) : S1x36.Idx → EReal) (ix2 (0 : Fin 1) q))
          (fun j q => (V c (Pipeline.arrRef spec5 5) : S36x10.Idx → EReal) (ix2 j q))
          (fun q => (V c (Pipeline.arrRef spec5 6) : S1x10.Idx → EReal) (ix2 (0 : Fin 1) q)) g o :=
  (congrFun ((dat5 (F := Ideal) V c).arrAt_eq_of_cover 7 (pay5 V c) (fun t _ => flushed5 V c t) cover5) (ix2 g o)).trans
    ((k5_pay1_apply _ _ _ _ _ _ _ g o).trans rfl)

end Cert.KernelIdeal.Val

end
-- ==== Proof.KI.ValPool.lean ====
import proofs.«430219_j41016937677162_3_alg».proof.Proof.KI.Dats
import Idealize.ShloMosaic.Lib.Pipeline.Value
import Idealize.ShloMosaic.Lib.ValueIdx
import Idealize.ShloMosaic.Lib.ValueLayout
import Idealize.ShloMosaic.PureOps.Ideal.Laws
import Mathlib.Data.Fintype.BigOperators
import Mathlib.Logic.Equiv.Fin.Basic
import Mathlib.Data.Fin.SuccPred

noncomputable section

namespace Cert.KernelIdeal.Val

open Cert.KernelIdeal Cert.KernelIdeal.Gen Cert.KernelIdeal.Hand
open Idealize.ShloMosaic Idealize.ShloMosaic.TcCoe Idealize.SL.Sem
open Idealize.ShloMosaic.ValueIdx
open Idealize.ShloMosaic.Pipeline (Dat Cfg Window)

theorem pool_matmul_apply (l : FVec Ideal S4000x256 .bf16) (r : FVec Ideal S4000x147 .bf16) (g : Fin 256) (d : Fin 147) :
    matmul dot_S4000x256_S4000x147_S256x147_0_0_1_1_n_n none l r (constant (F := Ideal) S256x147 .f32 0x00000000#32) (ix2 g d)
      = ∑ k : Fin 4000, l (ix2 k g) * r (ix2 k d) := by
  simp only [matmul]
  rw [Ideal.matmul_constant_zero_apply, ← Equiv.sum_comp (ValueIdx.contrEquiv1 dot_S4000x256_S4000x147_S256x147_0_0_1_1_n_n 4000 rfl rfl).symm]
  refine Finset.sum_congr rfl fun k _ => ?_
  have hk := ValueIdx.contrEquiv1_symm_val dot_S4000x256_S4000x147_S256x147_0_0_1_1_n_n 4000 rfl rfl k
  generalize (ValueIdx.contrEquiv1 dot_S4000x256_S4000x147_S256x147_0_0_1_1_n_n 4000 rfl rfl).symm k = κ at hk ⊢
  rw [show dot_S4000x256_S4000x147_S256x147_0_0_1_1_n_n.lhsIdx (ix2 g d) κ = ix2 k g from Shape.idx_ext₂ ((DotDims.lhsIdx_val_of_single _ rfl _ κ).trans hk)
      (by unfold DotDims.lhsIdx; rw [dif_neg (by decide), dif_pos (by decide)]; rfl),
    show dot_S4000x256_S4000x147_S256x147_0_0_1_1_n_n.rhsIdx (ix2 g d) κ = ix2 k d from Shape.idx_ext₂ ((DotDims.rhsIdx_val_of_single _ rfl _ κ).trans hk)
      (by unfold DotDims.rhsIdx; rw [dif_neg (by decide), dif_pos (by decide)]; rfl)]

theorem onehot_elt (a b : BitVec 32) :
    (FloatOps.sitofp (F := Ideal) .f32 ((IntOp.cmpi .eq a b).setWidth 32) : EReal) = if a = b then 1 else 0 := by
  show (((((IntOp.cmpi .eq a b).setWidth 32).toInt : ℤ) : ℝ) : EReal) = _
  by_cases h : a = b
  · simp [IntOp.cmpi, h]
  · simp [IntOp.cmpi, h, beq_eq_false_iff_ne.mpr h]

theorem bcast_col_apply (v : IVec S4000x1 32) (r : Fin 4000) (g : Fin 256) :
    broadcastTo S4000x256 v broadcasts_S4000x1_S4000x256 (ix2 r g) = v (ix2 r (0 : Fin 1)) := by
  refine broadcastTo_apply v broadcasts_S4000x1_S4000x256 (ix2 r g) (ix2 r (0 : Fin 1)) fun ax => ?_
  match ax with
  | ⟨0, _⟩ =>
    show r.val = if (4000 : ℕ) = 1 then 0 else r.val
    rw [if_neg (by decide)]
  | ⟨1, _⟩ => rfl

theorem one_bf16 : Ideal.ofBits .bf16 0x3F80#16 = 1 := IdealRules.sign_bit.ideal_onePat .bf16

theorem hext_apply (x : Vec Ideal S4000x146 .f32) (b : Vec Ideal S1x146 .f32) (r : Fin 4000) (d : Fin 147) :
    concatenate S4000x147 1
        [⟨S4000x146, (truncf .bf16 (maximumf (addf x (broadcastTo S4000x146 b broadcasts_S1x146_S4000x146))
            (broadcast S4000x146 (Scalar.ofBits (F := Ideal) .f32 0x00000000#32))) bitsLt_bf16_f32 : FVec Ideal S4000x146 .bf16)⟩,
         ⟨S4000x1, (broadcast S4000x1 (Scalar.ofBits (F := Ideal) .bf16 0x3F80#16) : FVec Ideal S4000x1 .bf16)⟩]
        concatenates_S4000x146_S4000x1_S4000x147_d1 (ix2 r d)
      = if h : d.val < 146 then max (x (ix2 r ⟨d.val, h⟩) + b (ix2 (0 : Fin 1) ⟨d.val, h⟩)) 0 else 1 := by
  by_cases h : d.val < 146
  · rw [dif_pos h]
    refine (concatenate_pair_apply_left (1 : Fin S4000x147.rank) _ _ concatenates_S4000x146_S4000x1_S4000x147_d1 (ix2 r d) rfl
      (ix2 r ⟨d.val, h⟩) (fun a => ?_)).trans ?_
    · match a with
      | ⟨0, _⟩ => rfl
      | ⟨1, _⟩ => rfl
    · show max (x (ix2 r ⟨d.val, h⟩) + broadcastTo S4000x146 b broadcasts_S1x146_S4000x146 (ix2 r ⟨d.val, h⟩)) (Ideal.ofBits .f32 0x00000000#32) = _
      rw [broadcastTo_1b_ab_apply, Ideal.ofBits_zero_f32]
  · rw [dif_neg h]
    refine (concatenate_pair_apply_right (1 : Fin S4000x147.rank) _ _ concatenates_S4000x146_S4000x1_S4000x147_d1 (ix2 r d) rfl rfl
      (ix2 r (0 : Fin 1)) (fun a ha => ?_) ?_).trans ?_
    · match a with
      | ⟨0, _⟩ => rfl
      | ⟨1, _⟩ => exact absurd rfl ha
    · show 0 + 146 = d.val
      have := d.isLt; omega
    · exact one_bf16

theorem onehot_apply (grp : Vec Ideal S4000x1 .i32) (r : Fin 4000) (g : Fin 256) :
    (truncf .bf16 (sitofp (F := Ideal) .f32 (extui 32 (cmpi .eq (broadcastTo S4000x256 (grp : IVec S4000x1 32) broadcasts_S4000x1_S4000x256)
        (iota .tc S4000x256 32 [1] iota_S4000x256_d1_w32)) natLt_1_32)) bitsLt_bf16_f32 : FVec Ideal S4000x256 .bf16) (ix2 r g)
      = if grp (ix2 r (0 : Fin 1)) = BitVec.ofNat 32 g.val then (1 : EReal) else 0 := by
  show (FloatOps.sitofp (F := Ideal) .f32 ((IntOp.cmpi .eq (broadcastTo S4000x256 (grp : IVec S4000x1 32) broadcasts_S4000x1_S4000x256 (ix2 r g))
      (iota .tc S4000x256 32 [1] iota_S4000x256_d1_w32 (ix2 r g))).setWidth 32) : EReal) = _
  refine (onehot_elt _ _).trans ?_
  rw [bcast_col_apply, iota_single_apply] <;> rfl

theorem pay2_apply (x : Vec Ideal S4000x146 .f32) (b : Vec Ideal S1x146 .f32) (grp : Vec Ideal S4000x1 .i32) (s : Vec Ideal S256x147 .f32)
    (g : Fin 256) (d : Fin 147) :
    k4_pay2 x b grp s (ix2 g d)
      = s (ix2 g d) + ∑ r : Fin 4000, (if grp (ix2 r (0 : Fin 1)) = BitVec.ofNat 32 g.val then (1 : EReal) else 0)
          * (if h : d.val < 146 then max (x (ix2 r ⟨d.val, h⟩) + b (ix2 (0 : Fin 1) ⟨d.val, h⟩)) 0 else 1) := by
  unfold k4_pay2
  simp only [shapeCast_self]
  rw [addf_apply, pool_matmul_apply]
  refine congrArg (s (ix2 g d) + ·) (Finset.sum_congr rfl fun r _ => ?_)
  rw [onehot_apply, hext_apply]
  simp only [shapeCast_self]

variable (V : (c : Dev nD) → (b : Ref sig .tc) → Buf (Elt Ideal) ((c : Thread nD τ).loc b))

theorem offs_zero : (![0, 0] : Fin 2 → Nat) = fun _ => 0 :=
  funext fun a => match a with | ⟨0, _⟩ => rfl | ⟨1, _⟩ => rfl

theorem step4_eq (x0 : Vec Ideal S4000x146 .f32) (x1 : Vec Ideal S1x146 .f32) (x2 : Vec Ideal S4000x1 .i32) (s : Vec Ideal S256x147 .f32) :
    step4 (F := Ideal) x0 x1 x2 s = k4_pay2 x0 x1 x2 s := by
  unfold step4
  rw [View.canon_unit_zero (S := S256x147) offs_zero]
  rw [View.ld_unit_zero (S := S4000x146) offs_zero, View.ld_unit_zero (S := S1x146) offs_zero, View.ld_unit_zero (S := S4000x1) offs_zero,
    View.ld_unit_zero (S := S256x147) offs_zero]

theorem zero4_apply (i : S256x147.Idx) : zero4 (F := Ideal) i = 0 := by
  unfold zero4
  rw [View.canon_unit_zero (S := S256x147) offs_zero]
  unfold k4_pay1
  simp only [shapeCast_self]
  exact Ideal.ofBits_zero_f32

theorem out4_3_eq (s : Vec Ideal S256x147 .f32) : out4_3 (F := Ideal) s = s := by
  unfold out4_3
  rw [View.canon_unit_zero (S := S256x147) offs_zero, View.ld_unit_zero (S := S256x147) offs_zero]

abbrev pool_x (c : Dev nD) : Vec Ideal S100000x146 .f32 := V c (Pipeline.arrRef spec4 0)
abbrev pool_b (c : Dev nD) : Vec Ideal S1x146 .f32 := V c (Pipeline.arrRef spec4 1)
abbrev pool_grp (c : Dev nD) : Vec Ideal S100000x1 .i32 := V c (Pipeline.arrRef spec4 2)

def poolTerm (x : Vec Ideal S100000x146 .f32) (b : Vec Ideal S1x146 .f32) (grp : Vec Ideal S100000x1 .i32) (g : Fin 256) (d : Fin 147)
    (k : Fin 100000) : EReal :=
  (if grp (ix2 k (0 : Fin 1)) = BitVec.ofNat 32 g.val then (1 : EReal) else 0)
    * (if h : d.val < 146 then max (x (ix2 k ⟨d.val, h⟩) + b (ix2 (0 : Fin 1) ⟨d.val, h⟩)) 0 else 1)

theorem idx_facts4 : ∀ t : Fin cfg4.N, win4_0.index t (0 : Fin 2) = t.val ∧ win4_0.index t (1 : Fin 2) = 0
    ∧ win4_1.index t (0 : Fin 2) = 0 ∧ win4_1.index t (1 : Fin 2) = 0
    ∧ win4_2.index t (0 : Fin 2) = t.val ∧ win4_2.index t (1 : Fin 2) = 0
    ∧ win4_3.index t (0 : Fin 2) = 0 ∧ win4_3.index t (1 : Fin 2) = 0 :=
  (by decide +kernel : ∀ t : Fin grid4.N, _)

theorem row_lt {t r : ℕ} (ht : t < 25) (hr : r < 4000) : 4000 * t + r < 100000 := by omega

theorem xblk_apply (c : Dev nD) (t : Fin cfg4.N) (r : Fin 4000) (q : Fin 146) (hk : 4000 * t.val + r.val < 100000) :
    (iblk4 V c 0 t : Vec Ideal S4000x146 .f32) (ix2 r q) = pool_x V c (ix2 ⟨4000 * t.val + r.val, hk⟩ q) := by
  obtain ⟨e0, e1, -⟩ := idx_facts4 t
  exact congrArg (V c (Pipeline.arrRef spec4 0)) (Shape.idx_ext₂
    (by show win4_0.index t (0 : Fin 2) * 4000 + 1 * r.val = 4000 * t.val + r.val; omega)
    (by show win4_0.index t (1 : Fin 2) * 146 + 1 * q.val = q.val; omega))

theorem bblk_apply (c : Dev nD) (t : Fin cfg4.N) (q : Fin 146) :
    (iblk4 V c 1 t : Vec Ideal S1x146 .f32) (ix2 (0 : Fin 1) q) = pool_b V c (ix2 (0 : Fin 1) q) := by
  obtain ⟨-, -, e0, e1, -⟩ := idx_facts4 t
  exact congrArg (V c (Pipeline.arrRef spec4 1)) (Shape.idx_ext₂
    (by show win4_1.index t (0 : Fin 2) * 1 + 1 * 0 = 0; omega)
    (by show win4_1.index t (1 : Fin 2) * 146 + 1 * q.val = q.val; omega))

theorem gblk_apply (c : Dev nD) (t : Fin cfg4.N) (r : Fin 4000) (hk : 4000 * t.val + r.val < 100000) :
    (iblk4 V c 2 t : Vec Ideal S4000x1 .i32) (ix2 r (0 : Fin 1)) = pool_grp V c (ix2 ⟨4000 * t.val + r.val, hk⟩ (0 : Fin 1)) := by
  obtain ⟨-, -, -, -, e0, e1, -⟩ := idx_facts4 t
  exact congrArg (V c (Pipeline.arrRef spec4 2)) (Shape.idx_ext₂
    (by show win4_2.index t (0 : Fin 2) * 4000 + 1 * r.val = 4000 * t.val + r.val; omega)
    (by show win4_2.index t (1 : Fin 2) * 1 + 1 * 0 = 0; omega))

def blockSum (f : Fin 100000 → EReal) (t : ℕ) : EReal :=
  if h : t < 25 then ∑ r : Fin 4000, f ⟨4000 * t + r.val, row_lt h r.isLt⟩ else 0

theorem N4 : cfg4.N = 25 := N_4

theorem step_apply (c : Dev nD) (t : Fin cfg4.N) (s : Vec Ideal S256x147 .f32) (g : Fin 256) (d : Fin 147) :
    step4 (F := Ideal) (iblk4 V c 0 t) (iblk4 V c 1 t) (iblk4 V c 2 t) s (ix2 g d)
      = s (ix2 g d) + blockSum (poolTerm (pool_x V c) (pool_b V c) (pool_grp V c) g d) t.val := by
  have ht : t.val < 25 := lt_of_lt_of_eq t.isLt N4
  refine (congrFun (step4_eq _ _ _ s) _).trans ((pay2_apply _ _ _ s g d).trans ?_)
  unfold blockSum
  rw [dif_pos ht]
  refine congrArg (s (ix2 g d) + ·) (Finset.sum_congr rfl fun r _ => ?_)
  have hk : 4000 * t.val + r.val < 100000 := row_lt ht r.isLt
  unfold poolTerm
  rw [gblk_apply V c t r hk]
  by_cases h : d.val < 146
  · rw [dif_pos h, dif_pos h, xblk_apply V c t r ⟨d.val, h⟩ hk, bblk_apply V c t ⟨d.val, h⟩] <;> rfl
  · rw [dif_neg h, dif_neg h] <;> rfl

theorem acc_apply (c : Dev nD) (g : Fin 256) (d : Fin 147) : ∀ (n : ℕ) (hn : n < cfg4.N),
    acc4 V c n hn (ix2 g d) = ∑ t ∈ Finset.range (n + 1), blockSum (poolTerm (pool_x V c) (pool_b V c) (pool_grp V c) g d) t
  | 0, hn => by
    rw [Finset.sum_range_one]
    refine (step_apply V c ⟨0, hn⟩ _ g d).trans ?_
    rw [zero4_apply, zero_add] <;> rfl
  | n + 1, hn => by
    rw [Finset.sum_range_succ, ← acc_apply c g d n (Nat.lt_of_succ_lt hn)]
    exact step_apply V c ⟨n + 1, hn⟩ _ g d

theorem sum_blockSum (f : Fin 100000 → EReal) : ∑ t ∈ Finset.range 25, blockSum f t = ∑ k : Fin 100000, f k := by
  rw [← Fin.sum_univ_eq_sum_range (blockSum f) 25]
  have e : ∀ t : Fin 25, blockSum f t.val = ∑ r : Fin 4000, f ⟨4000 * t.val + r.val, row_lt t.isLt r.isLt⟩ := fun t => by
    unfold blockSum; rw [dif_pos t.isLt]
  simp only [e]
  refine (Fintype.sum_prod_type' (fun (t : Fin 25) (r : Fin 4000) => f ⟨4000 * t.val + r.val, row_lt t.isLt r.isLt⟩)).symm.trans ?_
  refine Fintype.sum_equiv ((finProdFinEquiv (m := 25) (n := 4000)).trans (finCongr (by norm_num : 25 * 4000 = 100000))) _ _ fun p => ?_
  refine congrArg f (Fin.ext ?_)
  show 4000 * p.1.val + p.2.val = p.2.val + 4000 * p.1.val
  omega

theorem h24 : 24 < cfg4.N := by rw [N4]; decide

abbrev t24 : Fin cfg4.N := ⟨24, h24⟩

theorem emb24 (i : S256x147.Idx) : ((cfg4.win 3).blk t24).view.emb i = i := by
  obtain ⟨-, -, -, -, -, -, e0, e1⟩ := idx_facts4 t24
  exact Shape.idx_ext₂ (by show win4_3.index t24 (0 : Fin 2) * 256 + 1 * (i 0).val = (i 0).val; omega)
    (by show win4_3.index t24 (1 : Fin 2) * 147 + 1 * (i 1).val = (i 1).val; omega)

theorem read24 (G : S256x147.Idx → EReal) (j : S256x147.Idx) : ((cfg4.win 3).blk t24).view.read (Elt Ideal) G j = G j :=
  congrArg G (emb24 j)

theorem final4 (c : Dev nD) : (dat4 (F := Ideal) V c).arrAt 3 cfg4.N = acc4 V c 24 h24 :=
  (dat4 (F := Ideal) V c).arrAt_eq_of_cover 3 (acc4 V c 24 h24)
    (fun t hf => by
      obtain rfl : t = t24 := Fin.ext (show t.val = 24 by have := (flush4_3 t).mp hf; have := lt_of_lt_of_eq t.isLt N4; omega)
      show (cfg4.win 3).cut (grid4.coords t24) (out4_3 (F := Ideal) (acc4 V c 24 h24)) = _
      rw [out4_3_eq]
      exact funext fun j => (read24 _ j).symm)
    fun i => ⟨t24, (flush4_3 t24).mpr (by decide), emb24 i ▸ ((cfg4.win 3).blk t24).view.emb_mem_set i⟩

theorem val4 (c : Dev nD) (g : Fin 256) (d : Fin 147) :
    ((dat4 (F := Ideal) V c).arrAt 3 cfg4.N : Vec Ideal S256x147 .f32) (ix2 g d)
      = ∑ k : Fin 100000, poolTerm (pool_x V c) (pool_b V c) (pool_grp V c) g d k :=
  (congrFun (final4 V c) (ix2 g d)).trans ((acc_apply V c g d 24 h24).trans (sum_blockSum _))

end Cert.KernelIdeal.Val

end
-- ==== Proof.KI.HostVal.lean ====
import proofs.«430219_j41016937677162_3_alg».proof.Proof.Gen.KernelIdeal.Launch
import proofs.«430219_j41016937677162_3_alg».proof.Proof.Spec
import Idealize.ShloMosaic.Lib.StableHlo.Run
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Val

open Cert.KernelIdeal Cert.KernelIdeal.Gen Idealize.ShloMosaic Idealize.ShloMosaic.TcCoe Idealize.SL.Sem
open Idealize.ShloMosaic.StableHlo Idealize.ShloMosaic.ValueIdx

abbrev Arr (S : Shape) (e : EltTy) : Type := (⟨S, e⟩ : BufTy).Contents (Elt Ideal)

section Layout
variable {α : Type}

theorem slab_apply (o : Nat) (l : Fin 4) (hl : l.val = o) (x : S4x146x146.Idx → α)
    (h : S4x146x146.Slices ![o, 0, 0] S1x146x146) (j q : Fin 146) :
    shapeCast S146x146 (extractStridedSlice S1x146x146 ![o, 0, 0] x h) shapeCasts_S1x146x146_S146x146 (ix2 j q)
      = x (ix3 l j q) :=
  (shapeCast_1ab_ab_apply _ shapeCasts_S1x146x146_S146x146 j q).trans
    (extractStridedSlice_apply ![o, 0, 0] x h (ix3 (0 : Fin 1) j q) (ix3 l j q) (fun a => by
      match a with
      | ⟨0, _⟩ => exact hl.trans (Nat.add_zero o).symm
      | ⟨1, _⟩ => exact (Nat.zero_add _).symm
      | ⟨2, _⟩ => exact (Nat.zero_add _).symm))

theorem biasRow_apply (o : Nat) (l : Fin 4) (hl : l.val = o) (x : S4x146.Idx → α) (h : S4x146.Slices ![o, 0] S1x146)
    (u : Fin 1) (q : Fin 146) :
    shapeCast S1x146 (shapeCast S146 (extractStridedSlice S1x146 ![o, 0] x h) shapeCasts_S1x146_S146) shapeCasts_S146_S1x146 (ix2 u q)
      = x (ix2 l q) :=
  (shapeCast_a_1a_apply _ shapeCasts_S146_S1x146 u q).trans
    ((shapeCast_1a_a_apply _ shapeCasts_S1x146_S146 q).trans
      (slice2_axis0_apply o x h (0 : Fin 1) q l (hl.trans (Nat.add_zero o).symm)))

theorem col_apply (x : S100000.Idx → α) (n : Fin 100000) (u : Fin 1) :
    shapeCast S100000x1 x shapeCasts_S100000_S100000x1 (ix2 n u) = x (ix1 n) :=
  shapeCast_apply x shapeCasts_S100000_S100000x1 (ix2 n u) (ix1 n) (by
    have hu : u.val = 0 := by omega
    rw [Shape.rowMajor_val_one, Shape.rowMajor_val_two]
    show n.val = n.val * 1 + u.val
    rw [hu, Nat.mul_one, Nat.add_zero])

end Layout

theorem hostDivf_apply {s : Shape} {φ : FTy} (a b : FVec Ideal s φ) (i : s.Idx) :
    Host.divf a b i = Ideal.div (a i) (b i) := rfl

theorem one_f32 : Ideal.ofBits .f32 0x3F800000#32 = 1 := by
  simp [Ideal.ofBits, Ideal.ieee, -EReal.coe_mul]; norm_num

/-- An entry of a product of an `n × 146` with a `146 × 146` array is the sum over the one contracted axis. -/
theorem dot_apply {n : ℕ} (D : DotDims ⟨2, ![n, 146]⟩ S146x146 ⟨2, ![n, 146]⟩) (hr : D.contr.rank = 1)
    (hs : D.contr.size ⟨0, by omega⟩ = 146) (hl : D.lhsContracting = [1]) (hrc : D.rhsContracting = [0])
    (h0 : ∀ i q, (D.lhsIdx i q 0).val = (i 0).val) (h1 : ∀ i q, (D.rhsIdx i q 1).val = (i 1).val)
    (A : Arr ⟨2, ![n, 146]⟩ .f32) (B : Arr S146x146 .f32) (j : Fin n) (q : Fin 146) :
    Host.dotGeneral (F := Ideal) (φ₁ := .f32) (φ₂ := .f32) D (some .fp32) A B (ix2 j q) = ∑ k : Fin 146, A (ix2 j k) * B (ix2 k q) := by
  simp only [Host.dotGeneral]
  rw [Ideal.dotGeneral_apply, ← Equiv.sum_comp (ValueIdx.contrEquiv1 D 146 hr hs).symm]
  refine Finset.sum_congr rfl fun k _ => ?_
  have hk := ValueIdx.contrEquiv1_symm_val D 146 hr hs k
  generalize (ValueIdx.contrEquiv1 D 146 hr hs).symm k = κ at hk ⊢
  rw [show D.lhsIdx (ix2 j q) κ = ix2 j k from Shape.idx_ext₂ (h0 _ _) ((D.lhsIdx_val_of_single hl _ κ).trans hk),
    show D.rhsIdx (ix2 j q) κ = ix2 k q from Shape.idx_ext₂ ((D.rhsIdx_val_of_single hrc _ κ).trans hk) (h1 _ _)]

theorem dot_EW_apply (A : Arr S146x146 .f32) (B : Arr S146x146 .f32) (j : Fin 146) (q : Fin 146) :
    Host.dotGeneral (F := Ideal) (φ₁ := .f32) (φ₂ := .f32) dot_S146x146_S146x146_S146x146_1_0_0_1_n_n (some .fp32) A B (ix2 j q) = ∑ k : Fin 146, A (ix2 j k) * B (ix2 k q) :=
  dot_apply dot_S146x146_S146x146_S146x146_1_0_0_1_n_n rfl rfl rfl rfl
    (fun i q => by unfold DotDims.lhsIdx; rw [dif_neg (by decide), dif_pos (by decide)]; rfl)
    (fun i q => by unfold DotDims.rhsIdx; rw [dif_neg (by decide), dif_pos (by decide)]; rfl) A B j q

theorem dot_eW_apply (A : Arr S1x146 .f32) (B : Arr S146x146 .f32) (u : Fin 1) (q : Fin 146) :
    Host.dotGeneral (F := Ideal) (φ₁ := .f32) (φ₂ := .f32) dot_S1x146_S146x146_S1x146_1_0_0_1_n_n (some .fp32) A B (ix2 u q) = ∑ k : Fin 146, A (ix2 u k) * B (ix2 k q) :=
  dot_apply dot_S1x146_S146x146_S1x146_1_0_0_1_n_n rfl rfl rfl rfl
    (fun i q => by unfold DotDims.lhsIdx; rw [dif_neg (by decide), dif_pos (by decide)]; rfl)
    (fun i q => by unfold DotDims.rhsIdx; rw [dif_neg (by decide), dif_pos (by decide)]; rfl) A B u q

variable (Wv : Valuation τ sig (Elt Ideal))

abbrev argE : Fin 146 → Fin 146 → EReal := fun j k => (Wv (Proc.devRef .tc main_arg3) : Arr S146x146 .f32) (ix2 j k)

abbrev arge : Fin 146 → EReal := fun j => (Wv (Proc.devRef .tc main_arg4) : Arr S146 .f32) (ix1 j)

abbrev argW (l : Fin 4) : Fin 146 → Fin 146 → EReal := fun j q => (Wv (Proc.devRef .tc main_arg5) : Arr S4x146x146 .f32) (ix3 l j q)

abbrev argB (l : Fin 4) : Fin 146 → EReal := fun q => (Wv (Proc.devRef .tc main_arg6) : Arr S4x146 .f32) (ix2 l q)

theorem v1_term :
    StableHlo.after (hostOps0 (F := Ideal)) Wv (Proc.devRef .tc main_v1) =
      (shapeCast S500000 (extractStridedSlice S1x500000 ![0, 0] (Wv (Proc.devRef .tc main_arg1) : Arr S2x500000 .i32) slices_S2x500000_S1x500000_0_0) shapeCasts_S1x500000_S500000 : Arr S500000 .i32) := by
  after_results
  rfl

theorem v3_term :
    StableHlo.after (hostOps0 (F := Ideal)) Wv (Proc.devRef .tc main_v3) =
      (shapeCast S500000 (extractStridedSlice S1x500000 ![1, 0] (Wv (Proc.devRef .tc main_arg1) : Arr S2x500000 .i32) slices_S2x500000_S1x500000_1_0) shapeCasts_S1x500000_S500000 : Arr S500000 .i32) := by
  after_results
  rfl

theorem v4_apply (n : Fin 100000) (u : Fin 1) :
    (StableHlo.after (hostOps0 (F := Ideal)) Wv (Proc.devRef .tc main_v4) : Arr S100000x1 .i32) (ix2 n u) = (Wv (Proc.devRef .tc main_arg2) : Arr S100000 .i32) (ix1 n) := by
  after_results
  exact col_apply _ n u

theorem v7_apply (j q : Fin 146) :
    (StableHlo.after (hostOps0 (F := Ideal)) Wv (Proc.devRef .tc main_v7) : Arr S146x146 .f32) (ix2 j q) = Cert.Spec.mm (argE Wv) (argW Wv 0) j q := by
  after_results
  refine (dot_EW_apply _ _ j q).trans ?_
  show _ = ∑ k : Fin 146, argE Wv j k * argW Wv 0 k q
  exact Finset.sum_congr rfl fun k _ => congrArg (argE Wv j k * ·) (slab_apply 0 0 rfl _ _ k q)

theorem v13_apply (u : Fin 1) (q : Fin 146) :
    (StableHlo.after (hostOps0 (F := Ideal)) Wv (Proc.devRef .tc main_v13) : Arr S1x146 .f32) (ix2 u q) = ∑ j : Fin 146, arge Wv j * argW Wv 0 j q := by
  after_results
  refine (shapeCast_a_1a_apply _ shapeCasts_S146_S1x146 u q).trans ?_
  refine (shapeCast_1a_a_apply _ shapeCasts_S1x146_S146 q).trans ?_
  refine (dot_eW_apply _ _ (0 : Fin 1) q).trans ?_
  exact Finset.sum_congr rfl fun k _ => congrArg₂ (fun a b : EReal => a * b)
    (shapeCast_a_1a_apply _ shapeCasts_S146_S1x146 (0 : Fin 1) k) (slab_apply 0 0 rfl _ _ k q)

def edgeSumArr (src dst : Arr S500000 .i32) (X : Arr S100000x146 .f32) : Arr S100000x146 .f32 :=
  (Host.scatterAdd (F := Ideal) (φ := .f32) scatter_S100000x146_S500000x1_S500000x146_1_0_0_1
    (broadcastInDim S100000x146 ![] bcast_S_S100000x146 (constant (F := Ideal) S_ .f32 0x00000000#32 : Arr S_ .f32) : Arr S100000x146 .f32)
    (broadcastInDim S500000x1 ![0] bcast_S500000_S500000x1_0 dst : Arr S500000x1 .i32)
    (Host.gather gather_S100000x146_S500000x1_S500000x146_1_0_n_n_0_1_1146 X
      (broadcastInDim S500000x1 ![0] bcast_S500000_S500000x1_0
        (select
          (cmpi .slt src (broadcastInDim S500000 ![] bcast_S_S500000 (constantI S_ 32 0#32 : Arr S_ .i32) : Arr S500000 .i32) : Arr S500000 .i1)
          (addi src (broadcastInDim S500000 ![] bcast_S_S500000 (constantI S_ 32 100000#32 : Arr S_ .i32) : Arr S500000 .i32) : Arr S500000 .i32)
          src : Arr S500000 .i32) : Arr S500000x1 .i32) : Arr S500000x146 .f32) : Arr S100000x146 .f32)

theorem v24_term :
    StableHlo.after (hostOps1 (F := Ideal)) Wv (Proc.devRef .tc main_v24) =
      edgeSumArr (Wv (Proc.devRef .tc main_v1)) (Wv (Proc.devRef .tc main_v3)) (Wv (Proc.devRef .tc main_v14)) := by
  after_results_simp <;> rfl

theorem v29_apply (u : Fin 1) (q : Fin 146) :
    (StableHlo.after (hostOps1 (F := Ideal)) Wv (Proc.devRef .tc main_v29) : Arr S1x146 .f32) (ix2 u q) = argB Wv 0 q := by
  after_results
  exact biasRow_apply 0 0 rfl _ _ u q

theorem v28_apply (j q : Fin 146) :
    (StableHlo.after (hostOps1 (F := Ideal)) Wv (Proc.devRef .tc main_v28) : Arr S146x146 .f32) (ix2 j q) = argW Wv 1 j q := by
  after_results
  exact slab_apply 1 1 rfl _ _ j q

theorem v40_term :
    StableHlo.after (hostOps2 (F := Ideal)) Wv (Proc.devRef .tc main_v40) =
      edgeSumArr (Wv (Proc.devRef .tc main_v1)) (Wv (Proc.devRef .tc main_v3)) (Wv (Proc.devRef .tc main_v30)) := by
  after_results_simp <;> rfl

theorem v45_apply (u : Fin 1) (q : Fin 146) :
    (StableHlo.after (hostOps2 (F := Ideal)) Wv (Proc.devRef .tc main_v45) : Arr S1x146 .f32) (ix2 u q) = argB Wv 1 q := by
  after_results
  exact biasRow_apply 1 1 rfl _ _ u q

theorem v44_apply (j q : Fin 146) :
    (StableHlo.after (hostOps2 (F := Ideal)) Wv (Proc.devRef .tc main_v44) : Arr S146x146 .f32) (ix2 j q) = argW Wv 2 j q := by
  after_results
  exact slab_apply 2 2 rfl _ _ j q

theorem v56_term :
    StableHlo.after (hostOps3 (F := Ideal)) Wv (Proc.devRef .tc main_v56) =
      edgeSumArr (Wv (Proc.devRef .tc main_v1)) (Wv (Proc.devRef .tc main_v3)) (Wv (Proc.devRef .tc main_v46)) := by
  after_results_simp <;> rfl

theorem v61_apply (u : Fin 1) (q : Fin 146) :
    (StableHlo.after (hostOps3 (F := Ideal)) Wv (Proc.devRef .tc main_v61) : Arr S1x146 .f32) (ix2 u q) = argB Wv 2 q := by
  after_results
  exact biasRow_apply 2 2 rfl _ _ u q

theorem v60_apply (j q : Fin 146) :
    (StableHlo.after (hostOps3 (F := Ideal)) Wv (Proc.devRef .tc main_v60) : Arr S146x146 .f32) (ix2 j q) = argW Wv 3 j q := by
  after_results
  exact slab_apply 3 3 rfl _ _ j q

theorem v72_term :
    StableHlo.after (hostOps4 (F := Ideal)) Wv (Proc.devRef .tc main_v72) =
      edgeSumArr (Wv (Proc.devRef .tc main_v1)) (Wv (Proc.devRef .tc main_v3)) (Wv (Proc.devRef .tc main_v62)) := by
  after_results_simp <;> rfl

theorem v75_apply (u : Fin 1) (q : Fin 146) :
    (StableHlo.after (hostOps4 (F := Ideal)) Wv (Proc.devRef .tc main_v75) : Arr S1x146 .f32) (ix2 u q) = argB Wv 3 q := by
  after_results
  exact biasRow_apply 3 3 rfl _ _ u q

theorem v82_apply (g : Fin 256) (d : Fin 146) :
    (StableHlo.after (hostOps5 (F := Ideal)) Wv (Proc.devRef .tc main_v82) : Arr S256x146 .f32) (ix2 g d)
      = Ideal.div ((Wv (Proc.devRef .tc main_v76) : Arr S256x147 .f32) (ix2 g (⟨d.val, Nat.lt_succ_of_lt d.isLt⟩ : Fin 147)) : EReal)
          (max ((Wv (Proc.devRef .tc main_v76) : Arr S256x147 .f32) (ix2 g (⟨146, by decide⟩ : Fin 147)) : EReal) 1) := by
  after_results
  refine (hostDivf_apply _ _ (ix2 g d)).trans (congrArg₂ Ideal.div ?_ ?_)
  · exact slice2_axis1_apply 0 _ slices_S256x147_S256x146_0_0 g d _ (Nat.zero_add _).symm
  · refine (broadcastInDim_apply _ bcast_S256x1_S256x146_0_1 _ (ix2 g d) (ix2 g (0 : Fin 1)) (fun a => match a with
      | ⟨0, _⟩ => by show g.val = if (256 : Nat) = 1 then 0 else g.val; rw [if_neg (by decide)]
      | ⟨1, _⟩ => by show 0 = if (1 : Nat) = 1 then 0 else d.val; rw [if_pos rfl])).trans ?_
    refine (maximumf_apply _ _ (ix2 g (0 : Fin 1))).trans (congrArg₂ (max : EReal → EReal → EReal) ?_ one_f32)
    exact slice2_axis1_apply 146 _ slices_S256x147_S256x1_0_146 g (0 : Fin 1) _ (Nat.add_zero 146).symm

theorem v83_apply (u : Fin 1) (q : Fin 73) :
    (StableHlo.after (hostOps5 (F := Ideal)) Wv (Proc.devRef .tc main_v83) : Arr S1x73 .f32) (ix2 u q) = (Wv (Proc.devRef .tc main_arg8) : Arr S73 .f32) (ix1 q) := by
  after_results
  exact shapeCast_a_1a_apply _ shapeCasts_S73_S1x73 u q

theorem v84_apply (u : Fin 1) (q : Fin 36) :
    (StableHlo.after (hostOps5 (F := Ideal)) Wv (Proc.devRef .tc main_v84) : Arr S1x36 .f32) (ix2 u q) = (Wv (Proc.devRef .tc main_arg10) : Arr S36 .f32) (ix1 q) := by
  after_results
  exact shapeCast_a_1a_apply _ shapeCasts_S36_S1x36 u q

theorem v85_apply (u : Fin 1) (q : Fin 10) :
    (StableHlo.after (hostOps5 (F := Ideal)) Wv (Proc.devRef .tc main_v85) : Arr S1x10 .f32) (ix2 u q) = (Wv (Proc.devRef .tc main_arg12) : Arr S10 .f32) (ix1 q) := by
  after_results
  exact shapeCast_a_1a_apply _ shapeCasts_S10_S1x10 u q

end Cert.KernelIdeal.Val

end
-- ==== Proof.SpecLaws.lean ====
import Mathlib.Data.EReal.Basic
import Mathlib.Data.EReal.Operations
import Mathlib.Algebra.BigOperators.Group.Finset.Basic
import Mathlib.Algebra.BigOperators.Ring.Finset
import Mathlib.Tactic.Ring
import proofs.«430219_j41016937677162_3_alg».proof.Proof.Spec

noncomputable section

namespace Cert.Spec

open Idealize.ShloMosaic

theorem coe_sum {ι : Type*} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

theorem first_folded_eq_plain {n : Nat} (x : Fin n → Fin 146 → EReal) (E : Fin 146 → Fin 146 → EReal)
    (e : Fin 146 → EReal) (W : Fin 146 → Fin 146 → EReal)
    (hx : ∀ p j, ∃ r : ℝ, x p j = (r : EReal)) (hE : ∀ j k, ∃ r : ℝ, E j k = r)
    (he : ∀ j, ∃ r : ℝ, e j = r) (hW : ∀ j k, ∃ r : ℝ, W j k = r) :
    first_folded x E e W = first_plain x E e W := by
  choose xr hxr using hx
  choose Er hEr using hE
  choose er her using he
  choose Wr hWr using hW
  funext p q
  simp only [first_folded, first_plain, mm, addRow, hxr, hEr, her, hWr]
  simp only [← EReal.coe_mul, ← coe_sum, ← EReal.coe_add]
  congr 1
  simp only [Finset.mul_sum, Finset.sum_mul, add_mul, Finset.sum_add_distrib]
  congr 1
  rw [Finset.sum_comm]
  refine Finset.sum_congr rfl (fun k _ => Finset.sum_congr rfl (fun j _ => ?_))
  ring

theorem eq_ofNat_iff_toInt (b : BitVec 32) (g : Fin 256) :
    b = BitVec.ofNat 32 g.val ↔ b.toInt = (g.val : ℤ) := by
  have hg := g.isLt
  have hb := b.isLt
  rw [← BitVec.toNat_inj, BitVec.toNat_ofNat, BitVec.toInt_eq_toNat_cond]
  have h : g.val % 2 ^ 32 = g.val := Nat.mod_eq_of_lt (by omega)
  rw [h]
  split <;> omega

theorem onehot_mul (b : BitVec 32) (g : Fin 256) (y : EReal) :
    (if b = BitVec.ofNat 32 g.val then (1 : EReal) else 0) * y = if b.toInt = (g.val : ℤ) then y else 0 := by
  by_cases h : b = BitVec.ofNat 32 g.val
  · rw [if_pos h, if_pos ((eq_ofNat_iff_toInt b g).1 h), one_mul]
  · rw [if_neg h, if_neg (fun h' => h ((eq_ofNat_iff_toInt b g).2 h')), zero_mul]

theorem sum_onehot_eq_groupSum {n C : Nat} (grp : Fin n → BitVec 32) (h : Fin n → Fin C → EReal) (g : Fin 256)
    (q : Fin C) :
    (∑ k : Fin n, (if grp k = BitVec.ofNat 32 g.val then (1 : EReal) else 0) * h k q) = groupSum grp h g q := by
  unfold groupSum
  exact Finset.sum_congr rfl (fun k _ => onehot_mul (grp k) g (h k q))

theorem sum_onehot_eq_groupCount {n : Nat} (grp : Fin n → BitVec 32) (g : Fin 256) :
    (∑ k : Fin n, (if grp k = BitVec.ofNat 32 g.val then (1 : EReal) else 0) * 1) = groupCount grp g := by
  unfold groupCount
  exact Finset.sum_congr rfl (fun k _ => onehot_mul (grp k) g 1)

end Cert.Spec

end
-- ==== Proof.KI.Final.lean ====
import proofs.«430219_j41016937677162_3_alg».proof.Proof.KI.Run
import proofs.«430219_j41016937677162_3_alg».proof.Proof.KI.ValLin
import proofs.«430219_j41016937677162_3_alg».proof.Proof.KI.ValMlp
import proofs.«430219_j41016937677162_3_alg».proof.Proof.KI.ValPool
import proofs.«430219_j41016937677162_3_alg».proof.Proof.KI.HostVal
import proofs.«430219_j41016937677162_3_alg».proof.Proof.SpecLaws

set_option maxRecDepth 16384

noncomputable section

namespace Cert.KernelIdeal.Val

open Cert.KernelIdeal Cert.KernelIdeal.Gen Cert.KernelIdeal.Hand Cert.Spec
open Idealize.ShloMosaic Idealize.ShloMosaic.TcCoe Idealize.ShloMosaic.ValueIdx Idealize.SL.Sem
open Idealize.ShloMosaic.StableHlo

theorem layer_congr {n : Nat} {A A' : Fin n → Fin 146 → EReal} {b b' : Fin 146 → EReal} {W W' : Fin 146 → Fin 146 → EReal}
    (hA : ∀ p j, A p j = A' p j) (hb : ∀ j, b j = b' j) (hW : ∀ j q, W j q = W' j q) (p : Fin n) (q : Fin 146) :
    layer A b W p q = layer A' b' W' p q := by
  rw [funext₂ hA, funext hb, funext₂ hW]

theorem readout_congr {hg hg' : Fin 256 → Fin 146 → EReal} {W1 W1' : Fin 146 → Fin 73 → EReal} {b1 b1' : Fin 73 → EReal}
    {W2 W2' : Fin 73 → Fin 36 → EReal} {b2 b2' : Fin 36 → EReal} {W3 W3' : Fin 36 → Fin 10 → EReal} {b3 b3' : Fin 10 → EReal}
    (h0 : ∀ g j, hg g j = hg' g j) (h1 : ∀ j q, W1 j q = W1' j q) (h2 : ∀ q, b1 q = b1' q) (h3 : ∀ j q, W2 j q = W2' j q)
    (h4 : ∀ q, b2 q = b2' q) (h5 : ∀ j q, W3 j q = W3' j q) (h6 : ∀ q, b3 q = b3' q) (g : Fin 256) (o : Fin 10) :
    readout hg W1 b1 W2 b2 W3 b3 g o = readout hg' W1' b1' W2' b2' W3' b3' g o := by
  rw [funext₂ h0, funext₂ h1, funext h2, funext₂ h3, funext h4, funext₂ h5, funext h6]

variable (m : (ℓ : Loc nD τ sig) → Buf (Elt Ideal) ℓ) (ρ : Dev nD → PrngReg) (c : Dev nD)

abbrev aX : Fin 100000 → Fin 146 → EReal := fun p j => (W0 m ρ c (Proc.devRef .tc main_arg0) : S100000x146.Idx → EReal) (ix2 p j)

abbrev aGrp : Fin 100000 → BitVec 32 := fun n => (W0 m ρ c (Proc.devRef .tc main_arg2) : S100000.Idx → BitVec 32) (ix1 n)

abbrev aW1 : Fin 146 → Fin 73 → EReal := fun j q => (W0 m ρ c (Proc.devRef .tc main_arg7) : S146x73.Idx → EReal) (ix2 j q)
abbrev ab1 : Fin 73 → EReal := fun q => (W0 m ρ c (Proc.devRef .tc main_arg8) : S73.Idx → EReal) (ix1 q)
abbrev aW2 : Fin 73 → Fin 36 → EReal := fun j q => (W0 m ρ c (Proc.devRef .tc main_arg9) : S73x36.Idx → EReal) (ix2 j q)
abbrev ab2 : Fin 36 → EReal := fun q => (W0 m ρ c (Proc.devRef .tc main_arg10) : S36.Idx → EReal) (ix1 q)
abbrev aW3 : Fin 36 → Fin 10 → EReal := fun j q => (W0 m ρ c (Proc.devRef .tc main_arg11) : S36x10.Idx → EReal) (ix2 j q)
abbrev ab3 : Fin 10 → EReal := fun q => (W0 m ρ c (Proc.devRef .tc main_arg12) : S10.Idx → EReal) (ix1 q)

def edgeSumK (A : Fin 100000 → Fin 146 → EReal) : Fin 100000 → Fin 146 → EReal :=
  fun p q => edgeSumArr (W1 m ρ c (Proc.devRef .tc main_v1)) (W1 m ρ c (Proc.devRef .tc main_v3)) (fun i => A (i 0) (i 1)) (ix2 p q)

theorem edgeSumK_eq (A : Fin 100000 → Fin 146 → EReal) (p : Fin 100000) (q : Fin 146) :
    edgeSumK m ρ c A p q
      = edgeSumArr (StableHlo.after (hostOps0 (F := Ideal)) (W0 m ρ c) (Proc.devRef .tc main_v1))
          (StableHlo.after (hostOps0 (F := Ideal)) (W0 m ρ c) (Proc.devRef .tc main_v3)) (fun i => A (i 0) (i 1)) (ix2 p q) := rfl

def hw0 : Fin 100000 → Fin 146 → EReal :=
  first_folded (aX m ρ c) (argE (W0 m ρ c)) (arge (W0 m ρ c)) (argW (W0 m ρ c) 0)
def hw1 : Fin 100000 → Fin 146 → EReal := layer (edgeSumK m ρ c (hw0 m ρ c)) (argB (W0 m ρ c) 0) (argW (W0 m ρ c) 1)
def hw2 : Fin 100000 → Fin 146 → EReal := layer (edgeSumK m ρ c (hw1 m ρ c)) (argB (W0 m ρ c) 1) (argW (W0 m ρ c) 2)
def hw3 : Fin 100000 → Fin 146 → EReal := layer (edgeSumK m ρ c (hw2 m ρ c)) (argB (W0 m ρ c) 2) (argW (W0 m ρ c) 3)
def nodesK : Fin 100000 → Fin 146 → EReal := relu (addRow (edgeSumK m ρ c (hw3 m ρ c)) (argB (W0 m ρ c) 3))

-- The contents at boundary `n` of the run, by its number.
def Wat (n : ℕ) : Valuation τ sig (Elt Ideal) :=
  match n with
  | 0 => W0 m ρ c | 1 => W1 m ρ c | 2 => W2 m ρ c | 3 => W3 m ρ c | 4 => W4 m ρ c | 5 => W5 m ρ c | 6 => W6 m ρ c
  | 7 => W7 m ρ c | 8 => W8 m ρ c | 9 => W9 m ρ c | 10 => W10 m ρ c | 11 => W11 m ρ c | _ => W12 m ρ c

-- Segment `i` (a host stretch for even `i`, a region for odd `i`) neither writes `b` nor has a window on it.
def Untouched (i : ℕ) (b : Ref sig .tc) : Prop :=
  match i with
  | 0 => b ∉ hostOps0_W | 1 => ∀ w, Pipeline.arrRef spec0 w ≠ b | 2 => b ∉ hostOps1_W | 3 => ∀ w, Pipeline.arrRef spec1 w ≠ b
  | 4 => b ∉ hostOps2_W | 5 => ∀ w, Pipeline.arrRef spec2 w ≠ b | 6 => b ∉ hostOps3_W | 7 => ∀ w, Pipeline.arrRef spec3 w ≠ b
  | 8 => b ∉ hostOps4_W | 9 => ∀ w, Pipeline.arrRef spec4 w ≠ b | 10 => b ∉ hostOps5_W | 11 => ∀ w, Pipeline.arrRef spec5 w ≠ b
  | _ => False

instance (i : ℕ) (b : Ref sig .tc) : Decidable (Untouched i b) := by unfold Untouched; split <;> infer_instance

theorem carry_step (b : Ref sig .tc) : ∀ i, Untouched i b → Wat m ρ c (i + 1) (Proc.devRef .tc b) = Wat m ρ c i (Proc.devRef .tc b)
  | 0, h => (StableHlo.after_of_writes_sub hostOps0 _ hostOps0_writes h : W1 m ρ c _ = W0 m ρ c _)
  | 1, h => (Pipeline.withArrays_of_ne spec0 c _ _ b h : W2 m ρ c _ = W1 m ρ c _)
  | 2, h => (StableHlo.after_of_writes_sub hostOps1 _ hostOps1_writes h : W3 m ρ c _ = W2 m ρ c _)
  | 3, h => (Pipeline.withArrays_of_ne spec1 c _ _ b h : W4 m ρ c _ = W3 m ρ c _)
  | 4, h => (StableHlo.after_of_writes_sub hostOps2 _ hostOps2_writes h : W5 m ρ c _ = W4 m ρ c _)
  | 5, h => (Pipeline.withArrays_of_ne spec2 c _ _ b h : W6 m ρ c _ = W5 m ρ c _)
  | 6, h => (StableHlo.after_of_writes_sub hostOps3 _ hostOps3_writes h : W7 m ρ c _ = W6 m ρ c _)
  | 7, h => (Pipeline.withArrays_of_ne spec3 c _ _ b h : W8 m ρ c _ = W7 m ρ c _)
  | 8, h => (StableHlo.after_of_writes_sub hostOps4 _ hostOps4_writes h : W9 m ρ c _ = W8 m ρ c _)
  | 9, h => (Pipeline.withArrays_of_ne spec4 c _ _ b h : W10 m ρ c _ = W9 m ρ c _)
  | 10, h => (StableHlo.after_of_writes_sub hostOps5 _ hostOps5_writes h : W11 m ρ c _ = W10 m ρ c _)
  | 11, h => (Pipeline.withArrays_of_ne spec5 c _ _ b h : W12 m ρ c _ = W11 m ρ c _)
  | _ + 12, h => h.elim

-- A reference that every segment from boundary `k` to boundary `n` leaves alone holds at `n` what it held at `k`.
theorem carry (b : Ref sig .tc) (k : ℕ) : ∀ n, (k ≤ n ∧ ∀ i, i < n → k ≤ i → Untouched i b) →
    Wat m ρ c n (Proc.devRef .tc b) = Wat m ρ c k (Proc.devRef .tc b)
  | 0, ⟨hk, _⟩ => by rw [Nat.le_zero.mp hk]
  | n + 1, ⟨hk, h⟩ => by
    rcases Nat.lt_or_ge n k with hlt | hge
    · rw [show k = n + 1 by omega]
    · exact (carry_step m ρ c b n (h n n.lt_succ_self hge)).trans (carry b k n ⟨hge, fun i hi => h i (Nat.lt_succ_of_lt hi)⟩)

-- The neighbour sum at boundary `n` is the one over the first stretch's index arrays, which no later segment touches.
theorem agg_of (n : ℕ) (h1 : 1 ≤ n ∧ ∀ i, i < n → 1 ≤ i → Untouched i main_v1) (h3 : 1 ≤ n ∧ ∀ i, i < n → 1 ≤ i → Untouched i main_v3)
    (X : S100000x146.Idx → EReal) (A : Fin 100000 → Fin 146 → EReal) (hX : ∀ p q, X (ix2 p q) = A p q) (p : Fin 100000) (j : Fin 146) :
    edgeSumArr (Wat m ρ c n (Proc.devRef .tc main_v1)) (Wat m ρ c n (Proc.devRef .tc main_v3)) X (ix2 p j) = edgeSumK m ρ c A p j := by
  rw [carry m ρ c main_v1 1 n h1, carry m ρ c main_v3 1 n h3,
    show X = fun i => A (i 0) (i 1) from funext fun i => (congrArg X (eq_ix2 i)).trans (hX _ _)]
  rfl

theorem addRow_mm_congr {n k l : Nat} {x x' : Fin n → Fin k → EReal} {M M' : Fin k → Fin l → EReal} {b b' : Fin l → EReal}
    (hx : ∀ p j, x p j = x' p j) (hM : ∀ j q, M j q = M' j q) (hb : ∀ q, b q = b' q) (p : Fin n) (q : Fin l) :
    addRow (mm x M) b p q = addRow (mm x' M') b' p q := by
  rw [funext₂ hx, funext₂ hM, funext hb]

theorem stage_hw0 (p : Fin 100000) (q : Fin 146) :
    (W2 m ρ c (Proc.devRef .tc main_v14) : S100000x146.Idx → EReal) (ix2 p q) = hw0 m ρ c p q := by
  refine (congrFun (Pipeline.withArrays_arr spec0 launch0.win.arr_inj c _ _ 3) (ix2 p q)).trans ?_
  refine (val0 (V1 m ρ) c p q).trans ?_
  show _ = addRow (mm (aX m ρ c) (mm (argE (W0 m ρ c)) (argW (W0 m ρ c) 0)))
      (fun q => ∑ j : Fin 146, arge (W0 m ρ c) j * argW (W0 m ρ c) 0 j q) p q
  refine addRow_mm_congr (fun p j => ?_) (fun j q => v7_apply (W0 m ρ c) j q) (fun q => v13_apply (W0 m ρ c) 0 q) p q
  exact congrFun (carry m ρ c main_arg0 0 1 (by decide)) _

theorem stage_agg0 (p : Fin 100000) (j : Fin 146) :
    (W3 m ρ c (Proc.devRef .tc main_v24) : S100000x146.Idx → EReal) (ix2 p j) = edgeSumK m ρ c (hw0 m ρ c) p j :=
  (congrFun (v24_term (W2 m ρ c)) (ix2 p j)).trans (agg_of m ρ c 2 (by decide) (by decide) _ _ (stage_hw0 m ρ c) p j)

theorem stage_hw1 (p : Fin 100000) (q : Fin 146) :
    (W4 m ρ c (Proc.devRef .tc main_v30) : S100000x146.Idx → EReal) (ix2 p q) = hw1 m ρ c p q :=
  (congrFun (Pipeline.withArrays_arr spec1 launch1.win.arr_inj c _ _ 3) (ix2 p q)).trans <| (val1 (V3 m ρ) c p q).trans <| layer_congr (stage_agg0 m ρ c)
    (fun j => (v29_apply (W2 m ρ c) 0 j).trans (congrFun (carry m ρ c main_arg6 0 2 (by decide)) _)) (fun j q => (v28_apply (W2 m ρ c) j q).trans (congrFun (carry m ρ c main_arg5 0 2 (by decide)) _)) p q

theorem stage_agg1 (p : Fin 100000) (j : Fin 146) :
    (W5 m ρ c (Proc.devRef .tc main_v40) : S100000x146.Idx → EReal) (ix2 p j) = edgeSumK m ρ c (hw1 m ρ c) p j :=
  (congrFun (v40_term (W4 m ρ c)) (ix2 p j)).trans (agg_of m ρ c 4 (by decide) (by decide) _ _ (stage_hw1 m ρ c) p j)

theorem stage_hw2 (p : Fin 100000) (q : Fin 146) :
    (W6 m ρ c (Proc.devRef .tc main_v46) : S100000x146.Idx → EReal) (ix2 p q) = hw2 m ρ c p q :=
  (congrFun (Pipeline.withArrays_arr spec2 launch2.win.arr_inj c _ _ 3) (ix2 p q)).trans <| (val2 (V5 m ρ) c p q).trans <| layer_congr (stage_agg1 m ρ c)
    (fun j => (v45_apply (W4 m ρ c) 0 j).trans (congrFun (carry m ρ c main_arg6 0 4 (by decide)) _)) (fun j q => (v44_apply (W4 m ρ c) j q).trans (congrFun (carry m ρ c main_arg5 0 4 (by decide)) _)) p q

theorem stage_agg2 (p : Fin 100000) (j : Fin 146) :
    (W7 m ρ c (Proc.devRef .tc main_v56) : S100000x146.Idx → EReal) (ix2 p j) = edgeSumK m ρ c (hw2 m ρ c) p j :=
  (congrFun (v56_term (W6 m ρ c)) (ix2 p j)).trans (agg_of m ρ c 6 (by decide) (by decide) _ _ (stage_hw2 m ρ c) p j)

theorem stage_hw3 (p : Fin 100000) (q : Fin 146) :
    (W8 m ρ c (Proc.devRef .tc main_v62) : S100000x146.Idx → EReal) (ix2 p q) = hw3 m ρ c p q :=
  (congrFun (Pipeline.withArrays_arr spec3 launch3.win.arr_inj c _ _ 3) (ix2 p q)).trans <| (val3 (V7 m ρ) c p q).trans <| layer_congr (stage_agg2 m ρ c)
    (fun j => (v61_apply (W6 m ρ c) 0 j).trans (congrFun (carry m ρ c main_arg6 0 6 (by decide)) _)) (fun j q => (v60_apply (W6 m ρ c) j q).trans (congrFun (carry m ρ c main_arg5 0 6 (by decide)) _)) p q

theorem stage_agg3 (p : Fin 100000) (j : Fin 146) :
    (W9 m ρ c (Proc.devRef .tc main_v72) : S100000x146.Idx → EReal) (ix2 p j) = edgeSumK m ρ c (hw3 m ρ c) p j :=
  (congrFun (v72_term (W8 m ρ c)) (ix2 p j)).trans (agg_of m ρ c 8 (by decide) (by decide) _ _ (stage_hw3 m ρ c) p j)

theorem pool_grp_eq (k : Fin 100000) : pool_grp (V9 m ρ) c (ix2 k 0) = aGrp m ρ c k := by
  exact (congrFun (carry m ρ c main_v4 1 9 (by decide)) _).trans (v4_apply (W0 m ρ c) k 0)

theorem pool_b_eq (d : Fin 146) : pool_b (V9 m ρ) c (ix2 0 d) = argB (W0 m ρ c) 3 d := by
  refine (v75_apply (W8 m ρ c) 0 d).trans ?_
  exact congrFun (carry m ρ c main_arg6 0 8 (by decide)) _

theorem stage_pool_sum (g : Fin 256) (d : Fin 146) :
    (W10 m ρ c (Proc.devRef .tc main_v76) : S256x147.Idx → EReal) (ix2 g (⟨d.val, Nat.lt_succ_of_lt d.isLt⟩ : Fin 147))
      = groupSum (aGrp m ρ c) (nodesK m ρ c) g d := by
  refine (congrFun (Pipeline.withArrays_arr spec4 launch4.win.arr_inj c _ _ 3) (ix2 g (⟨d.val, Nat.lt_succ_of_lt d.isLt⟩ : Fin 147))).trans ?_
  refine (val4 (V9 m ρ) c g (⟨d.val, Nat.lt_succ_of_lt d.isLt⟩ : Fin 147)).trans ?_
  show (_ : EReal) = _
  rw [← sum_onehot_eq_groupSum]
  refine Finset.sum_congr rfl fun k _ => ?_
  unfold poolTerm
  rw [dif_pos d.isLt, pool_grp_eq m ρ c k]
  refine congrArg (fun y => (if aGrp m ρ c k = BitVec.ofNat 32 g.val then (1 : EReal) else 0) * y) ?_
  exact congrArg₂ (fun (a b : EReal) => max (a + b) 0) (stage_agg3 m ρ c k d) (pool_b_eq m ρ c d)

theorem stage_pool_cnt (g : Fin 256) :
    (W10 m ρ c (Proc.devRef .tc main_v76) : S256x147.Idx → EReal) (ix2 g (⟨146, by decide⟩ : Fin 147)) = groupCount (aGrp m ρ c) g := by
  refine (congrFun (Pipeline.withArrays_arr spec4 launch4.win.arr_inj c _ _ 3) (ix2 g (⟨146, by decide⟩ : Fin 147))).trans ?_
  refine (val4 (V9 m ρ) c g (⟨146, by decide⟩ : Fin 147)).trans ?_
  show (_ : EReal) = _
  rw [← sum_onehot_eq_groupCount]
  refine Finset.sum_congr rfl fun k _ => ?_
  unfold poolTerm
  rw [dif_neg (by decide), pool_grp_eq m ρ c k]

theorem stage_mean (g : Fin 256) (d : Fin 146) :
    (W11 m ρ c (Proc.devRef .tc main_v82) : S256x146.Idx → EReal) (ix2 g d) = groupMean (aGrp m ρ c) (nodesK m ρ c) g d := by
  refine (v82_apply (W10 m ρ c) g d).trans ?_
  rw [stage_pool_sum m ρ c g d, stage_pool_cnt m ρ c g]
  rfl

theorem kernel_val (g : Fin 256) (o : Fin 10) :
    (W12 m ρ c (Proc.devRef .tc main_v86) : S256x10.Idx → EReal) (ix2 g o)
      = readout (groupMean (aGrp m ρ c) (nodesK m ρ c)) (aW1 m ρ c) (ab1 m ρ c) (aW2 m ρ c) (ab2 m ρ c) (aW3 m ρ c) (ab3 m ρ c) g o := by
  refine (congrFun (Pipeline.withArrays_arr spec5 launch5.win.arr_inj c _ _ 7) (ix2 g o)).trans ?_
  refine (val5 (V11 m ρ) c g o).trans ?_
  exact readout_congr (stage_mean m ρ c) (fun j q => congrFun (carry m ρ c main_arg7 0 11 (by decide)) _)
    (fun q => (v83_apply (W10 m ρ c) 0 q).trans (congrFun (carry m ρ c main_arg8 0 10 (by decide)) _))
    (fun j q => congrFun (carry m ρ c main_arg9 0 11 (by decide)) _)
    (fun q => (v84_apply (W10 m ρ c) 0 q).trans (congrFun (carry m ρ c main_arg10 0 10 (by decide)) _))
    (fun j q => congrFun (carry m ρ c main_arg11 0 11 (by decide)) _)
    (fun q => (v85_apply (W10 m ρ c) 0 q).trans (congrFun (carry m ρ c main_arg12 0 10 (by decide)) _)) g o

end Cert.KernelIdeal.Val

end
-- ==== Proof.RefSide.lean ====
import proofs.«430219_j41016937677162_3_alg».proof.Defs
import proofs.«430219_j41016937677162_3_alg».proof.Proof.Gen.ReferenceIdeal.Run
import proofs.«430219_j41016937677162_3_alg».proof.Proof.Gen.ReferenceIdeal.Read
-- ==== Proof.LibScatterRows.lean ====
import Idealize.ShloMosaic.PureOps.Ideal
import Idealize.ShloMosaic.Lib.StableHlo.Predicate

noncomputable section

namespace Idealize.ShloMosaic.ScatterRows

open Idealize.ShloMosaic Idealize.ShloMosaic.StableHlo.Predicate

theorem resultIdx?_eq_some_iff {s si u : Shape} (d : ScatterDims s si u) {w : Nat} (j : u.Idx) (idx : IVec si w)
    (i : s.Idx) :
    d.resultIdx? j idx = some i ↔ ∀ a, d.start j idx a + (d.window j a : ℤ) = ((i a).val : ℤ) := by
  unfold ScatterDims.resultIdx?
  constructor
  · intro h a
    split at h
    · next hh =>
      have h1 := Option.some.inj h
      have ha := congrArg Fin.val (congrFun h1 a)
      simp only at ha
      have := hh a
      omega
    · exact absurd h (by simp)
  · intro h
    have hh : ∀ a, 0 ≤ d.start j idx a + d.window j a ∧ d.start j idx a + d.window j a < s.size a := by
      intro a; have := h a; have := (i a).isLt; omega
    rw [dif_pos hh]
    congr 1
    funext a
    apply Fin.ext
    show (d.start j idx a + d.window j a).toNat = (i a).val
    have := h a; omega

private theorem start_of_scatter {s u : Shape} {n w : Nat} (d : ScatterDims s ⟨2, ![n, 1]⟩ u) {a : Fin s.rank}
    (hsd : d.scatterDimsToOperandDims = [a]) (hivd : d.indexVectorDim = 1) (idx : IVec ⟨2, ![n, 1]⟩ w) (j : u.Idx) (k : Fin n)
    (hj : ∀ X ∈ d.uScatter, (j X).val = k.val) : d.start j idx a = (idx (ixP k)).toInt := by
  have hm : a ∈ d.scatterDimsToOperandDims := by rw [hsd]; exact List.mem_singleton.mpr rfl
  unfold ScatterDims.start
  rw [dif_pos hm]
  congr 2
  funext b
  match b with
  | ⟨0, _⟩ =>
    unfold ScatterDims.siIdx
    rw [dif_neg (by rw [hivd]; simp)]
    unfold ScatterDims.siCoord
    apply Fin.ext
    simp only [Fin.val_cast]
    exact hj _ (List.getElem_mem _)
  | ⟨1, _⟩ =>
    unfold ScatterDims.siIdx
    rw [dif_pos (by rw [hivd])]
    apply Fin.ext
    show List.idxOf a d.scatterDimsToOperandDims = 0
    rw [hsd]; simp

private theorem window_zero {s si u : Shape} (d : ScatterDims s si u) (j : u.Idx) {a : Fin s.rank} (hk : a ∉ d.sKept) :
    d.window j a = 0 := by
  unfold ScatterDims.window
  rw [dif_neg hk]

theorem resultIdx?_scalars {N n w : Nat} (d : ScatterDims ⟨1, ![N]⟩ ⟨2, ![n, 1]⟩ ⟨1, ![n]⟩)
    (hwin : d.updateWindowDims = []) (hins : d.insertedWindowDims = [0]) (hsd : d.scatterDimsToOperandDims = [0])
    (hivd : d.indexVectorDim = 1) (idx : IVec ⟨2, ![n, 1]⟩ w) (k : Fin n) (i : (⟨1, ![N]⟩ : Shape).Idx) :
    d.resultIdx? (Shape.Idx.ofFin k) idx = some i ↔ (idx (ixP k)).toInt = ((i 0).val : ℤ) := by
  rw [resultIdx?_eq_some_iff]
  have h0 : d.start (Shape.Idx.ofFin k) idx 0 + (d.window (Shape.Idx.ofFin k) 0 : ℤ) = (idx (ixP k)).toInt := by
    rw [start_of_scatter d hsd hivd idx _ k fun X _ => by obtain rfl : X = 0 := Subsingleton.elim _ _; rfl,
      window_zero d _ (by simp [ScatterDims.sKept, Shape.kept, hins])]; simp
  rw [Fin.forall_fin_one, h0]

private def idx1Equiv (n : Nat) : (⟨1, ![n]⟩ : Shape).Idx ≃ Fin n where
  toFun j := j 0
  invFun := Shape.Idx.ofFin
  left_inv j := (Shape.Idx.eq_ofFin j).symm
  right_inv k := Shape.Idx.ofFin_zero k

theorem scatterAdd_scalars_apply {N n w : Nat} (d : ScatterDims ⟨1, ![N]⟩ ⟨2, ![n, 1]⟩ ⟨1, ![n]⟩)
    (hwin : d.updateWindowDims = []) (hins : d.insertedWindowDims = [0]) (hsd : d.scatterDimsToOperandDims = [0])
    (hivd : d.indexVectorDim = 1) (x : (⟨1, ![N]⟩ : Shape).Idx → EReal) (idx : IVec ⟨2, ![n, 1]⟩ w)
    (upd : (⟨1, ![n]⟩ : Shape).Idx → EReal) (i : (⟨1, ![N]⟩ : Shape).Idx) :
    Ideal.hostScatterAdd d x idx upd i
      = x i + ∑ k : Fin n, if (idx (ixP k)).toInt = ((i 0).val : ℤ) then upd (Shape.Idx.ofFin k) else 0 := by
  unfold Ideal.hostScatterAdd
  congr 1
  rw [Finset.sum_filter]
  rw [← Equiv.sum_comp (idx1Equiv n).symm]
  refine Finset.sum_congr rfl (fun k _ => ?_)
  exact if_congr (resultIdx?_scalars d hwin hins hsd hivd idx k i) rfl rfl

private theorem start_rows_one {R C n w : Nat} (d : ScatterDims ⟨2, ![R, C]⟩ ⟨2, ![n, 1]⟩ ⟨2, ![n, C]⟩)
    (hsd : d.scatterDimsToOperandDims = [0]) (idx : IVec ⟨2, ![n, 1]⟩ w) (j : (⟨2, ![n, C]⟩ : Shape).Idx) :
    d.start j idx 1 = 0 := by
  have hm : (1 : Fin 2) ∉ d.scatterDimsToOperandDims := by rw [hsd]; simp
  unfold ScatterDims.start
  rw [dif_neg hm]

private theorem window_rows_one {R C n : Nat} (d : ScatterDims ⟨2, ![R, C]⟩ ⟨2, ![n, 1]⟩ ⟨2, ![n, C]⟩)
    (hwin : d.updateWindowDims = [1]) (hins : d.insertedWindowDims = [0]) (k : Fin n) (q : Fin C) :
    d.window (ij k q) 1 = q.val := by
  have hk : (1 : Fin 2) ∈ d.sKept := by
    simp [ScatterDims.sKept, Shape.kept, hins]
  unfold ScatterDims.window
  rw [dif_pos hk]
  have e : ∀ X : Fin 2, X ∈ d.updateWindowDims → ((ij k q : (⟨2, ![n, C]⟩ : Shape).Idx) X).val = q.val := fun X hX => by
    rw [hwin] at hX
    have hX1 : X = 1 := List.mem_singleton.mp hX
    subst hX1; rfl
  exact e _ (List.getElem_mem _)

theorem resultIdx?_rows {R C n w : Nat} (d : ScatterDims ⟨2, ![R, C]⟩ ⟨2, ![n, 1]⟩ ⟨2, ![n, C]⟩)
    (hwin : d.updateWindowDims = [1]) (hins : d.insertedWindowDims = [0]) (hsd : d.scatterDimsToOperandDims = [0])
    (hivd : d.indexVectorDim = 1) (idx : IVec ⟨2, ![n, 1]⟩ w) (k : Fin n) (q : Fin C) (i : (⟨2, ![R, C]⟩ : Shape).Idx) :
    d.resultIdx? (ij k q) idx = some i ↔ (idx (ixP k)).toInt = ((i 0).val : ℤ) ∧ q.val = (i 1).val := by
  rw [resultIdx?_eq_some_iff]
  have h0 : d.start (ij k q) idx 0 + (d.window (ij k q) 0 : ℤ) = (idx (ixP k)).toInt := by
    rw [start_of_scatter d hsd hivd idx _ k fun X hX => by
        simp only [ScatterDims.uScatter, Shape.kept, hwin, List.mem_filter] at hX
        match X, hX.2 with
        | ⟨0, _⟩, _ => rfl
        | ⟨1, _⟩, h => simp at h,
      window_zero d _ (by simp [ScatterDims.sKept, Shape.kept, hins])]; simp
  have h1 : d.start (ij k q) idx 1 + (d.window (ij k q) 1 : ℤ) = (q.val : ℤ) := by
    rw [start_rows_one d hsd, window_rows_one d hwin hins]; simp
  rw [Fin.forall_fin_two, h0, h1, Nat.cast_inj]

private def idx2Equiv (n m : Nat) : (⟨2, ![n, m]⟩ : Shape).Idx ≃ Fin n × Fin m where
  toFun i := (i 0, i 1)
  invFun p := ij p.1 p.2
  left_inv i := ij_eta i
  right_inv _ := rfl

private theorem sum_ite_and_val {C : Nat} {M : Type*} [AddCommMonoid M] (P : Prop) [Decidable P] (c : Fin C)
    (f : Fin C → M) :
    (∑ q : Fin C, if P ∧ q.val = c.val then f q else 0) = if P then f c else 0 := by
  by_cases hP : P <;> simp [hP, Fin.val_inj]

theorem scatterAdd_rows_apply {R C n w : Nat} (d : ScatterDims ⟨2, ![R, C]⟩ ⟨2, ![n, 1]⟩ ⟨2, ![n, C]⟩)
    (hwin : d.updateWindowDims = [1]) (hins : d.insertedWindowDims = [0]) (hsd : d.scatterDimsToOperandDims = [0])
    (hivd : d.indexVectorDim = 1) (x : (⟨2, ![R, C]⟩ : Shape).Idx → EReal) (idx : IVec ⟨2, ![n, 1]⟩ w)
    (upd : (⟨2, ![n, C]⟩ : Shape).Idx → EReal) (i : (⟨2, ![R, C]⟩ : Shape).Idx) :
    Ideal.hostScatterAdd d x idx upd i
      = x i + ∑ k : Fin n, if (idx (ixP k)).toInt = ((i 0).val : ℤ) then upd (ij k (i 1)) else 0 := by
  unfold Ideal.hostScatterAdd
  congr 1
  rw [Finset.sum_filter]
  rw [← Equiv.sum_comp (idx2Equiv n C).symm, Fintype.sum_prod_type]
  refine Finset.sum_congr rfl (fun k _ => ?_)
  rw [← sum_ite_and_val ((idx (ixP k)).toInt = ((i 0).val : ℤ)) (i 1) (fun q => upd (ij k q))]
  refine Finset.sum_congr rfl (fun q _ => ?_)
  show (if d.resultIdx? (ij k q) idx = some i then upd (ij k q) else 0) = _
  exact if_congr (resultIdx?_rows d hwin hins hsd hivd idx k q i) rfl rfl

end Idealize.ShloMosaic.ScatterRows

end
-- ==== Proof.RefVal.lean ====
import proofs.«430219_j41016937677162_3_alg».proof.Proof.RefSide
import proofs.«430219_j41016937677162_3_alg».proof.Proof.Spec
import proofs.«430219_j41016937677162_3_alg».proof.Proof.LibScatterRows

noncomputable section

namespace Cert.ReferenceIdeal.RefVal

open Cert.ReferenceIdeal Cert.ReferenceIdeal.Gen Cert.ReferenceIdeal.Read Cert.Spec
open Idealize.ShloMosaic Idealize.ShloMosaic.ValueIdx Idealize.ShloMosaic.StableHlo Idealize.ShloMosaic.StableHlo.Predicate

def edgeSum (x1 : (⟨S2x500000, .i32⟩ : BufTy).Contents (Elt Ideal)) (A : Fin 100000 → Fin 146 → EReal) :
    Fin 100000 → Fin 146 → EReal :=
  fun p q =>
    (Host.scatterAdd (F := Ideal) (φ := .f32) scatter_S100000x146_S500000x1_S500000x146_1_0_0_1 (val_main_v18 (F := Ideal))
      (val_main_v19 (F := Ideal) x1)
      (Host.gather gather_S100000x146_S500000x1_S500000x146_1_0_n_n_0_1_1146
        (fun i => A (i 0) (i 1)) (val_main_v16 (F := Ideal) x1))) (ix2 p q)

def X (x0 : (⟨S100000x146, .f32⟩ : BufTy).Contents (Elt Ideal)) : Fin 100000 → Fin 146 → EReal := fun p j => x0 (ix2 p j)

def E (x3 : (⟨S146x146, .f32⟩ : BufTy).Contents (Elt Ideal)) : Fin 146 → Fin 146 → EReal := fun j q => x3 (ix2 j q)

def e (x4 : (⟨S146, .f32⟩ : BufTy).Contents (Elt Ideal)) : Fin 146 → EReal := fun q => x4 (ix1 q)

def Wl (x5 : (⟨S4x146x146, .f32⟩ : BufTy).Contents (Elt Ideal)) (l : Fin 4) : Fin 146 → Fin 146 → EReal := fun j q => x5 (ix3 l j q)

def bl (x6 : (⟨S4x146, .f32⟩ : BufTy).Contents (Elt Ideal)) (l : Fin 4) : Fin 146 → EReal := fun q => x6 (ix2 l q)

def W1 (x7 : (⟨S146x73, .f32⟩ : BufTy).Contents (Elt Ideal)) : Fin 146 → Fin 73 → EReal := fun j q => x7 (ix2 j q)

def b1 (x8 : (⟨S73, .f32⟩ : BufTy).Contents (Elt Ideal)) : Fin 73 → EReal := fun q => x8 (ix1 q)

def W2 (x9 : (⟨S73x36, .f32⟩ : BufTy).Contents (Elt Ideal)) : Fin 73 → Fin 36 → EReal := fun j q => x9 (ix2 j q)

def b2 (x10 : (⟨S36, .f32⟩ : BufTy).Contents (Elt Ideal)) : Fin 36 → EReal := fun q => x10 (ix1 q)

def W3 (x11 : (⟨S36x10, .f32⟩ : BufTy).Contents (Elt Ideal)) : Fin 36 → Fin 10 → EReal := fun j q => x11 (ix2 j q)

def b3 (x12 : (⟨S10, .f32⟩ : BufTy).Contents (Elt Ideal)) : Fin 10 → EReal := fun q => x12 (ix1 q)

variable (x0 : (⟨S100000x146, .f32⟩ : BufTy).Contents (Elt Ideal)) (x1 : (⟨S2x500000, .i32⟩ : BufTy).Contents (Elt Ideal))
  (x2 : (⟨S100000, .i32⟩ : BufTy).Contents (Elt Ideal)) (x3 : (⟨S146x146, .f32⟩ : BufTy).Contents (Elt Ideal))
  (x4 : (⟨S146, .f32⟩ : BufTy).Contents (Elt Ideal)) (x5 : (⟨S4x146x146, .f32⟩ : BufTy).Contents (Elt Ideal))
  (x6 : (⟨S4x146, .f32⟩ : BufTy).Contents (Elt Ideal)) (x7 : (⟨S146x73, .f32⟩ : BufTy).Contents (Elt Ideal))
  (x8 : (⟨S73, .f32⟩ : BufTy).Contents (Elt Ideal)) (x9 : (⟨S73x36, .f32⟩ : BufTy).Contents (Elt Ideal))
  (x10 : (⟨S36, .f32⟩ : BufTy).Contents (Elt Ideal)) (x11 : (⟨S36x10, .f32⟩ : BufTy).Contents (Elt Ideal))
  (x12 : (⟨S10, .f32⟩ : BufTy).Contents (Elt Ideal))

def h0 : Fin 100000 → Fin 146 → EReal := first_plain (X x0) (E x3) (e x4) (Wl x5 0)

def h1 : Fin 100000 → Fin 146 → EReal := layer (edgeSum x1 (h0 x0 x3 x4 x5)) (bl x6 0) (Wl x5 1)

def h2 : Fin 100000 → Fin 146 → EReal := layer (edgeSum x1 (h1 x0 x1 x3 x4 x5 x6)) (bl x6 1) (Wl x5 2)

def h3 : Fin 100000 → Fin 146 → EReal := layer (edgeSum x1 (h2 x0 x1 x3 x4 x5 x6)) (bl x6 2) (Wl x5 3)

def nodes : Fin 100000 → Fin 146 → EReal := relu (addRow (edgeSum x1 (h3 x0 x1 x3 x4 x5 x6)) (bl x6 3))

theorem ofBits_one_f32 : Ideal.ofBits .f32 0x3F800000#32 = 1 := by
  simp [Ideal.ofBits, Ideal.ieee]
  rw [← EReal.coe_mul]
  norm_num

theorem zeros4_apply (i : S256x73.Idx) : val_main_call4_v0 (F := Ideal) i = (0 : EReal) :=
  (val_main_call4_v0_apply i).trans Ideal.ofBits_zero_f32

theorem zeros5_apply (i : S256x36.Idx) : val_main_call5_v0 (F := Ideal) i = (0 : EReal) :=
  (val_main_call5_v0_apply i).trans Ideal.ofBits_zero_f32

/-- The entry of a slab of the stacked matrices, named through its row-major position, is entry `(j, q)` of slab `l`. -/
theorem slab_idx {i : S4x146x146.Idx} {l : Fin 4} {j q : Fin 146} (h0 : (i 0).val = l.val)
    (h1 : (i 1).val = (j.val * 146 + q.val) / 146 % 146) (h2 : (i 2).val = (j.val * 146 + q.val) % 146) : i = ix3 l j q :=
  funext fun a => Fin.ext (by
    have hj := j.isLt; have hq := q.isLt
    match a with
    | ⟨0, _⟩ => exact h0
    | ⟨1, _⟩ => show (i 1).val = j.val; omega
    | ⟨2, _⟩ => show (i 2).val = q.val; omega)

theorem row_idx {i : S4x146.Idx} {l : Fin 4} {q : Fin 146} (h0 : (i 0).val = l.val) (h1 : (i 1).val = q.val % 146) : i = ix2 l q :=
  Shape.idx_ext₂ h0 (h1.trans (Nat.mod_eq_of_lt q.isLt))

theorem e_apply (p : Fin 100000) (q : Fin 146) : val_main_v6 (F := Ideal) x4 (ix2 p q) = e x4 q := by
  rw [val_main_v6_apply, val_main_v5_apply]; exact congrArg x4 (eq_ix1 _)

theorem w0_apply (j q : Fin 146) : val_main_v9 (F := Ideal) x5 (ix2 j q) = Wl x5 0 j q := by
  rw [val_main_v9_apply, val_main_v8_apply]; refine congrArg x5 (slab_idx ?_ ?_ ?_) <;> rfl

theorem w1_apply (j q : Fin 146) : val_main_v28 (F := Ideal) x5 (ix2 j q) = Wl x5 1 j q := by
  rw [val_main_v28_apply, val_main_v27_apply]; refine congrArg x5 (slab_idx ?_ ?_ ?_) <;> rfl

theorem w2_apply (j q : Fin 146) : val_main_v47 (F := Ideal) x5 (ix2 j q) = Wl x5 2 j q := by
  rw [val_main_v47_apply, val_main_v46_apply]; refine congrArg x5 (slab_idx ?_ ?_ ?_) <;> rfl

theorem w3_apply (j q : Fin 146) : val_main_v66 (F := Ideal) x5 (ix2 j q) = Wl x5 3 j q := by
  rw [val_main_v66_apply, val_main_v65_apply]; refine congrArg x5 (slab_idx ?_ ?_ ?_) <;> rfl

theorem bias0_apply (p : Fin 100000) (q : Fin 146) : val_main_v24 (F := Ideal) x6 (ix2 p q) = bl x6 0 q := by
  rw [val_main_v24_apply, val_main_v23_apply, val_main_v22_apply, val_main_v21_apply]; refine congrArg x6 (row_idx ?_ ?_) <;> rfl

theorem bias1_apply (p : Fin 100000) (q : Fin 146) : val_main_v43 (F := Ideal) x6 (ix2 p q) = bl x6 1 q := by
  rw [val_main_v43_apply, val_main_v42_apply, val_main_v41_apply, val_main_v40_apply]; refine congrArg x6 (row_idx ?_ ?_) <;> rfl

theorem bias2_apply (p : Fin 100000) (q : Fin 146) : val_main_v62 (F := Ideal) x6 (ix2 p q) = bl x6 2 q := by
  rw [val_main_v62_apply, val_main_v61_apply, val_main_v60_apply, val_main_v59_apply]; refine congrArg x6 (row_idx ?_ ?_) <;> rfl

theorem bias3_apply (p : Fin 100000) (q : Fin 146) : val_main_v81 (F := Ideal) x6 (ix2 p q) = bl x6 3 q := by
  rw [val_main_v81_apply, val_main_v80_apply, val_main_v79_apply, val_main_v78_apply]; refine congrArg x6 (row_idx ?_ ?_) <;> rfl

theorem rb1_apply (g : Fin 256) (q : Fin 73) : val_main_v98 (F := Ideal) x8 (ix2 g q) = b1 x8 q := by
  rw [val_main_v98_apply, val_main_v97_apply]; exact congrArg x8 (eq_ix1 _)

theorem rb2_apply (g : Fin 256) (q : Fin 36) : val_main_v103 (F := Ideal) x10 (ix2 g q) = b2 x10 q := by
  rw [val_main_v103_apply, val_main_v102_apply]; exact congrArg x10 (eq_ix1 _)

theorem rb3_apply (g : Fin 256) (q : Fin 10) : val_main_v108 (F := Ideal) x12 (ix2 g q) = b3 x12 q := by
  rw [val_main_v108_apply, val_main_v107_apply]; exact congrArg x12 (eq_ix1 _)

theorem nodeMM_apply (A : (⟨S100000x146, .f32⟩ : BufTy).Contents (Elt Ideal)) (B : (⟨S146x146, .f32⟩ : BufTy).Contents (Elt Ideal))
    (p : Fin 100000) (q : Fin 146) :
    val_main_v4 (F := Ideal) A B (ix2 p q) = ∑ k : Fin 146, A (ix2 p k) * B (ix2 k q) := by
  rw [val_main_v4_apply]
  refine Finset.sum_congr rfl fun k _ => ?_
  rw [show lidx_main_v4 (ix2 p q) k = ix2 p k from Shape.idx_ext₂ rfl rfl, show ridx_main_v4 (ix2 p q) k = ix2 k q from Shape.idx_ext₂ rfl rfl]

theorem act_apply {S Bv Z : FVec Ideal S100000x146 .f32} {A : Fin 100000 → Fin 146 → EReal} {b : Fin 146 → EReal}
    (hS : ∀ p q, S (ix2 p q) = A p q) (hB : ∀ p q, Bv (ix2 p q) = b q) (hZ : ∀ i, Z i = (0 : EReal))
    (p : Fin 100000) (q : Fin 146) :
    maximumf (F := Ideal) (addf (F := Ideal) S Bv) Z (ix2 p q) = relu (addRow A b) p q := by
  show max (S (ix2 p q) + Bv (ix2 p q)) (Z (ix2 p q)) = max (A p q + b q) 0
  rw [hS, hB, hZ]

/-- One layer: the clamped, biased rows times the layer's matrix. -/
theorem layer_apply {S Bv Z : FVec Ideal S100000x146 .f32} {Wv : FVec Ideal S146x146 .f32}
    {A : Fin 100000 → Fin 146 → EReal} {b : Fin 146 → EReal} {W : Fin 146 → Fin 146 → EReal}
    (hS : ∀ p q, S (ix2 p q) = A p q) (hB : ∀ p q, Bv (ix2 p q) = b q) (hZ : ∀ i, Z i = (0 : EReal))
    (hW : ∀ j q, Wv (ix2 j q) = W j q) (p : Fin 100000) (q : Fin 146) :
    val_main_v4 (F := Ideal) (maximumf (F := Ideal) (addf (F := Ideal) S Bv) Z) Wv (ix2 p q) = layer A b W p q := by
  rw [nodeMM_apply]
  show _ = ∑ k : Fin 146, relu (addRow A b) p k * W k q
  refine Finset.sum_congr rfl fun k _ => ?_
  rw [act_apply hS hB hZ p k, hW]

theorem edge_apply {V : FVec Ideal S100000x146 .f32} {A : Fin 100000 → Fin 146 → EReal}
    (hV : ∀ p q, V (ix2 p q) = A p q) (p : Fin 100000) (q : Fin 146) :
    Host.scatterAdd (F := Ideal) (φ := .f32) scatter_S100000x146_S500000x1_S500000x146_1_0_0_1 (val_main_v18 (F := Ideal))
      (val_main_v19 (F := Ideal) x1)
      (Host.gather gather_S100000x146_S500000x1_S500000x146_1_0_n_n_0_1_1146 V (val_main_v16 (F := Ideal) x1)) (ix2 p q)
      = edgeSum x1 A p q := by
  have hVA : V = fun i => A (i 0) (i 1) := funext fun i => (congrArg V (eq_ix2 i)).trans (hV (i 0) (i 1))
  subst hVA
  rfl

theorem embed_apply (p : Fin 100000) (q : Fin 146) :
    val_main_v7 (F := Ideal) x0 x3 x4 (ix2 p q) = addRow (mm (X x0) (E x3)) (e x4) p q := by
  rw [val_main_v7_apply, nodeMM_apply, e_apply]
  rfl

theorem pre0 (p : Fin 100000) (q : Fin 146) : val_main_v10 (F := Ideal) x0 x3 x4 x5 (ix2 p q) = h0 x0 x3 x4 x5 p q := by
  show val_main_v4 (F := Ideal) (val_main_v7 (F := Ideal) x0 x3 x4) (val_main_v9 (F := Ideal) x5) (ix2 p q)
    = ∑ k : Fin 146, addRow (mm (X x0) (E x3)) (e x4) p k * Wl x5 0 k q
  rw [nodeMM_apply]
  exact Finset.sum_congr rfl fun k _ => by rw [w0_apply, embed_apply]

theorem pre1 (p : Fin 100000) (q : Fin 146) : val_main_v29 (F := Ideal) x0 x1 x3 x4 x5 x6 (ix2 p q) = h1 x0 x1 x3 x4 x5 x6 p q :=
  layer_apply (edge_apply x1 (pre0 x0 x3 x4 x5)) (bias0_apply x6) (fun i => (val_main_call0_v0_apply (F := Ideal) i).trans Ideal.ofBits_zero_f32)
    (w1_apply x5) p q

theorem pre2 (p : Fin 100000) (q : Fin 146) : val_main_v48 (F := Ideal) x0 x1 x3 x4 x5 x6 (ix2 p q) = h2 x0 x1 x3 x4 x5 x6 p q :=
  layer_apply (edge_apply x1 (pre1 x0 x1 x3 x4 x5 x6)) (bias1_apply x6) (fun i => (val_main_call1_v0_apply (F := Ideal) i).trans Ideal.ofBits_zero_f32)
    (w2_apply x5) p q

theorem pre3 (p : Fin 100000) (q : Fin 146) : val_main_v67 (F := Ideal) x0 x1 x3 x4 x5 x6 (ix2 p q) = h3 x0 x1 x3 x4 x5 x6 p q :=
  layer_apply (edge_apply x1 (pre2 x0 x1 x3 x4 x5 x6)) (bias2_apply x6) (fun i => (val_main_call2_v0_apply (F := Ideal) i).trans Ideal.ofBits_zero_f32)
    (w3_apply x5) p q

theorem nodes_apply (p : Fin 100000) (q : Fin 146) : val_main_v83 (F := Ideal) x0 x1 x3 x4 x5 x6 (ix2 p q) = nodes x0 x1 x3 x4 x5 x6 p q :=
  act_apply (edge_apply x1 (pre3 x0 x1 x3 x4 x5 x6)) (bias3_apply x6) (fun i => (val_main_call3_v0_apply (F := Ideal) i).trans Ideal.ofBits_zero_f32)
    p q

theorem sums_apply {V : FVec Ideal S100000x146 .f32} {A : Fin 100000 → Fin 146 → EReal}
    (hV : ∀ p q, V (ix2 p q) = A p q) (g : Fin 256) (q : Fin 146) :
    Host.scatterAdd (F := Ideal) (φ := .f32) scatter_S256x146_S100000x1_S100000x146_1_0_0_1 (val_main_v84 (F := Ideal))
      (val_main_v85 (F := Ideal) x2) V (ix2 g q) = groupSum (fun n => x2 (ix1 n)) A g q := by
  show Ideal.hostScatterAdd scatter_S256x146_S100000x1_S100000x146_1_0_0_1 (val_main_v84 (F := Ideal))
      (val_main_v85 (F := Ideal) x2) V (ix2 g q) = _
  rw [ScatterRows.scatterAdd_rows_apply scatter_S256x146_S100000x1_S100000x146_1_0_0_1 rfl rfl rfl rfl,
    (val_main_v84_apply (F := Ideal) _).trans Ideal.ofBits_zero_f32, zero_add]
  show (∑ k : Fin 100000, if (val_main_v85 (F := Ideal) x2 (ixP k)).toInt = (g.val : ℤ) then V (ij k q) else 0)
    = ∑ k : Fin 100000, if (x2 (ix1 k)).toInt = (g.val : ℤ) then A k q else 0
  refine Finset.sum_congr rfl fun k _ => ?_
  rw [show val_main_v85 (F := Ideal) x2 (ixP k) = x2 (ix1 k) from (val_main_v85_apply x2 _).trans (congrArg x2 (eq_ix1 _)),
    show V (ij k q) = A k q from (congrArg V (Shape.idx_ext₂ rfl rfl)).trans (hV k q)]

theorem count_apply (g : Fin 256) :
    val_main_v90 (F := Ideal) x2 (ix1 g) = groupCount (fun n => x2 (ix1 n)) g := by
  show Ideal.hostScatterAdd scatter_S256_S100000x1_S100000_n_0_0_1 (val_main_v88 (F := Ideal))
      (val_main_v89 (F := Ideal) x2) (val_main_v87 (F := Ideal)) (ix1 g) = _
  rw [ScatterRows.scatterAdd_scalars_apply scatter_S256_S100000x1_S100000_n_0_0_1 rfl rfl rfl rfl,
    (val_main_v88_apply (F := Ideal) _).trans Ideal.ofBits_zero_f32, zero_add]
  show (∑ k : Fin 100000, if (val_main_v89 (F := Ideal) x2 (ixP k)).toInt = (g.val : ℤ)
        then val_main_v87 (F := Ideal) (Shape.Idx.ofFin k) else 0)
    = ∑ k : Fin 100000, if (x2 (ix1 k)).toInt = (g.val : ℤ) then (1 : EReal) else 0
  refine Finset.sum_congr rfl fun k _ => ?_
  rw [show val_main_v89 (F := Ideal) x2 (ixP k) = x2 (ix1 k) from (val_main_v89_apply x2 _).trans (congrArg x2 (eq_ix1 _)),
    (val_main_v87_apply (F := Ideal) _).trans ofBits_one_f32]

theorem mean_eq : (fun g q => val_main_v95 (F := Ideal) x0 x1 x2 x3 x4 x5 x6 (ix2 g q))
    = groupMean (fun n => x2 (ix1 n)) (nodes x0 x1 x3 x4 x5 x6) := by
  funext g q
  rw [val_main_v95_apply, val_main_v94_apply, val_main_v93_apply, val_main_v92_apply]
  rw [show idx_main_v93 (idx_main_v94 (ix2 g q)) = ix1 g from eq_ix1 _, count_apply,
    (val_main_v91_apply (F := Ideal) _).trans ofBits_one_f32,
    show val_main_v86 (F := Ideal) x0 x1 x2 x3 x4 x5 x6 (ix2 g q) = groupSum (fun n => x2 (ix1 n)) (nodes x0 x1 x3 x4 x5 x6) g q
      from sums_apply x2 (nodes_apply x0 x1 x3 x4 x5 x6) g q]
  rfl

theorem r1_apply (g : Fin 256) (q : Fin 73) :
    val_main_v96 (F := Ideal) x0 x1 x2 x3 x4 x5 x6 x7 (ix2 g q)
      = ∑ k : Fin 146, val_main_v95 (F := Ideal) x0 x1 x2 x3 x4 x5 x6 (ix2 g k) * x7 (ix2 k q) := by
  rw [val_main_v96_apply]
  refine Finset.sum_congr rfl fun k _ => ?_
  rw [show lidx_main_v96 (ix2 g q) k = ix2 g k from Shape.idx_ext₂ rfl rfl, show ridx_main_v96 (ix2 g q) k = ix2 k q from Shape.idx_ext₂ rfl rfl]

theorem r2_apply (g : Fin 256) (q : Fin 36) :
    val_main_v101 (F := Ideal) x0 x1 x2 x3 x4 x5 x6 x7 x8 x9 (ix2 g q)
      = ∑ k : Fin 73, val_main_v100 (F := Ideal) x0 x1 x2 x3 x4 x5 x6 x7 x8 (ix2 g k) * x9 (ix2 k q) := by
  rw [val_main_v101_apply]
  refine Finset.sum_congr rfl fun k _ => ?_
  rw [show lidx_main_v101 (ix2 g q) k = ix2 g k from Shape.idx_ext₂ rfl rfl, show ridx_main_v101 (ix2 g q) k = ix2 k q from Shape.idx_ext₂ rfl rfl]

theorem r3_apply (g : Fin 256) (q : Fin 10) :
    val_main_v106 (F := Ideal) x0 x1 x2 x3 x4 x5 x6 x7 x8 x9 x10 x11 (ix2 g q)
      = ∑ k : Fin 36, val_main_v105 (F := Ideal) x0 x1 x2 x3 x4 x5 x6 x7 x8 x9 x10 (ix2 g k) * x11 (ix2 k q) := by
  rw [val_main_v106_apply]
  refine Finset.sum_congr rfl fun k _ => ?_
  rw [show lidx_main_v106 (ix2 g q) k = ix2 g k from Shape.idx_ext₂ rfl rfl, show ridx_main_v106 (ix2 g q) k = ix2 k q from Shape.idx_ext₂ rfl rfl]

theorem z1_eq : (fun g q => val_main_v100 (F := Ideal) x0 x1 x2 x3 x4 x5 x6 x7 x8 (ix2 g q))
    = relu (addRow (mm (groupMean (fun n => x2 (ix1 n)) (nodes x0 x1 x3 x4 x5 x6)) (W1 x7)) (b1 x8)) := by
  funext g q
  rw [val_main_v100_apply, val_main_v99_apply, zeros4_apply, rb1_apply, r1_apply, ← mean_eq]
  rfl

theorem z2_eq : (fun g q => val_main_v105 (F := Ideal) x0 x1 x2 x3 x4 x5 x6 x7 x8 x9 x10 (ix2 g q))
    = relu (addRow (mm (relu (addRow (mm (groupMean (fun n => x2 (ix1 n)) (nodes x0 x1 x3 x4 x5 x6)) (W1 x7)) (b1 x8)))
        (W2 x9)) (b2 x10)) := by
  funext g q
  rw [val_main_v105_apply, val_main_v104_apply, zeros5_apply, rb2_apply, r2_apply, ← z1_eq]
  rfl

theorem ref_nodes (g : Fin 256) (o : Fin 10) :
    val_main_v109 (F := Ideal) x0 x1 x2 x3 x4 x5 x6 x7 x8 x9 x10 x11 x12 (ix2 g o)
      = readout (groupMean (fun n => x2 (ix1 n)) (nodes x0 x1 x3 x4 x5 x6))
          (W1 x7) (b1 x8) (W2 x9) (b2 x10) (W3 x11) (b3 x12) g o := by
  rw [val_main_v109_apply, rb3_apply, r3_apply]
  show (∑ k : Fin 36, val_main_v105 (F := Ideal) x0 x1 x2 x3 x4 x5 x6 x7 x8 x9 x10 (ix2 g k) * x11 (ix2 k o)) + b3 x12 o
    = (∑ k : Fin 36, relu (addRow (mm (relu (addRow (mm (groupMean (fun n => x2 (ix1 n)) (nodes x0 x1 x3 x4 x5 x6)) (W1 x7))
        (b1 x8))) (W2 x9)) (b2 x10)) g k * W3 x11 k o) + b3 x12 o
  rw [← z2_eq]
  rfl

end Cert.ReferenceIdeal.RefVal

end
-- ==== Proof.FinitePre.lean ====
import proofs.«430219_j41016937677162_3_alg».proof.Proof.Gen.Pre_finite_inputs
import Idealize.ShloMosaic.PureOps.Ideal
import Idealize.ShloMosaic.Lib.ReduceAll
import Idealize.ShloMosaic.Lib.ValueIdx

namespace Cert.FinitePre

open Idealize.ShloMosaic Cert.Pre_finite_inputs

theorem real_of_abs_lt_top (x : EReal) (h : max x (-x) < ⊤) : ∃ r : ℝ, x = (r : EReal) := by
  induction x using EReal.rec with
  | bot => simp at h
  | coe r => exact ⟨r, rfl⟩
  | top => simp at h

theorem ofBits_inf : Ideal.ofBits .f32 0x7F800000#32 = ⊤ := by simp [Ideal.ofBits, Ideal.ieee]

theorem real_of_cmp {s : Shape} (x : FVec Ideal s .f32) (hb : S_.BroadcastsInDim s (![] : Fin 0 → Fin s.rank)) (i : s.Idx)
    (h : cmpf .olt (Host.absf x) (broadcastInDim s ![] hb (constant (F := Ideal) S_ .f32 0x7F800000#32)) i = 1#1) :
    ∃ r : ℝ, x i = (r : EReal) := by
  have h' : Ideal.cmp .olt (max (x i) (-(x i))) (Ideal.ofBits .f32 0x7F800000#32) = 1#1 := h
  rw [ofBits_inf] at h'
  unfold Ideal.cmp at h'
  by_cases hlt : max (x i) (-(x i)) < ⊤
  · exact real_of_abs_lt_top _ hlt
  · simp [hlt] at h'

theorem subsingleton_scalar : Subsingleton S_.Idx := ⟨fun a b => funext fun d => d.elim0⟩

theorem andi_apply_eq_one {s : Shape} (a b : IVec s 1) (i : s.Idx) (h : andi a b i = 1#1) : a i = 1#1 ∧ b i = 1#1 :=
  (IntOp.andi_eq_one (c := a i) (d := b i)).1 h

theorem real_of_all {s : Shape} {axes : List (Fin s.rank)} (x : FVec Ideal s .f32)
    (hb : S_.BroadcastsInDim s (![] : Fin 0 → Fin s.rank)) (hr : s.ReducesTo axes S_) (hu : 0 < S_.numel)
    (h : Host.reduce IntOp.andi (cmpf .olt (Host.absf x) (broadcastInDim s ![] hb (constant (F := Ideal) S_ .f32 0x7F800000#32)))
          (constantI S_ 1 1#1) hr hu ValueIdx.ix0 = 1#1) (i : s.Idx) :
    ∃ r : ℝ, x i = (r : EReal) :=
  haveI := subsingleton_scalar
  real_of_cmp x hb i (Host.reduce_andi_all _ _ hr hu ValueIdx.ix0 h i)

theorem real_of_pre [Cert.Pre_finite_inputs.Facts] (x0 : FVec Ideal S100000x146 .f32) (x1 : IVec S2x500000 32) (x2 : IVec S100000 32)
    (x3 : FVec Ideal S146x146 .f32) (x4 : FVec Ideal S146 .f32) (x5 : FVec Ideal S4x146x146 .f32)
    (x6 : FVec Ideal S4x146 .f32) (x7 : FVec Ideal S146x73 .f32) (x8 : FVec Ideal S73 .f32)
    (x9 : FVec Ideal S73x36 .f32) (x10 : FVec Ideal S36 .f32) (x11 : FVec Ideal S36x10 .f32) (x12 : FVec Ideal S10 .f32)
    (h : Cert.Pre_finite_inputs.fn (F := Ideal) x0 x1 x2 x3 x4 x5 x6 x7 x8 x9 x10 x11 x12 = fun _ => 1#1) :
    (∀ i, ∃ r : ℝ, x0 i = (r : EReal)) ∧ (∀ i, ∃ r : ℝ, x3 i = (r : EReal)) ∧ (∀ i, ∃ r : ℝ, x4 i = (r : EReal))
      ∧ (∀ i, ∃ r : ℝ, x5 i = (r : EReal)) := by
  have h0 := congrFun h ValueIdx.ix0
  dsimp only [fn, fn_part1, fn_part2, fn_part3] at h0

  obtain ⟨h48, -⟩ := andi_apply_eq_one _ _ _ h0
  obtain ⟨h43, -⟩ := andi_apply_eq_one _ _ _ h48
  obtain ⟨h38, -⟩ := andi_apply_eq_one _ _ _ h43
  obtain ⟨h33, -⟩ := andi_apply_eq_one _ _ _ h38
  obtain ⟨h28, -⟩ := andi_apply_eq_one _ _ _ h33
  obtain ⟨h23, -⟩ := andi_apply_eq_one _ _ _ h28
  obtain ⟨h18, -⟩ := andi_apply_eq_one _ _ _ h23

  obtain ⟨h13, h17⟩ := andi_apply_eq_one _ _ _ h18
  obtain ⟨h8, h12⟩ := andi_apply_eq_one _ _ _ h13
  obtain ⟨h3, h7⟩ := andi_apply_eq_one _ _ _ h8
  exact ⟨real_of_all x0 _ _ _ h3, real_of_all x3 _ _ _ h7, real_of_all x4 _ _ _ h12, real_of_all x5 _ _ _ h17⟩

end Cert.FinitePre
-- ==== Proof.EdgeSame.lean ====
import proofs.«430219_j41016937677162_3_alg».proof.Proof.KI.HostVal
import proofs.«430219_j41016937677162_3_alg».proof.Proof.RefVal

set_option maxRecDepth 16384

noncomputable section

namespace Cert.Proof

open Idealize.ShloMosaic Idealize.ShloMosaic.TcCoe Idealize.SL.Sem Idealize.ShloMosaic.StableHlo Idealize.ShloMosaic.ValueIdx

theorem edgeSum_same (Wv : Valuation Cert.KernelIdeal.τ Cert.KernelIdeal.sig (Elt Ideal)) (A : Fin 100000 → Fin 146 → EReal)
    (p : Fin 100000) (q : Fin 146) :
    Cert.KernelIdeal.Val.edgeSumArr
        (StableHlo.after (Cert.KernelIdeal.Gen.hostOps0 (F := Ideal)) Wv (Proc.devRef .tc Cert.KernelIdeal.main_v1))
        (StableHlo.after (Cert.KernelIdeal.Gen.hostOps0 (F := Ideal)) Wv (Proc.devRef .tc Cert.KernelIdeal.main_v3))
        (fun i => A (i 0) (i 1)) (ix2 p q)
      = Cert.ReferenceIdeal.RefVal.edgeSum (Wv (Proc.devRef .tc Cert.KernelIdeal.main_arg1)) A p q := by
  rw [Cert.KernelIdeal.Val.v1_term, Cert.KernelIdeal.Val.v3_term]
  unfold Cert.KernelIdeal.Val.edgeSumArr Cert.ReferenceIdeal.RefVal.edgeSum
  unfold Cert.ReferenceIdeal.Read.val_main_v16 Cert.ReferenceIdeal.Read.val_main_v18 Cert.ReferenceIdeal.Read.val_main_v19
    Cert.ReferenceIdeal.Read.val_main_v15 Cert.ReferenceIdeal.Read.val_main_v14 Cert.ReferenceIdeal.Read.val_main_v13
    Cert.ReferenceIdeal.Read.val_main_v12 Cert.ReferenceIdeal.Read.val_main_v11 Cert.ReferenceIdeal.Read.val_main_v3
    Cert.ReferenceIdeal.Read.val_main_v2 Cert.ReferenceIdeal.Read.val_main_v1 Cert.ReferenceIdeal.Read.val_main_v0
    Cert.ReferenceIdeal.Read.val_main_c Cert.ReferenceIdeal.Read.val_main_c_0 Cert.ReferenceIdeal.Read.val_main_cst
  rfl

end Cert.Proof

end
-- ==== Proof.K.Dats.lean ====
import proofs.«430219_j41016937677162_3_alg».proof.Proof.Gen.Kernel.Launch
import proofs.«430219_j41016937677162_3_alg».proof.Proof.Gen.Kernel.Skeleton
import proofs.«430219_j41016937677162_3_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

abbrev rA : Rect S4000x146 := Rect.unit (s := S4000x146) ![0, 0] S4000x146.size inb_S4000x146_S4000x146_0_0
abbrev rW : Rect S146x146 := Rect.unit (s := S146x146) ![0, 0] S146x146.size inb_S146x146_S146x146_0_0
abbrev rB : Rect S1x146 := Rect.unit (s := S1x146) ![0, 0] S1x146.size inb_S1x146_S1x146_0_0
abbrev rI : Rect S4000x1 := Rect.unit (s := S4000x1) ![0, 0] S4000x1.size inb_S4000x1_S4000x1_0_0
abbrev rP : Rect S256x147 := Rect.unit (s := S256x147) ![0, 0] S256x147.size inb_S256x147_S256x147_0_0
abbrev rH : Rect S256x146 := Rect.unit (s := S256x146) ![0, 0] S256x146.size inb_S256x146_S256x146_0_0
abbrev rW1 : Rect S146x73 := Rect.unit (s := S146x73) ![0, 0] S146x73.size inb_S146x73_S146x73_0_0
abbrev rB1 : Rect S1x73 := Rect.unit (s := S1x73) ![0, 0] S1x73.size inb_S1x73_S1x73_0_0
abbrev rW2 : Rect S73x36 := Rect.unit (s := S73x36) ![0, 0] S73x36.size inb_S73x36_S73x36_0_0
abbrev rB2 : Rect S1x36 := Rect.unit (s := S1x36) ![0, 0] S1x36.size inb_S1x36_S1x36_0_0
abbrev rW3 : Rect S36x10 := Rect.unit (s := S36x10) ![0, 0] S36x10.size inb_S36x10_S36x10_0_0
abbrev rB3 : Rect S1x10 := Rect.unit (s := S1x10) ![0, 0] S1x10.size inb_S1x10_S1x10_0_0
abbrev rO : Rect S256x10 := Rect.unit (s := S256x10) ![0, 0] S256x10.size inb_S256x10_S256x10_0_0

def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

def out0_3 (x0 : Vec F S4000x146 .f32) (x1 : Vec F S146x146 .f32) (x2 : Vec F S1x146 .f32) : Vec F S4000x146 .f32 :=
  View.canon [⟨rA, k0_pay1 (View.ld x0 rA) (View.ld x1 rW) (View.ld x2 rB)⟩]

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t) (iblk0 V c 1 t) (iblk0 V c 2 t)
  Φ _ := Pipeline.ΦA spec0 c
  q _ := fullShare
  owed _ := 0

def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

def out1_3 (x0 : Vec F S4000x146 .f32) (x1 : Vec F S1x146 .f32) (x2 : Vec F S146x146 .f32) : Vec F S4000x146 .f32 :=
  View.canon [⟨rA, k1_pay1 (View.ld x0 rA) (View.ld x1 rB) (View.ld x2 rW)⟩]

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => out1_3 (iblk1 V c 0 t) (iblk1 V c 1 t) (iblk1 V c 2 t)
  Φ _ := Pipeline.ΦA spec1 c
  q _ := fullShare
  owed _ := 0

def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

def out2_3 (x0 : Vec F S4000x146 .f32) (x1 : Vec F S1x146 .f32) (x2 : Vec F S146x146 .f32) : Vec F S4000x146 .f32 :=
  View.canon [⟨rA, k2_pay1 (View.ld x0 rA) (View.ld x1 rB) (View.ld x2 rW)⟩]

def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => out2_3 (iblk2 V c 0 t) (iblk2 V c 1 t) (iblk2 V c 2 t)
  Φ _ := Pipeline.ΦA spec2 c
  q _ := fullShare
  owed _ := 0

def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

def out3_3 (x0 : Vec F S4000x146 .f32) (x1 : Vec F S1x146 .f32) (x2 : Vec F S146x146 .f32) : Vec F S4000x146 .f32 :=
  View.canon [⟨rA, k3_pay1 (View.ld x0 rA) (View.ld x1 rB) (View.ld x2 rW)⟩]

def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => out3_3 (iblk3 V c 0 t) (iblk3 V c 1 t) (iblk3 V c 2 t)
  Φ _ := Pipeline.ΦA spec3 c
  q _ := fullShare
  owed _ := 0

def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

abbrev scM4 : Memref sig .tc .vmem S256x147 .f32 := Memref.whole cc4_scratch0

def step4 (x0 : Vec F S4000x146 .f32) (x1 : Vec F S1x146 .f32) (x2 : Vec F S4000x1 .i32) (s : Vec F S256x147 .f32) : Vec F S256x147 .f32 :=
  View.canon [⟨rP, k4_pay2 (View.ld x0 rA) (View.ld x1 rB) (View.ld x2 rI) (View.ld s rP)⟩]

def zero4 : Vec F S256x147 .f32 := View.canon [⟨rP, k4_pay1 (F := F)⟩]

def acc4 (c : Dev nD) : (n : ℕ) → n < cfg4.N → Vec F S256x147 .f32
  | 0, hn => step4 (iblk4 V c 0 ⟨0, hn⟩) (iblk4 V c 1 ⟨0, hn⟩) (iblk4 V c 2 ⟨0, hn⟩) (zero4 (F := F))
  | n + 1, hn => step4 (iblk4 V c 0 ⟨n + 1, hn⟩) (iblk4 V c 1 ⟨n + 1, hn⟩) (iblk4 V c 2 ⟨n + 1, hn⟩) (acc4 c n (Nat.lt_of_succ_lt hn))

def out4_3 (s : Vec F S256x147 .f32) : Vec F S256x147 .f32 := View.canon [⟨rP, View.ld s rP⟩]

def PhiS4 (c : Dev nD) : (n : ℕ) → n ≤ cfg4.N → sProp 𝕄
  | 0, _ => Pipeline.ΦA spec4 c
  | n + 1, hn => iprop(owns (c : Thread nD τ) scM4 fullShare (acc4 V c n hn)
      ∗ Pipeline.scopedRestBut (Ix := Unit) (Name := ℕ) (U := UR sig nD τ) (Lvl := ℕ) (Val := Elt F) spec4 c [cc4_scratch0]
      ∗ (∃ r, prngReg c r))

def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => iblk4 V c 2 t
    | ⟨3, _⟩ => out4_3 (acc4 V c t.val t.isLt)
  Φ t := PhiS4 V c t.val (Nat.le_of_lt_succ t.isLt)
  q _ := fullShare
  owed _ := 0

def iblk5 (c : Dev nD) (w : Fin cfg5.W) (t : Fin cfg5.N) : ((cfg5.win w).xblock (cfg5.grid.coords t)).Idx → Elt F (cfg5.win w).elt :=
  ((cfg5.win w).blk t).view.read (Elt F) (V c (Pipeline.arrRef spec5 w))

def out5_7 (x0 : Vec F S256x146 .f32) (x1 : Vec F S146x73 .f32) (x2 : Vec F S1x73 .f32) (x3 : Vec F S73x36 .f32) (x4 : Vec F S1x36 .f32)
    (x5 : Vec F S36x10 .f32) (x6 : Vec F S1x10 .f32) : Vec F S256x10 .f32 :=
  View.canon [⟨rO, k5_pay1 (View.ld x0 rH) (View.ld x1 rW1) (View.ld x2 rB1) (View.ld x3 rW2) (View.ld x4 rB2) (View.ld x5 rW3) (View.ld x6 rB3)⟩]

def dat5 (c : Dev nD) : Dat τ (Elt F) Unit ℕ (UR sig nD τ) ℕ cfg5 c where
  A w := V c (Pipeline.arrRef spec5 w)
  after w t := match w with
    | ⟨0, _⟩ => iblk5 V c 0 t
    | ⟨1, _⟩ => iblk5 V c 1 t
    | ⟨2, _⟩ => iblk5 V c 2 t
    | ⟨3, _⟩ => iblk5 V c 3 t
    | ⟨4, _⟩ => iblk5 V c 4 t
    | ⟨5, _⟩ => iblk5 V c 5 t
    | ⟨6, _⟩ => iblk5 V c 6 t
    | ⟨7, _⟩ => out5_7 (iblk5 V c 0 t) (iblk5 V c 1 t) (iblk5 V c 2 t) (iblk5 V c 3 t) (iblk5 V c 4 t) (iblk5 V c 5 t) (iblk5 V c 6 t)
  Φ _ := Pipeline.ΦA spec5 c
  q _ := fullShare
  owed _ := 0

end Cert.Kernel.Hand

end
-- ==== Proof.K.RLin.lean ====
import proofs.«430219_j41016937677162_3_alg».proof.Proof.K.Dats
import Idealize.ShloMosaic.Lib.Pipeline.Value

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

-- Three whole blocks are read and `pay` of them is stored over the whole output block: the inputs stay and the output ends at that value.
theorem body_triple {Sb Sc : Shape} (c : Dev nD) (rb : Rect Sb) (lb : 0 < rb.toLoadRect.shape.numel) (rc : Rect Sc)
    (lc : 0 < rc.toLoadRect.shape.numel) (pay : Vec F rA.shape .f32 → Vec F rb.shape .f32 → Vec F rc.shape .f32 → Vec F rA.shape .f32)
    {Φ O : sProp 𝕄} {a1 a4 : Memref sig .tc .vmem S4000x146 .f32} {a2 : Memref sig .tc .vmem Sb .f32} {a3 : Memref sig .tc .vmem Sc .f32}
    {D0 D1 D2 D3 : Type} {f0 : D0 → Vec F S4000x146 .f32} {f1 : D1 → Vec F Sb .f32} {f2 : D2 → Vec F Sc .f32}
    {f3 : D3 → Vec F S4000x146 .f32} {x0 x1 x2 y} (e0 : ∀ d, f0 d = x0) (e1 : ∀ d, f1 d = x1) (e2 : ∀ d, f2 d = x2)
    (e3 : y = View.canon [⟨rA, pay (View.ld x0 rA) (View.ld x1 rb) (View.ld x2 rc)⟩]) :
    iprop(Φ ∗ O ∗ (∃ d, owns (c : Thread nD τ) a1 fullShare (f0 d)) ∗ (∃ d, owns (c : Thread nD τ) a2 fullShare (f1 d))
        ∗ (∃ d, owns (c : Thread nD τ) a3 fullShare (f2 d)) ∗ (∃ d, owns (c : Thread nD τ) a4 fullShare (f3 d)))
      ⊢ wp frame (wpE (defs₀ (F := F)) Variants.none c none) Set.univ (do
          let v0 ← Prog.lift (.load a1 rA.toLoadRect (View.loadsAt_vmem h_S4000x146))
          let v1 ← Prog.lift (.load a2 rb.toLoadRect (View.loadsAt_vmem lb))
          let v2 ← Prog.lift (.load a3 rc.toLoadRect (View.loadsAt_vmem lc))
          let _ ← Prog.lift (.load a4 rA.toLoadRect (View.loadsAt_vmem h_S4000x146))
          Prog.lift (.store a4 rA (pay v0 v1 v2) Finset.univ (View.stores_vmem_bits_univ h_S4000x146 rfl) (.inl rfl))
          pure PUnit.unit)
        fun _ => iprop(Φ ∗ O ∗ owns (c : Thread nD τ) a1 fullShare x0 ∗ owns (c : Thread nD τ) a2 fullShare x1
          ∗ owns (c : Thread nD τ) a3 fullShare x2 ∗ owns (c : Thread nD τ) a4 fullShare y) := by
  subst e3
  simp only [e0, e1, e2]; unfold owns
  iintro ⟨HΦ, Ho, ⟨%d0, %g0, %hg0, H0⟩, ⟨%d1, %g1, %hg1, H1⟩, ⟨%d2, %g2, %hg2, H2⟩, ⟨%d3, %g3, -, H3⟩⟩
  subst hg0 hg1 hg2
  sl_exec
  sl_step
  iframe
  isplitl [H0]; · iexists g0; iframe; ipureintro; rfl
  isplitl [H1]; · iexists g1; iframe; ipureintro; rfl
  isplitl [H2]; · iexists g2; iframe; ipureintro; rfl
  iexists _; iframe; ipureintro
  exact View.read_writes_eq_canon _ _ _ (View.cover_of_tiled _ S4000x146.size (by rfl))

theorem A_eq0 (c : Dev nD) (w : Fin cfg0.W) : (dat0 V c).A w = V c (Pipeline.arrRef spec0 w) := rfl

-- Before the body each input's contents are its block, so the triple applies with the region's payload.
theorem body_obligation0 (c : Dev nD) : BodyObligation (dat0 (F := F) V c) (defs₀ (F := F)) Variants.none () Set.univ := fun t => by
  rw [bigSep_W0, bigSep_W0]
  refine body_triple c rW h_S146x146 rB h_S1x146 k0_pay1 ?_ ?_ ?_ (by dsimp only [dat0]; rfl) <;>
    exact Dat.before_in_eq_fetched _ _ rfl (fun _ => rfl) (fun _ _ _ => rfl) (fun _ => rfl) t

theorem body_obligation1 (c : Dev nD) : BodyObligation (dat1 (F := F) V c) (defs₀ (F := F)) Variants.none () Set.univ := fun t => by
  rw [bigSep_W1, bigSep_W1]
  refine body_triple c rB h_S1x146 rW h_S146x146 k1_pay1 ?_ ?_ ?_ (by dsimp only [dat1]; rfl) <;>
    exact Dat.before_in_eq_fetched _ _ rfl (fun _ => rfl) (fun _ _ _ => rfl) (fun _ => rfl) t

theorem body_obligation2 (c : Dev nD) : BodyObligation (dat2 (F := F) V c) (defs₀ (F := F)) Variants.none () Set.univ := fun t => by
  rw [bigSep_W2, bigSep_W2]
  refine body_triple c rB h_S1x146 rW h_S146x146 k2_pay1 ?_ ?_ ?_ (by dsimp only [dat2]; rfl) <;>
    exact Dat.before_in_eq_fetched _ _ rfl (fun _ => rfl) (fun _ _ _ => rfl) (fun _ => rfl) t

theorem body_obligation3 (c : Dev nD) : BodyObligation (dat3 (F := F) V c) (defs₀ (F := F)) Variants.none () Set.univ := fun t => by
  rw [bigSep_W3, bigSep_W3]
  refine body_triple c rB h_S1x146 rW h_S146x146 k3_pay1 ?_ ?_ ?_ (by dsimp only [dat3]; rfl) <;>
    exact Dat.before_in_eq_fetched _ _ rfl (fun _ => rfl) (fun _ _ _ => rfl) (fun _ => rfl) t

end Cert.Kernel.Hand

end
-- ==== Proof.K.R4.lean ====
import proofs.«430219_j41016937677162_3_alg».proof.Proof.K.Dats
import Idealize.ShloMosaic.Lib.Pipeline.Value

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

abbrev cond4_0 (i : grid4.Coords) : Prop := (Scalar.cmpi .ne (Scalar.extui (Scalar.cmpi .eq (BitVec.ofNat 32 (i 0).val) 0#32)) 0#32) = 1#1
/-- The accumulator is reset at the first point only. -/
theorem hcond4_0 : ∀ t : Fin cfg4.N, cond4_0 (grid4.coords t) ↔ t.val = 0 :=
  (by decide +kernel : ∀ t : Fin grid4.N, cond4_0 (grid4.coords t) ↔ t.val = 0)

abbrev cond4_1 (i : grid4.Coords) : Prop := k4_cond2 i = 1#1
/-- The accumulator is copied out at the last point only. -/
theorem hcond4_1 : ∀ t : Fin cfg4.N, cond4_1 (grid4.coords t) ↔ t.val = 24 :=
  (by decide +kernel : ∀ t : Fin grid4.N, cond4_1 (grid4.coords t) ↔ t.val = 24)

theorem liveAt4_0 : ∀ t : Fin cfg4.N, cfg4.idle 0 (grid4.coords t) = false := by decide +kernel
theorem liveAt4_1 : ∀ t : Fin cfg4.N, cfg4.idle 1 (grid4.coords t) = false := by decide +kernel
theorem liveAt4_2 : ∀ t : Fin cfg4.N, cfg4.idle 2 (grid4.coords t) = false := by decide +kernel
theorem idleAt4_3 : ∀ t : Fin cfg4.N, ¬cond4_1 (grid4.coords t) → cfg4.idle 3 (grid4.coords t) = true := by decide +kernel
theorem noFlush4_3 : ∀ t : Fin cfg4.N, ¬cond4_1 (grid4.coords t) → (cfg4.win 3).flush t = false := by decide +kernel
theorem liveAt4_3 : ∀ t : Fin cfg4.N, cond4_1 (grid4.coords t) → cfg4.idle 3 (grid4.coords t) = false := by decide +kernel

theorem hzP : (![0, 0] : Fin S256x147.rank → ℕ) = fun _ => 0 := by funext a; fin_cases a <;> rfl

/-- A list of stores whose newest is over the whole block covers the block. -/
theorem coverP (w : rP.shape.Idx → Elt F .f32) (L : List (View.Piece (Elt F) S256x147 .f32)) (y : S256x147.Idx) :
    ∃ p ∈ ((⟨rP, w⟩ : View.Piece (Elt F) S256x147 .f32) :: L), y ∈ p.1.set :=
  ⟨⟨rP, w⟩, List.mem_cons_self, View.mem_set_unit_zero hzP inb_S256x147_S256x147_0_0 y⟩

theorem zero4_eq : zero4 (F := F) = k4_pay1 := by
  unfold zero4; rw [View.canon_unit_zero hzP]

theorem out4_3_eq (s : Vec F S256x147 .f32) : out4_3 (F := F) s = s := by
  unfold out4_3; rw [View.canon_unit_zero hzP, View.ld_unit_zero hzP]

/-- A reset followed by an update reads back as the update of the reset contents. -/
theorem scratch_first (v5 : View sig .tc .vmem S256x147 .f32) (fs : v5.ty.Contents (Elt F))
    (a : Vec F S4000x146 .f32) (b : Vec F S1x146 .f32) (k : Vec F S4000x1 .i32) :
    v5.read (Elt F) (v5.writes (Elt F) fs
        [⟨rP, k4_pay2 (View.ld a rA) (View.ld b rB) (View.ld k rI) (v5.readCov [⟨rP, k4_pay1 (F := F)⟩] rP.toLoadRect)⟩, ⟨rP, k4_pay1 (F := F)⟩])
      = step4 a b k (zero4 (F := F)) := by
  rw [View.read_writes_eq_canon _ _ _ (coverP _ _), View.canon_cons_unit_zero hzP, View.readCov_unit_zero _ hzP]
  unfold step4
  rw [View.canon_unit_zero hzP, View.ld_unit_zero hzP _ (zero4 (F := F)), zero4_eq]

/-- The copy of the freshly updated accumulator reads back as that update. -/
theorem out_last (v4 v5 : View sig .tc .vmem S256x147 .f32) (f3 : v4.ty.Contents (Elt F))
    (a : Vec F S4000x146 .f32) (b : Vec F S1x146 .f32) (k : Vec F S4000x1 .i32) (s : Vec F S256x147 .f32) :
    v4.read (Elt F) (v4.writes (Elt F) f3
        [⟨rP, v5.readCov [⟨rP, k4_pay2 (View.ld a rA) (View.ld b rB) (View.ld k rI) (View.ld s rP)⟩] rP.toLoadRect⟩])
      = out4_3 (step4 a b k s) := by
  rw [View.read_writes_eq_canon _ _ _ (coverP _ _), View.canon_unit_zero hzP, View.readCov_unit_zero _ hzP, out4_3_eq]
  unfold step4
  rw [View.canon_unit_zero hzP]

/-- One triple for the three cases of the two conditionals, which never hold together. -/
theorem kernel4 (c : Dev nD) (E : Set ℕ) (i : grid4.Coords)
    (arg1 : Memref sig .tc .vmem S4000x146 .f32) (harg1 : arg1.IsWhole) (arg2 : Memref sig .tc .vmem S1x146 .f32) (harg2 : arg2.IsWhole)
    (arg3 : Memref sig .tc .vmem S4000x1 .i32) (harg3 : arg3.IsWhole) (arg4 : Memref sig .tc .vmem S256x147 .f32) (harg4 : arg4.IsWhole)
    (arg5 : Memref sig .tc .vmem S256x147 .f32) (harg5 : arg5.IsWhole) (h01 : cond4_0 i → ¬cond4_1 i)
    (x0 : Vec F S4000x146 .f32) (x1 : Vec F S1x146 .f32) (x2 : Vec F S4000x1 .i32) (xi s : Vec F S256x147 .f32)
    (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare xi ∗ owns (c : Thread nD τ) arg5 fullShare s
        ∗ (iprop(owns (c : Thread nD τ) arg1 fullShare x0 ∗ owns (c : Thread nD τ) arg2 fullShare x1 ∗ owns (c : Thread nD τ) arg3 fullShare x2
            ∗ owns (c : Thread nD τ) arg4 fullShare (if cond4_1 i then out4_3 (step4 x0 x1 x2 (if cond4_0 i then zero4 (F := F) else s)) else xi)
            ∗ owns (c : Thread nD τ) arg5 fullShare (step4 x0 x1 x2 (if cond4_0 i then zero4 (F := F) else s))) -∗ K ⟨⟩))
      ⊢ wp frame (wpE (defs₀ (F := F)) Variants.none c none) E (cc4__fused_relu_pool_kernel i arg1 harg1 arg2 harg2 arg3 harg3 arg4 harg4 arg5 harg5) K := by
  simp only [cc4__fused_relu_pool_kernel_eq_skeleton]; unfold cc4__fused_relu_pool_kernel_skel owns
  iintro ⟨⟨%f0, %hf0, H0⟩, ⟨%f1, %hf1, H1⟩, ⟨%f2, %hf2, H2⟩, ⟨%f3, %hf3, H3⟩, ⟨%fs, %hfs, HS⟩, Hk⟩
  subst hf0 hf1 hf2 hf3 hfs
  by_cases hc0 : cond4_0 i <;> by_cases hc1 : cond4_1 i
  · exact absurd hc1 (h01 hc0)
  all_goals
    first | rw [if_pos hc0] | rw [if_neg hc0]
    first | rw [if_pos hc1] | rw [if_neg hc1]
    sl_exec (disch := first | exact hc0 | exact hc1)
    sl_step
    iapply Hk
    isplitl [H0]; · iexists f0; isplitr; ipureintro; rfl; iexact H0
    isplitl [H1]; · iexists f1; isplitr; ipureintro; rfl; iexact H1
    isplitl [H2]; · iexists f2; isplitr; ipureintro; rfl; iexact H2
    isplitl [H3]
    · iexists _; isplitr; swap; · iexact H3
      ipureintro
      first
      | have : cond4_1 i := hc1
        exact out_last arg4.view arg5.view f3 (arg1.view.read (Elt F) f0) (arg2.view.read (Elt F) f1) (arg3.view.read (Elt F) f2) (arg5.view.read (Elt F) fs)
      | rfl
    iexists _; isplitr; swap; · iexact HS
    ipureintro
    first
    | have : cond4_0 i := hc0
      exact scratch_first arg5.view fs (arg1.view.read (Elt F) f0) (arg2.view.read (Elt F) f1) (arg3.view.read (Elt F) f2)
    | exact View.read_writes_eq_canon _ _ _ (coverP _ _)

theorem A_eq4 (c : Dev nD) (w : Fin cfg4.W) : (dat4 V c).A w = V c (Pipeline.arrRef spec4 w) := rfl

theorem before4_0 (c : Dev nD) (t : Fin cfg4.N) (d) : (dat4 V c).before 0 t d = (dat4 V c).after 0 t :=
  Dat.before_fetched _ 0 t (fetch4_0 t) d
theorem before4_1 (c : Dev nD) (t : Fin cfg4.N) (d) : (dat4 V c).before 1 t d = (dat4 V c).after 1 t :=
  Dat.before_in_eq_fetched _ 1 rfl (fun _ => rfl) (fun _ _ _ => rfl) (fun _ => rfl) t d
theorem before4_2 (c : Dev nD) (t : Fin cfg4.N) (d) : (dat4 V c).before 2 t d = (dat4 V c).after 2 t :=
  Dat.before_fetched _ 2 t (fetch4_2 t) d

theorem leaves4 (c : Dev nD) (w : Fin cfg4.W) (t : Fin cfg4.N) (h : cfg4.idle w (grid4.coords t) = false) :
    (dat4 V c).leavesExact w t = owns (c : Thread nD τ) ((cfg4.win w).stage (cfg4.slots t w)) fullShare ((dat4 V c).after w t) := by
  unfold Dat.leavesExact; rw [h]

theorem leaves4_3 (c : Dev nD) (t : Fin cfg4.N) (d) :
    owns (c : Thread nD τ) (st4_3 t) fullShare (if cond4_1 (grid4.coords t) then out4_3 (acc4 V c t.val t.isLt) else (dat4 V c).before 3 t d)
      ⊢ (dat4 V c).leavesExact 3 t := by
  by_cases h : cond4_1 (grid4.coords t)
  · rw [if_pos h, leaves4 V c 3 t (liveAt4_3 t h)]; exact Entails.refl _
  · rw [if_neg h, Dat.leavesExact_idle _ 3 t (idleAt4_3 t h) (noFlush4_3 t h)]
    iintro H; iexists d; iexact H

/-- By cases on whether the point is the first. -/
theorem acc4_eq (c : Dev nD) (t : Fin cfg4.N) (s : Vec F S256x147 .f32)
    (hs : ∀ hn : t.val ≠ 0, s = acc4 V c (t.val - 1) (Nat.lt_of_le_of_lt (Nat.sub_le _ _) t.isLt)) :
    step4 ((dat4 V c).after 0 t) ((dat4 V c).after 1 t) ((dat4 V c).after 2 t) (if cond4_0 (grid4.coords t) then zero4 (F := F) else s)
      = acc4 V c t.val t.isLt := by
  obtain ⟨n, hn⟩ := t
  cases n with
  | zero => rw [if_pos ((hcond4_0 ⟨0, hn⟩).mpr rfl)]; rfl
  | succ n => rw [if_neg fun h => Nat.succ_ne_zero n ((hcond4_0 ⟨n + 1, hn⟩).mp h), hs (Nat.succ_ne_zero n)]; rfl

/-- The region's resources with the accumulator at `s`. -/
abbrev Inv4 (c : Dev nD) (s : Vec F S256x147 .f32) : sProp 𝕄 :=
  iprop(owns (c : Thread nD τ) scM4 fullShare s
    ∗ Pipeline.scopedRestBut (Ix := Unit) (Name := ℕ) (U := UR sig nD τ) (Lvl := ℕ) (Val := Elt F) spec4 c [cc4_scratch0]
    ∗ (∃ r, prngReg c r))

theorem PhiA4_eq (c : Dev nD) :
    (Pipeline.ΦA spec4 c : sProp 𝕄)
      = iprop(iprop((∃ d, owns (c : Thread nD τ) scM4 fullShare d)
          ∗ Pipeline.scopedRestBut (Ix := Unit) (Name := ℕ) (U := UR sig nD τ) (Lvl := ℕ) (Val := Elt F) spec4 c [cc4_scratch0])
        ∗ (∃ r, prngReg c r)) := by
  unfold Pipeline.ΦA; rw [scopedRest4_split]; simp only [scM4, owns_whole]; try rfl

/-- At every position the invariant holds the accumulator at some contents: past the first point, what the point before left. -/
theorem PhiS4_open (c : Dev nD) (n : ℕ) (h : n ≤ cfg4.N) :
    PhiS4 V c n h ⊢ iprop(∃ s, ⌜∀ hn : n ≠ 0, s = acc4 V c (n - 1) (by omega)⌝ ∗ Inv4 c s) := by
  cases n with
  | zero =>
    rw [show PhiS4 V c 0 h = _ from PhiA4_eq (F := F) c]
    unfold Inv4
    iintro ⟨⟨⟨%d, HS⟩, HR⟩, Hg⟩
    iexists d; isplitr; ipureintro; exact fun hn => absurd rfl hn; iframe
  | succ n =>
    rw [show PhiS4 V c (n + 1) h = Inv4 c (acc4 V c n h) from rfl]
    iintro H
    iexists acc4 V c n h; isplitr; ipureintro; exact fun _ => rfl; iexact H

/-- The invariant lends the accumulator and takes it back one update on. -/
theorem sound_body4 (c : Dev nD) (t : Fin cfg4.N) (Q : sProp 𝕄) :
    iprop((dat4 V c).Φ t.castSucc ∗ Q
      ∗ (∃ d, owns (c : Thread nD τ) (st4_0 t) fullShare ((dat4 V c).before 0 t d))
      ∗ (∃ d, owns (c : Thread nD τ) (st4_1 t) fullShare ((dat4 V c).before 1 t d))
      ∗ (∃ d, owns (c : Thread nD τ) (st4_2 t) fullShare ((dat4 V c).before 2 t d))
      ∗ (∃ d, owns (c : Thread nD τ) (st4_3 t) fullShare ((dat4 V c).before 3 t d)))
      ⊢ wp frame (wpE (defs₀ (F := F)) Variants.none c none) Set.univ (bodyAt4 t) (fun _ => iprop((dat4 V c).Φ t.succ ∗ Q
        ∗ (dat4 V c).leavesExact 0 t ∗ (dat4 V c).leavesExact 1 t ∗ (dat4 V c).leavesExact 2 t ∗ (dat4 V c).leavesExact 3 t)) := by
  unfold bodyAt4
  simp only [before4_0, before4_1, before4_2]
  rw [leaves4 V c 0 t (liveAt4_0 t), leaves4 V c 1 t (liveAt4_1 t), leaves4 V c 2 t (liveAt4_2 t),
    show (dat4 V c).Φ t.succ = Inv4 c (acc4 V c t.val t.isLt) from rfl]
  unfold Inv4
  have h01 : cond4_0 (grid4.coords t) → ¬cond4_1 (grid4.coords t) := fun a b => by
    have := (hcond4_0 t).mp a; have := (hcond4_1 t).mp b; omega
  refine (sep_mono_left (PhiS4_open V c t.val (Nat.le_of_lt t.isLt))).trans ?_
  unfold Inv4
  iintro ⟨⟨%s, %hs, HS, HR, Hg⟩, HQ, ⟨%d0, H0⟩, ⟨%d1, H1⟩, ⟨%d2, H2⟩, ⟨%d3, H3⟩⟩
  iapply (kernel4 c Set.univ (grid4.coords t) _ _ _ _ _ _ _ _ _ _ h01
    ((dat4 V c).after 0 t) ((dat4 V c).after 1 t) ((dat4 V c).after 2 t) ((dat4 V c).before 3 t d3) s _)
  iframe H0 H1 H2 H3 HS
  iintro ⟨H0, H1, H2, H3, HS⟩
  rw [acc4_eq V c t s hs]
  iframe H0 H1 H2 HS HR Hg HQ
  iapply (leaves4_3 V c t d3)
  iexact H3

theorem body_obligation4 (c : Dev nD) : BodyObligation (dat4 (F := F) V c) (defs₀ (F := F)) Variants.none () Set.univ := fun t => by
  rw [bigSep_W4, bigSep_W4]
  exact sound_body4 V c t _

theorem hin4 (c : Dev nD) : Pipeline.ΦA spec4 c ⊢ (dat4 V c).Φ 0 := Entails.refl _

/-- After the last point the accumulator's contents are forgotten. -/
theorem hout4 (c : Dev nD) : (dat4 V c).Φ (Fin.last cfg4.N) ⊢ Pipeline.ΦA spec4 c := by
  rw [PhiA4_eq]
  refine (PhiS4_open V c _ (Nat.le_of_lt_succ (Fin.last cfg4.N).isLt)).trans ?_
  unfold Inv4
  iintro ⟨%s, -, HS, HR, Hg⟩
  iframe HR Hg
  iexists _; iexact HS

end Cert.Kernel.Hand

end
-- ==== Proof.K.R5.lean ====
import proofs.«430219_j41016937677162_3_alg».proof.Proof.K.Dats
import Idealize.ShloMosaic.Lib.Pipeline.Value

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- The one store is over the whole block. -/
theorem cover5_7 (p0 : Vec F S256x10 .f32) (y : S256x10.Idx) :
    ∃ pc ∈ ([⟨rO, p0⟩] : List (View.Piece (Elt F) S256x10 .f32)), y ∈ pc.1.set :=
  View.cover_of_tiled [⟨rO, p0⟩] S256x10.size (by rfl) y

/-- The body reads the seven input blocks whole and overwrites the whole output block with the readout of them. -/
theorem sound_kernel5 (c : Dev nD) (E : Set ℕ) (i : grid5.Coords)
    (arg0 : Memref sig .tc .vmem S256x146 .f32) (harg0 : arg0.IsWhole) (arg1 : Memref sig .tc .vmem S146x73 .f32) (harg1 : arg1.IsWhole)
    (arg2 : Memref sig .tc .vmem S1x73 .f32) (harg2 : arg2.IsWhole) (arg3 : Memref sig .tc .vmem S73x36 .f32) (harg3 : arg3.IsWhole)
    (arg4 : Memref sig .tc .vmem S1x36 .f32) (harg4 : arg4.IsWhole) (arg5 : Memref sig .tc .vmem S36x10 .f32) (harg5 : arg5.IsWhole)
    (arg6 : Memref sig .tc .vmem S1x10 .f32) (harg6 : arg6.IsWhole) (arg7 : Memref sig .tc .vmem S256x10 .f32) (harg7 : arg7.IsWhole)
    (x0 : Vec F S256x146 .f32) (x1 : Vec F S146x73 .f32) (x2 : Vec F S1x73 .f32) (x3 : Vec F S73x36 .f32) (x4 : Vec F S1x36 .f32)
    (x5 : Vec F S36x10 .f32) (x6 : Vec F S1x10 .f32) (d : Vec F S256x10 .f32) (K : PUnit → sProp 𝕄) :
    iprop(owns (c : Thread nD τ) arg0 fullShare x0 ∗ owns (c : Thread nD τ) arg1 fullShare x1 ∗ owns (c : Thread nD τ) arg2 fullShare x2
        ∗ owns (c : Thread nD τ) arg3 fullShare x3 ∗ owns (c : Thread nD τ) arg4 fullShare x4 ∗ owns (c : Thread nD τ) arg5 fullShare x5
        ∗ owns (c : Thread nD τ) arg6 fullShare x6 ∗ owns (c : Thread nD τ) arg7 fullShare d
        ∗ (iprop(owns (c : Thread nD τ) arg0 fullShare x0 ∗ owns (c : Thread nD τ) arg1 fullShare x1 ∗ owns (c : Thread nD τ) arg2 fullShare x2
            ∗ owns (c : Thread nD τ) arg3 fullShare x3 ∗ owns (c : Thread nD τ) arg4 fullShare x4 ∗ owns (c : Thread nD τ) arg5 fullShare x5
            ∗ owns (c : Thread nD τ) arg6 fullShare x6 ∗ owns (c : Thread nD τ) arg7 fullShare (out5_7 x0 x1 x2 x3 x4 x5 x6)) -∗ K ⟨⟩))
      ⊢ wp frame (wpE (defs₀ (F := F)) Variants.none c none) E
          (cc5__mlp_kernel i arg0 harg0 arg1 harg1 arg2 harg2 arg3 harg3 arg4 harg4 arg5 harg5 arg6 harg6 arg7 harg7) K := by
  simp only [cc5__mlp_kernel_eq_skeleton]; unfold cc5__mlp_kernel_skel owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, -, H7⟩, Hk⟩
  subst hf0 hf1 hf2 hf3 hf4 hf5 hf6
  sl_exec
  sl_step
  iapply Hk
  isplitl [H0]; · iexists f0; isplitr; ipureintro; rfl; iexact H0
  isplitl [H1]; · iexists f1; isplitr; ipureintro; rfl; iexact H1
  isplitl [H2]; · iexists f2; isplitr; ipureintro; rfl; iexact H2
  isplitl [H3]; · iexists f3; isplitr; ipureintro; rfl; iexact H3
  isplitl [H4]; · iexists f4; isplitr; ipureintro; rfl; iexact H4
  isplitl [H5]; · iexists f5; isplitr; ipureintro; rfl; iexact H5
  isplitl [H6]; · iexists f6; isplitr; ipureintro; rfl; iexact H6
  iexists _; isplitr
  swap; · iexact H7
  ipureintro
  exact View.read_writes_eq_canon _ _ _ (cover5_7 _)

theorem A_eq5 (c : Dev nD) (w : Fin cfg5.W) : (dat5 V c).A w = V c (Pipeline.arrRef spec5 w) := rfl

theorem before5_0 (c : Dev nD) (t : Fin cfg5.N) (d) : (dat5 V c).before 0 t d = iblk5 V c 0 t :=
  Dat.before_fetched _ 0 t (fetch5_0 t) d
theorem before5_1 (c : Dev nD) (t : Fin cfg5.N) (d) : (dat5 V c).before 1 t d = iblk5 V c 1 t :=
  Dat.before_fetched _ 1 t (fetch5_1 t) d
theorem before5_2 (c : Dev nD) (t : Fin cfg5.N) (d) : (dat5 V c).before 2 t d = iblk5 V c 2 t :=
  Dat.before_fetched _ 2 t (fetch5_2 t) d
theorem before5_3 (c : Dev nD) (t : Fin cfg5.N) (d) : (dat5 V c).before 3 t d = iblk5 V c 3 t :=
  Dat.before_fetched _ 3 t (fetch5_3 t) d
theorem before5_4 (c : Dev nD) (t : Fin cfg5.N) (d) : (dat5 V c).before 4 t d = iblk5 V c 4 t :=
  Dat.before_fetched _ 4 t (fetch5_4 t) d
theorem before5_5 (c : Dev nD) (t : Fin cfg5.N) (d) : (dat5 V c).before 5 t d = iblk5 V c 5 t :=
  Dat.before_fetched _ 5 t (fetch5_5 t) d
theorem before5_6 (c : Dev nD) (t : Fin cfg5.N) (d) : (dat5 V c).before 6 t d = iblk5 V c 6 t :=
  Dat.before_fetched _ 6 t (fetch5_6 t) d

/-- The body's triple at any point, under any frame. -/
theorem sound_body5 (c : Dev nD) (t : Fin cfg5.N) (P Q : sProp 𝕄) :
    iprop(P ∗ Q
      ∗ (∃ d, owns (c : Thread nD τ) (st5_0 t) fullShare ((dat5 V c).before 0 t d))
      ∗ (∃ d, owns (c : Thread nD τ) (st5_1 t) fullShare ((dat5 V c).before 1 t d))
      ∗ (∃ d, owns (c : Thread nD τ) (st5_2 t) fullShare ((dat5 V c).before 2 t d))
      ∗ (∃ d, owns (c : Thread nD τ) (st5_3 t) fullShare ((dat5 V c).before 3 t d))
      ∗ (∃ d, owns (c : Thread nD τ) (st5_4 t) fullShare ((dat5 V c).before 4 t d))
      ∗ (∃ d, owns (c : Thread nD τ) (st5_5 t) fullShare ((dat5 V c).before 5 t d))
      ∗ (∃ d, owns (c : Thread nD τ) (st5_6 t) fullShare ((dat5 V c).before 6 t d))
      ∗ (∃ d, owns (c : Thread nD τ) (st5_7 t) fullShare ((dat5 V c).before 7 t d)))
      ⊢ wp frame (wpE (defs₀ (F := F)) Variants.none c none) Set.univ (bodyAt5 t) (fun _ => iprop(P ∗ Q
        ∗ owns (c : Thread nD τ) (st5_0 t) fullShare (iblk5 V c 0 t)
        ∗ owns (c : Thread nD τ) (st5_1 t) fullShare (iblk5 V c 1 t)
        ∗ owns (c : Thread nD τ) (st5_2 t) fullShare (iblk5 V c 2 t)
        ∗ owns (c : Thread nD τ) (st5_3 t) fullShare (iblk5 V c 3 t)
        ∗ owns (c : Thread nD τ) (st5_4 t) fullShare (iblk5 V c 4 t)
        ∗ owns (c : Thread nD τ) (st5_5 t) fullShare (iblk5 V c 5 t)
        ∗ owns (c : Thread nD τ) (st5_6 t) fullShare (iblk5 V c 6 t)
        ∗ owns (c : Thread nD τ) (st5_7 t) fullShare (out5_7 (iblk5 V c 0 t) (iblk5 V c 1 t) (iblk5 V c 2 t) (iblk5 V c 3 t) (iblk5 V c 4 t) (iblk5 V c 5 t) (iblk5 V c 6 t)))) := by
  unfold bodyAt5
  simp only [before5_0, before5_1, before5_2, before5_3, before5_4, before5_5, before5_6]
  iintro ⟨HP, HQ, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel5 c Set.univ _ _ _ _ _ _ _ _ _ _ _ _ _ _ _ _ _
    (iblk5 V c 0 t) (iblk5 V c 1 t) (iblk5 V c 2 t) (iblk5 V c 3 t) (iblk5 V c 4 t) (iblk5 V c 5 t) (iblk5 V c 6 t) _ _)
  iframe H0 H1 H2 H3 H4 H5 H6 H7
  iintro H
  iframe

theorem body_obligation5 (c : Dev nD) : BodyObligation (dat5 (F := F) V c) (defs₀ (F := F)) Variants.none () Set.univ := fun t => by
  rw [bigSep_W5, bigSep_W5]
  exact sound_body5 V c t _ _

end Cert.Kernel.Hand

end
-- ==== Proof.K.Run.lean ====
import proofs.«430219_j41016937677162_3_alg».proof.Proof.K.Dats
import proofs.«430219_j41016937677162_3_alg».proof.Proof.K.RLin
import proofs.«430219_j41016937677162_3_alg».proof.Proof.K.R4
import proofs.«430219_j41016937677162_3_alg».proof.Proof.K.R5
import proofs.«430219_j41016937677162_3_alg».proof.Proof.Gen.Kernel.Regions

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

abbrev W0 : Dev nD → Valuation τ sig (Elt F) := fun c b => (s₀ m ρ).mem ((c : Dev nD), b)

abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b
def W2 (c : Dev nD) : Valuation τ sig (Elt F) :=
  Pipeline.withArrays spec0 c (W1 m ρ c) fun w => (dat0 (V1 m ρ) c).arrAt w cfg0.N
abbrev V2 : (c : Dev nD) → (b : Ref sig .tc) → Buf (Elt F) ((c : Thread nD τ).loc b) := fun c b => W2 m ρ c b

abbrev W3 : Dev nD → Valuation τ sig (Elt F) := fun c => StableHlo.after hostOps1 (W2 m ρ c)
abbrev V3 : (c : Dev nD) → (b : Ref sig .tc) → Buf (Elt F) ((c : Thread nD τ).loc b) := fun c b => W3 m ρ c b
def W4 (c : Dev nD) : Valuation τ sig (Elt F) :=
  Pipeline.withArrays spec1 c (W3 m ρ c) fun w => (dat1 (V3 m ρ) c).arrAt w cfg1.N
abbrev V4 : (c : Dev nD) → (b : Ref sig .tc) → Buf (Elt F) ((c : Thread nD τ).loc b) := fun c b => W4 m ρ c b

abbrev W5 : Dev nD → Valuation τ sig (Elt F) := fun c => StableHlo.after hostOps2 (W4 m ρ c)
abbrev V5 : (c : Dev nD) → (b : Ref sig .tc) → Buf (Elt F) ((c : Thread nD τ).loc b) := fun c b => W5 m ρ c b
def W6 (c : Dev nD) : Valuation τ sig (Elt F) :=
  Pipeline.withArrays spec2 c (W5 m ρ c) fun w => (dat2 (V5 m ρ) c).arrAt w cfg2.N
abbrev V6 : (c : Dev nD) → (b : Ref sig .tc) → Buf (Elt F) ((c : Thread nD τ).loc b) := fun c b => W6 m ρ c b

abbrev W7 : Dev nD → Valuation τ sig (Elt F) := fun c => StableHlo.after hostOps3 (W6 m ρ c)
abbrev V7 : (c : Dev nD) → (b : Ref sig .tc) → Buf (Elt F) ((c : Thread nD τ).loc b) := fun c b => W7 m ρ c b
def W8 (c : Dev nD) : Valuation τ sig (Elt F) :=
  Pipeline.withArrays spec3 c (W7 m ρ c) fun w => (dat3 (V7 m ρ) c).arrAt w cfg3.N
abbrev V8 : (c : Dev nD) → (b : Ref sig .tc) → Buf (Elt F) ((c : Thread nD τ).loc b) := fun c b => W8 m ρ c b

abbrev W9 : Dev nD → Valuation τ sig (Elt F) := fun c => StableHlo.after hostOps4 (W8 m ρ c)
abbrev V9 : (c : Dev nD) → (b : Ref sig .tc) → Buf (Elt F) ((c : Thread nD τ).loc b) := fun c b => W9 m ρ c b
def W10 (c : Dev nD) : Valuation τ sig (Elt F) :=
  Pipeline.withArrays spec4 c (W9 m ρ c) fun w => (dat4 (V9 m ρ) c).arrAt w cfg4.N
abbrev V10 : (c : Dev nD) → (b : Ref sig .tc) → Buf (Elt F) ((c : Thread nD τ).loc b) := fun c b => W10 m ρ c b

abbrev W11 : Dev nD → Valuation τ sig (Elt F) := fun c => StableHlo.after hostOps5 (W10 m ρ c)
abbrev V11 : (c : Dev nD) → (b : Ref sig .tc) → Buf (Elt F) ((c : Thread nD τ).loc b) := fun c b => W11 m ρ c b
def W12 (c : Dev nD) : Valuation τ sig (Elt F) :=
  Pipeline.withArrays spec5 c (W11 m ρ c) fun w => (dat5 (V11 m ρ) c).arrAt w cfg5.N
abbrev V12 : (c : Dev nD) → (b : Ref sig .tc) → Buf (Elt F) ((c : Thread nD τ).loc b) := fun c b => W12 m ρ c b

abbrev adm : (p : Fin 6) → (pcfgs (F := F) p).Adm := fun p => (cfgs p).toPCfg_adm
def pdats : (p : Fin 6) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V3 m ρ) c
  | ⟨2, _⟩ => fun c => dat2 (V5 m ρ) c
  | ⟨3, _⟩ => fun c => dat3 (V7 m ρ) c
  | ⟨4, _⟩ => fun c => dat4 (V9 m ρ) c
  | ⟨5, _⟩ => fun c => dat5 (V11 m ρ) c
abbrev 𝒱₀ : Variants := Variants.none
abbrev L : GSem nD τ sig → Finset Unit := fun _ => ∅
abbrev lv : GSem nD τ sig → Unit → ℕ := fun _ _ => 0
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

theorem prefEmp : ∀ (p : Fin 6) (c : Dev nD),
    (BI.emp : sProp 𝕄) ⊢ Pipeline.prefHeld (pcfgs (F := F) p).pre c (fun _ => fullShare) (adm p).1
  | ⟨0, _⟩, _ | ⟨1, _⟩, _ | ⟨2, _⟩, _ | ⟨3, _⟩, _ | ⟨4, _⟩, _ | ⟨5, _⟩, _ => by
    unfold Pipeline.prefHeld; rw [show (Finset.univ : Finset (Fin 0)) = ∅ from rfl, BI.bigSep_empty]

theorem pd_share : ∀ (p : Fin 6) (c : Dev nD) w, (pdats m ρ p c).share w = fullShare
  | ⟨0, _⟩, _ | ⟨1, _⟩, _ | ⟨2, _⟩, _ | ⟨3, _⟩, _ | ⟨4, _⟩, _ | ⟨5, _⟩, _ => Dat.share_full _ fun _ => rfl

theorem pd_owed : ∀ (p : Fin 6) (c : Dev nD) t, (pdats m ρ p c).owed t = 0
  | ⟨0, _⟩, _ | ⟨1, _⟩, _ | ⟨2, _⟩, _ | ⟨3, _⟩, _ | ⟨4, _⟩, _ | ⟨5, _⟩, _ => fun _ => rfl

theorem owes_in : ∀ (p : Fin 6) (c : Dev nD),
    (iprop(∃ W, owes (c : Thread nD τ) (0 : CellTallies nD τ sig Unit) W) : sProp 𝕄) ⊢ (pdats m ρ p c).owesAt () 0
  | ⟨0, _⟩, _ | ⟨1, _⟩, _ | ⟨2, _⟩, _ | ⟨3, _⟩, _ | ⟨4, _⟩, _ | ⟨5, _⟩, _ => by
    unfold Pipeline.Dat.owesAt Pipeline.owesWithin
    iintro ⟨%W, HO⟩; iexists W; isplitr; · ipureintro; exact fun _ _ => Or.inl trivial
    iexact HO

theorem owes_out : ∀ (p : Fin 6) (c : Dev nD), (pdats m ρ p c).owesAt () (Fin.last (Pipeline.pin (pcfgs (F := F)) adm p).N)
    ⊢ (iprop(∃ W, owes (c : Thread nD τ) (0 : CellTallies nD τ sig Unit) W) : sProp 𝕄)
  | ⟨0, _⟩, _ | ⟨1, _⟩, _ | ⟨2, _⟩, _ | ⟨3, _⟩, _ | ⟨4, _⟩, _ | ⟨5, _⟩, _ => by
    unfold Pipeline.Dat.owesAt Pipeline.owesWithin
    iintro ⟨%W, -, HO⟩; iexists W; iexact HO

set_option backward.isDefEq.respectTransparency.types false in
def regOf (p : Fin 6) (lch : Pipeline.LaunchFacts (nD := nD) (τ := τ) cfgs p) (Wi Wo : Dev nD → Valuation τ sig (Elt F))
    (hbody : ∀ c, BodyObligation (pdats m ρ p c) (defs₀ (F := F)) 𝒱₀ () Set.univ)
    (hA : ∀ c w, (pdats m ρ p c).A w = Wi c (Proc.devRef .tc (Pipeline.arrRef (Pipeline.pin (pcfgs (F := F)) adm p).spec w)))
    (hWo : ∀ c, Wo c = Pipeline.withArrays (Pipeline.pin (pcfgs (F := F)) adm p).spec c (Wi c) fun w => (pdats m ρ p c).arrAt w (Pipeline.pin (pcfgs (F := F)) adm p).N)
    (hin : ∀ c, Pipeline.ΦA (Pipeline.pin (pcfgs (F := F)) adm p).spec c ⊢ (pdats m ρ p c).Φ 0)
    (hout : ∀ c, (pdats m ρ p c).Φ (Fin.last (Pipeline.pin (pcfgs (F := F)) adm p).N) ⊢ Pipeline.ΦA (Pipeline.pin (pcfgs (F := F)) adm p).spec c) :
    Pipeline.RegionSeg (pcfgs (F := F)) adm (pdats m ρ) () defs₀ 𝒱₀ L lv p where
  win := lch.win.to₀
  block_pos := lch.block_pos
  stage_whole := lch.stage_whole
  K := PEmpty
  osem k := k.elim
  ho := Pipeline.OwnSemFacts.none _
  hbody c := (hbody c).loose
  hwaits := Pipeline.hwaits_of_owed_zero _ _ _ _ L lv p (pd_owed m ρ p)
  pre c := iprop(StableHlo.held (c : Thread nD τ) (Pipeline.ucRefs τ sig) (Wi c) ∗ R c)
  post c := iprop(StableHlo.held (c : Thread nD τ) (Pipeline.ucRefs τ sig) (Wo c) ∗ R c)
  X c := iprop(∃ r, prngReg c r)
  Y c := iprop(∃ r, prngReg c r)
  Z c := Pipeline.unscopedRest (Ix := Unit) (Name := ℕ) (U := UR sig nD τ) (Lvl := ℕ) (Pipeline.pin (pcfgs (F := F)) adm p).spec c (fun b => Wi c b)
  hentry c := by
    rw [Pipeline.ownSems0_none]
    have hsplit := Pipeline.arrays_of_unscopedBufs (p := p) (pcfgs (F := F)) adm (pdats m ρ) lch.win lch.arr_whole c
      (pd_share m ρ p c) (fun b => Wi c b) (hA c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · iapply (prefEmp p c); iempintro
    isplitl [HO]; · iapply (owes_in m ρ p c); iexact HO
    isplitl [Hp]; · iexact Hp
    iexact Hrest
  hin c := by
    refine .trans ?_ (hin c)
    unfold Pipeline.ΦA
    iintro ⟨Hp, -, Hr⟩
    isplitl [Hr]; · iexact Hr
    iexact Hp
  hout c := by
    rw [Pipeline.ownSems0_none]
    refine (hout c).trans ?_
    unfold Pipeline.ΦA
    iintro ⟨Hr, Hp⟩
    isplitl [Hp]; · iexact Hp
    isplitr; · iempintro
    iexact Hr
  hexit c := by
    have hjoin := Pipeline.unscopedBufs_of_arrays (p := p) (pcfgs (F := F)) adm (Ix := Unit) (Name := ℕ) (U := UR sig nD τ) (Lvl := ℕ)
      lch.win lch.arr_whole c (pdats m ρ) (pd_share m ρ p c) (fun b => Wi c b) (fun b => Wo c b) ((pdats m ρ p c).arrAt · (Pipeline.pin (pcfgs (F := F)) adm p).N)
      (fun w => by
        rw [hWo c]
        exact (Pipeline.withArrays_arr (Pipeline.pin (pcfgs (F := F)) adm p).spec lch.win.arr_inj c (Wi c) (fun w => (pdats m ρ p c).arrAt w (Pipeline.pin (pcfgs (F := F)) adm p).N) w).symm)
      (fun b hb => by
        rw [hWo c]
        exact Pipeline.withArrays_of_ne _ c _ _ b fun w e => hb (Finset.mem_image.mpr ⟨w, Finset.mem_univ _, e⟩))
    rw [Pipeline.unscopedBufs_held] at hjoin
    iintro ⟨Ha, HO, HY, Hrest⟩
    imodintro
    isplitl [Ha Hrest]
    · iapply hjoin; isplitl [Ha] <;> iassumption
    isplitl [HY]; · iexact HY
    iapply (owes_out m ρ p c); iexact HO

abbrev Tₙ (c : Dev nD) : sProp 𝕄 := iprop(StableHlo.held (c : Thread nD τ) (Pipeline.ucRefs τ sig) (W12 m ρ c) ∗ ∃ r, prngReg c r)

set_option backward.isDefEq.respectTransparency.types false in
def reg0 := regOf m ρ 0 launch0 (W1 m ρ) (W2 m ρ) (body_obligation0 (V1 m ρ)) (fun _ _ => rfl) (fun _ => rfl) (fun _ => .rfl) (fun _ => .rfl)
set_option backward.isDefEq.respectTransparency.types false in
def reg1 := regOf m ρ 1 launch1 (W3 m ρ) (W4 m ρ) (body_obligation1 (V3 m ρ)) (fun _ _ => rfl) (fun _ => rfl) (fun _ => .rfl) (fun _ => .rfl)
set_option backward.isDefEq.respectTransparency.types false in
def reg2 := regOf m ρ 2 launch2 (W5 m ρ) (W6 m ρ) (body_obligation2 (V5 m ρ)) (fun _ _ => rfl) (fun _ => rfl) (fun _ => .rfl) (fun _ => .rfl)
set_option backward.isDefEq.respectTransparency.types false in
def reg3 := regOf m ρ 3 launch3 (W7 m ρ) (W8 m ρ) (body_obligation3 (V7 m ρ)) (fun _ _ => rfl) (fun _ => rfl) (fun _ => .rfl) (fun _ => .rfl)
set_option backward.isDefEq.respectTransparency.types false in
def reg4 := regOf m ρ 4 launch4 (W9 m ρ) (W10 m ρ) (body_obligation4 (V9 m ρ)) (fun c w => A_eq4 (V9 m ρ) c w) (fun _ => rfl) (hin4 (V9 m ρ)) (hout4 (V9 m ρ))
set_option backward.isDefEq.respectTransparency.types false in
def reg5 := regOf m ρ 5 launch5 (W11 m ρ) (W12 m ρ) (body_obligation5 (V11 m ρ)) (fun _ _ => rfl) (fun _ => rfl) (fun _ => .rfl) (fun _ => .rfl)

abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ),
    .host (hseg hostOps2 hostOps2_sub hostOps2_fresh (W4 m ρ)),
    .region (reg2 m ρ),
    .host (hseg hostOps3 hostOps3_sub hostOps3_fresh (W6 m ρ)),
    .region (reg3 m ρ),
    .host (hseg hostOps4 hostOps4_sub hostOps4_fresh (W8 m ρ)),
    .region (reg4 m ρ),
    .host (hseg hostOps5 hostOps5_sub hostOps5_fresh (W10 m ρ)),
    .region (reg5 m ρ) ]

theorem main_run (c : Dev nD) : main (F := F) c = Pipeline.Seg.run (segs m ρ) := by
  rewrite [main_chain c, Pipeline.Seg.run_eq_chain,
    show (segs m ρ).map Pipeline.Seg.prog = [
      StableHlo.seq hostOps0,
      Prog.lift (.customCall (Pipeline.entry 0) ()),
      StableHlo.seq hostOps1,
      Prog.lift (.customCall (Pipeline.entry 1) ()),
      StableHlo.seq hostOps2,
      Prog.lift (.customCall (Pipeline.entry 2) ()),
      StableHlo.seq hostOps3,
      Prog.lift (.customCall (Pipeline.entry 3) ()),
      StableHlo.seq hostOps4,
      Prog.lift (.customCall (Pipeline.entry 4) ()),
      StableHlo.seq hostOps5,
      Prog.lift (.customCall (Pipeline.entry 5) ()) ] from rfl]
  rfl

set_option backward.isDefEq.respectTransparency.types false in
theorem run_all : θ_run defs (onTc (τ := τ) (main (F := F))) ⟨m, fun _ => 0, ρ⟩ (fun r => ∀ c : Dev nD,
      ∀ b ∈ Pipeline.ucRefs τ sig, r.2.mem (((c : Thread nD τ)).1, b) = W12 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => sep_assoc.2⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W12 m ρ c b)
    (hfin := fun c s' => by
      iintro ⟨⟨Hh, -⟩, HSI⟩
      unfold StableHlo.held
      imodintro
      iapply (pointsTo_read_all (Pipeline.ucRefs τ sig) (fun b => (((c : Thread nD τ)).1, b)) (W12 m ρ c) s')
      isplitl [Hh] <;> iassumption)
    (hQ := fun s h => h)

/-- A reference no host stretch writes and no region has an output window on. -/
def Quiet (b : Ref sig .tc) : Prop :=
  ¬ (Proc.devRef .tc b : DevRef τ sig).isScoped
  ∧ b ∉ hostOps0_W ++ hostOps1_W ++ hostOps2_W ++ hostOps3_W ++ hostOps4_W ++ hostOps5_W
  ∧ (∀ w, Pipeline.arrRef spec0 w = b → (cfg0.win w).isOut = false) ∧ (∀ w, Pipeline.arrRef spec1 w = b → (cfg1.win w).isOut = false)
  ∧ (∀ w, Pipeline.arrRef spec2 w = b → (cfg2.win w).isOut = false) ∧ (∀ w, Pipeline.arrRef spec3 w = b → (cfg3.win w).isOut = false)
  ∧ (∀ w, Pipeline.arrRef spec4 w = b → (cfg4.win w).isOut = false) ∧ (∀ w, Pipeline.arrRef spec5 w = b → (cfg5.win w).isOut = false)

instance (b : Ref sig .tc) : Decidable (Quiet b) := by unfold Quiet; infer_instance

/-- A region's exit contents agree with its entry contents at a reference all of whose windows are inputs. -/
theorem keep_of_in {cfg : Cfg sig Λ₀} {c : Dev nD} (dat : Dat τ (Elt F) Unit ℕ (UR sig nD τ) ℕ cfg c)
    (hinj : Function.Injective (Pipeline.arrRef cfg.spec)) (Wi : Valuation τ sig (Elt F))
    (hA : ∀ w, dat.A w = Wi (Proc.devRef .tc (Pipeline.arrRef cfg.spec w))) (b : Ref sig .tc)
    (hb : ∀ w, Pipeline.arrRef cfg.spec w = b → (cfg.win w).isOut = false) :
    Pipeline.withArrays cfg.spec c Wi (fun w => dat.arrAt w cfg.N) (Proc.devRef .tc b) = Wi (Proc.devRef .tc b) := by
  by_cases h : ∃ w, Pipeline.arrRef cfg.spec w = b
  · obtain ⟨w, rfl⟩ := h
    rw [Pipeline.withArrays_arr _ hinj, dat.arrAt_in w (hb w rfl), hA]
  · exact Pipeline.withArrays_of_ne _ c _ _ b fun w e => h ⟨w, e⟩

/-- A quiet reference ends as launched: every segment leaves it alone. -/
theorem W12_quiet (c : Dev nD) (b : Ref sig .tc) (h : Quiet b) : W12 m ρ c (Proc.devRef .tc b) = m ((c : Thread nD τ).loc b) := by
  obtain ⟨-, hw, h0, h1, h2, h3, h4, h5⟩ := h
  simp only [List.mem_append, not_or] at hw
  obtain ⟨⟨⟨⟨⟨w0, w1⟩, w2⟩, w3⟩, w4⟩, w5⟩ := hw
  exact (keep_of_in (dat5 (V11 m ρ) c) launch5.win.arr_inj _ (fun _ => rfl) b h5).trans <| (StableHlo.after_of_writes_sub hostOps5 _ hostOps5_writes w5).trans <|
    (keep_of_in (dat4 (V9 m ρ) c) launch4.win.arr_inj _ (fun _ => rfl) b h4).trans <| (StableHlo.after_of_writes_sub hostOps4 _ hostOps4_writes w4).trans <|
    (keep_of_in (dat3 (V7 m ρ) c) launch3.win.arr_inj _ (fun _ => rfl) b h3).trans <| (StableHlo.after_of_writes_sub hostOps3 _ hostOps3_writes w3).trans <|
    (keep_of_in (dat2 (V5 m ρ) c) launch2.win.arr_inj _ (fun _ => rfl) b h2).trans <| (StableHlo.after_of_writes_sub hostOps2 _ hostOps2_writes w2).trans <|
    (keep_of_in (dat1 (V3 m ρ) c) launch1.win.arr_inj _ (fun _ => rfl) b h1).trans <| (StableHlo.after_of_writes_sub hostOps1 _ hostOps1_writes w1).trans <|
    (keep_of_in (dat0 (V1 m ρ) c) launch0.win.arr_inj _ (fun _ => rfl) b h0).trans <| StableHlo.after_of_writes_sub hostOps0 _ hostOps0_writes w0

/-- What a final state holds at a quiet reference, from its agreement with the last boundary's contents. -/
theorem mem_quiet {c : Dev nD} {s : MemSt nD τ sig (Elt F)}
    (h : ∀ b ∈ Pipeline.ucRefs τ sig, s.mem (((c : Thread nD τ)).1, b) = W12 m ρ c b) (b : Ref sig .tc) (hq : Quiet b) :
    s.mem ((c : Thread nD τ).loc b) = m ((c : Thread nD τ).loc b) :=
  (h _ (mem_uc b hq.1)).trans (W12_quiet m ρ c b hq)

end Cert.Kernel.Hand

end
-- ==== Proof.Frames.lean ====
import proofs.«430219_j41016937677162_3_alg».proof.Defs
import proofs.«430219_j41016937677162_3_alg».proof.Proof.Gen.Pre_finite_inputs
import proofs.«430219_j41016937677162_3_alg».proof.Proof.K.Run
import proofs.«430219_j41016937677162_3_alg».proof.Proof.KI.Run
import proofs.«430219_j41016937677162_3_alg».proof.Proof.RefSide

set_option maxRecDepth 16384

noncomputable section

namespace Cert.Proof

open Idealize.ShloMosaic Idealize.ShloMosaic.TcCoe Idealize.SL.Sem

/-- Each argument is read off the last boundary's contents, which no segment of the program writes. -/
theorem frame_k : Cert.frame_Kernel := fun m ρ _ =>
  (θ_run Cert.Kernel.defs _ _).mono (fun r h c => by
    have a := Cert.Kernel.Hand.mem_quiet m ρ (h c)
    open Cert.Kernel in
    exact ⟨a main_arg0 (by decide), a main_arg1 (by decide), a main_arg2 (by decide), a main_arg3 (by decide), a main_arg4 (by decide), a main_arg5 (by decide), a main_arg6 (by decide), a main_arg7 (by decide), a main_arg8 (by decide), a main_arg9 (by decide), a main_arg10 (by decide), a main_arg11 (by decide), a main_arg12 (by decide)⟩)
    (Cert.Kernel.Hand.run_all (F := Bits) m ρ)

theorem frame_ki : Cert.frame_KernelIdeal := fun m ρ _ =>
  (θ_run Cert.KernelIdeal.defs _ _).mono (fun r h c => by
    have a := Cert.KernelIdeal.Hand.mem_quiet m ρ (h c)
    open Cert.KernelIdeal in
    exact ⟨a main_arg0 (by decide), a main_arg1 (by decide), a main_arg2 (by decide), a main_arg3 (by decide), a main_arg4 (by decide), a main_arg5 (by decide), a main_arg6 (by decide), a main_arg7 (by decide), a main_arg8 (by decide), a main_arg9 (by decide), a main_arg10 (by decide), a main_arg11 (by decide), a main_arg12 (by decide)⟩)
    (Cert.KernelIdeal.Hand.run_all (F := Ideal) m ρ)

/-- The reference's frame is its run with the result dropped. -/
theorem frame_ri : Cert.frame_ReferenceIdeal := fun m ρ _ =>
  (θ_run Cert.ReferenceIdeal.defs _ _).mono (fun _ h c => (h c).2) (Cert.ReferenceIdeal.Value.run (F := Ideal) m ρ)

end Cert.Proof

end
-- ==== Proof.lean ====
/-
  A graph network over 100000 nodes: an embedding, four layers (a 146 × 146 product, the sum of rows along the edges, a bias
  row, a clamp at zero), the mean of the node rows over 256 groups and a three-layer readout. Both programs compute one
  function of the arguments, entry by entry: the sum along the edges is the same operator in both; the first layer's
  re-association x · (E · W) + e · W = (x · E + e) · W holds because every argument entry is a real number; a product
  with a 0/1 indicator matrix is the group sum term by term.
-/
import proofs.«430219_j41016937677162_3_alg».proof.Defs
import proofs.«430219_j41016937677162_3_alg».proof.Proof.Gen.Kernel
import proofs.«430219_j41016937677162_3_alg».proof.Proof.Gen.KernelIdeal
import proofs.«430219_j41016937677162_3_alg».proof.Proof.Gen.ReferenceIdeal
import proofs.«430219_j41016937677162_3_alg».proof.Proof.Gen.Pre_finite_inputs
import proofs.«430219_j41016937677162_3_alg».proof.Proof.KI.Run
import proofs.«430219_j41016937677162_3_alg».proof.Proof.KI.Final
import proofs.«430219_j41016937677162_3_alg».proof.Proof.RefVal
import proofs.«430219_j41016937677162_3_alg».proof.Proof.SpecLaws
import proofs.«430219_j41016937677162_3_alg».proof.Proof.FinitePre
import proofs.«430219_j41016937677162_3_alg».proof.Proof.EdgeSame
import proofs.«430219_j41016937677162_3_alg».proof.Proof.Frames
import Idealize.ShloMosaic.Adequacy
import Idealize.ShloMosaic.Init

set_option maxRecDepth 16384

noncomputable section

namespace Cert.Proof

open Idealize.ShloMosaic Idealize.ShloMosaic.TcCoe Idealize.ShloMosaic.ValueIdx Idealize.SL.Sem Cert.Spec

section
open Cert.KernelIdeal
variable (m : (ℓ : Loc nD τ sig) → Buf (Elt Ideal) ℓ) (ρ : Dev nD → PrngReg) (c : Dev nD)

abbrev arg (b : Ref sig .tc) := m ((c.tc : Thread nD τ).loc b)

theorem edgeSumK_same (A : Fin 100000 → Fin 146 → EReal) :
    Val.edgeSumK m ρ c A = Cert.ReferenceIdeal.RefVal.edgeSum (arg m c main_arg1) A :=
  funext fun p => funext fun q => (Val.edgeSumK_eq m ρ c A p q).trans (edgeSum_same (Hand.W0 m ρ c) A p q)

theorem nodes_same [Cert.Pre_finite_inputs.Facts] (hpre : Cert.Pre_KernelIdeal m) :
    Val.nodesK m ρ c = Cert.ReferenceIdeal.RefVal.nodes (arg m c main_arg0) (arg m c main_arg1) (arg m c main_arg3) (arg m c main_arg4) (arg m c main_arg5) (arg m c main_arg6) := by
  obtain ⟨h0, h3, h4, h5⟩ := Cert.FinitePre.real_of_pre _ _ _ _ _ _ _ _ _ _ _ _ _ (hpre c)
  have hfirst : Val.hw0 m ρ c = first_plain (Cert.ReferenceIdeal.RefVal.X (arg m c main_arg0)) (Cert.ReferenceIdeal.RefVal.E (arg m c main_arg3))
      (Cert.ReferenceIdeal.RefVal.e (arg m c main_arg4)) (Cert.ReferenceIdeal.RefVal.Wl (arg m c main_arg5) 0) :=
    first_folded_eq_plain _ _ _ _ (fun p j => h0 (ix2 p j)) (fun j k => h3 (ix2 j k)) (fun j => h4 (ix1 j)) (fun j k => h5 (ix3 0 j k))
  unfold Val.nodesK Val.hw3 Val.hw2 Val.hw1
  rw [hfirst]
  simp only [edgeSumK_same]
  rfl

end

theorem algebraic : Cert.algebraic_KernelIdeal_ReferenceIdeal := by
  intro m ρ m' ρ' hpre hagree
  refine ⟨fun c => Cert.KernelIdeal.Hand.W12 m ρ c (Proc.devRef .tc Cert.KernelIdeal.main_v86), ?_, ?_⟩
  · exact (θ_run Cert.KernelIdeal.defs _ _).mono (fun r h c => by
      have a := Cert.KernelIdeal.Hand.mem_quiet m ρ (h c)
      open Cert.KernelIdeal in
      exact ⟨h c _ (Cert.KernelIdeal.Hand.mem_uc main_v86 (by decide)), a main_arg0 (by decide), a main_arg1 (by decide), a main_arg2 (by decide), a main_arg3 (by decide), a main_arg4 (by decide), a main_arg5 (by decide), a main_arg6 (by decide), a main_arg7 (by decide), a main_arg8 (by decide), a main_arg9 (by decide), a main_arg10 (by decide), a main_arg11 (by decide), a main_arg12 (by decide)⟩)
      (Cert.KernelIdeal.Hand.run_all (F := Ideal) m ρ)
  · refine (θ_run Cert.ReferenceIdeal.defs _ _).mono (fun r h c => ⟨(h c).1.trans ?_, (h c).2⟩)
      (Cert.ReferenceIdeal.Value.run (F := Ideal) m' ρ')
    obtain ⟨e0, e1, e2, e3, e4, e5, e6, e7, e8, e9, e10, e11, e12⟩ := hagree c
    rw [Cert.ReferenceIdeal.Read.val_main_v109_eq, e0, e1, e2, e3, e4, e5, e6, e7, e8, e9, e10, e11, e12]
    refine funext fun i => ?_
    refine (congrArg _ (eq_ix2 i)).trans ?_
    refine (Cert.ReferenceIdeal.RefVal.ref_nodes _ _ _ _ _ _ _ _ _ _ _ _ _ (i 0) (i 1)).trans ?_
    refine Eq.trans ?_ ((congrArg (Cert.KernelIdeal.Hand.W12 m ρ c (Proc.devRef .tc Cert.KernelIdeal.main_v86)) (eq_ix2 i)).trans
      (Cert.KernelIdeal.Val.kernel_val m ρ c (i 0) (i 1))).symm
    rw [nodes_same m ρ c hpre]
    rfl

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
